-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S4x128 .f32) (main_arg9 : FVec F S128x10 .f32) (main_arg10 : FVec F S10 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S128x10 .f32 := Host.absf main_arg9
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S4x128x128 .f32) (main_arg6 : FVec F S4x128 .f32) (main_arg7 : FVec F S4x128 .f32) (main_arg8 : FVec F S4x128 .f32) (main_arg9 : FVec F S128x10 .f32) (main_arg10 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg5
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x1 .f32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S2000x128 : Shape := ⟨2, ![2000, 128]⟩
abbrev S1x128x128 : Shape := ⟨3, ![1, 128, 128]⟩
abbrev S850000x128 : Shape := ⟨2, ![850000, 128]⟩
abbrev S1x10 : Shape := ⟨2, ![1, 10]⟩
abbrev S50000x10 : Shape := ⟨2, ![50000, 10]⟩
abbrev S2000x10 : Shape := ⟨2, ![2000, 10]⟩

abbrev nBuf : Space → Nat
  | .hbm => 193
  | .vmem => 100
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S128x10, .f32⟩
  | 10 => ⟨S10, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S1x128, .f32⟩
  | 52 => ⟨S50000x128, .f32⟩
  | 53 => ⟨S_, .f32⟩
  | 54 => ⟨S128, .f32⟩
  | 55 => ⟨S1x128x128, .f32⟩
  | 56 => ⟨S128x128, .f32⟩
  | 57 => ⟨S1x128, .f32⟩
  | 58 => ⟨S50000x128, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x1, .f32⟩
  | 69 => ⟨S850000x128, .f32⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S1x128, .f32⟩
  | 82 => ⟨S1x128, .f32⟩
  | 83 => ⟨S128, .f32⟩
  | 84 => ⟨S1x128, .f32⟩
  | 85 => ⟨S1x128, .f32⟩
  | 86 => ⟨S128, .f32⟩
  | 87 => ⟨S1x128, .f32⟩
  | 88 => ⟨S50000x128, .f32⟩
  | 89 => ⟨S1x128x128, .f32⟩
  | 90 => ⟨S128x128, .f32⟩
  | 91 => ⟨S1x128, .f32⟩
  | 92 => ⟨S50000x128, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x128, .f32⟩
  | 102 => ⟨S850000x1, .f32⟩
  | 103 => ⟨S850000x128, .f32⟩
  | 104 => ⟨S850000x128, .f32⟩
  | 105 => ⟨S_, .f32⟩
  | 106 => ⟨S50000x128, .f32⟩
  | 107 => ⟨S850000x1, .i32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S1x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S50000x128, .f32⟩
  | 123 => ⟨S1x128x128, .f32⟩
  | 124 => ⟨S128x128, .f32⟩
  | 125 => ⟨S1x128, .f32⟩
  | 126 => ⟨S50000x128, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000x128, .f32⟩
  | 8 => ⟨S850000x1, .f32⟩
  | 9 => ⟨S850000x128, .f32⟩
  | 10 => ⟨S850000x128, .f32⟩
  | 11 => ⟨S_, .f32⟩
  | 12 => ⟨S50000x128, .f32⟩
  | 13 => ⟨S850000x1, .i32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S1x128, .f32⟩
  | 22 => ⟨S1x128, .f32⟩
  | 23 => ⟨S128, .f32⟩
  | 24 => ⟨S1x128, .f32⟩
  | 25 => ⟨S1x128, .f32⟩
  | 26 => ⟨S128, .f32⟩
  | 27 => ⟨S1x128, .f32⟩
  | 28 => ⟨S50000x128, .f32⟩
  | 29 => ⟨S1x128x128, .f32⟩
  | 30 => ⟨S128x128, .f32⟩
  | 31 => ⟨S1x128, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x128, .f32⟩
  | 42 => ⟨S850000x1, .f32⟩
  | 43 => ⟨S850000x128, .f32⟩
  | 44 => ⟨S850000x128, .f32⟩
  | 45 => ⟨S_, .f32⟩
  | 46 => ⟨S50000x128, .f32⟩
  | 47 => ⟨S850000x1, .i32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S1x128, .f32⟩
  | 56 => ⟨S1x128, .f32⟩
  | 57 => ⟨S128, .f32⟩
  | 58 => ⟨S1x128, .f32⟩
  | 59 => ⟨S1x128, .f32⟩
  | 60 => ⟨S128, .f32⟩
  | 61 => ⟨S1x128, .f32⟩
  | 62 => ⟨S50000x128, .f32⟩
  | 63 => ⟨S1x10, .f32⟩
  | 64 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S128x128, .f32⟩
  | .local _ .vmem, ⟨75, _⟩ => ⟨S1x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S2000x128, .f32⟩
  | .local _ .vmem, ⟨88, _⟩ => ⟨S1x128, .f32⟩
  | .local _ .vmem, ⟨89, _⟩ => ⟨S1x128, .f32⟩
  | .local _ .vmem, ⟨90, _⟩ => ⟨S1x128, .f32⟩
  | .local _ .vmem, ⟨91, _⟩ => ⟨S1x128, .f32⟩
  | .local _ .vmem, ⟨92, _⟩ => ⟨S2000x128, .f32⟩
  | .local _ .vmem, ⟨93, _⟩ => ⟨S2000x128, .f32⟩
  | .local _ .vmem, ⟨94, _⟩ => ⟨S2000x128, .f32⟩
  | .local _ .vmem, ⟨95, _⟩ => ⟨S2000x128, .f32⟩
  | .local _ .vmem, ⟨96, _⟩ => ⟨S128x10, .f32⟩
  | .local _ .vmem, ⟨97, _⟩ => ⟨S1x10, .f32⟩
  | .local _ .vmem, ⟨98, _⟩ => ⟨S2000x10, .f32⟩
  | .local _ .vmem, ⟨99, _⟩ => ⟨S2000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55_0 : Ref sig .tc := ⟨.hbm, 80, rfl⟩
abbrev main_v55_1 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_10 : Ref sig .tc := ⟨.hbm, 93, rfl⟩
abbrev main_v67 : Ref sig .tc := ⟨.hbm, 94, rfl⟩
abbrev main_v68 : Ref sig .tc := ⟨.hbm, 95, rfl⟩
abbrev main_c_11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85_0 : Ref sig .tc := ⟨.hbm, 114, rfl⟩
abbrev main_v85_1 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_13 : Ref sig .tc := ⟨.hbm, 127, rfl⟩
abbrev main_v97 : Ref sig .tc := ⟨.hbm, 128, rfl⟩
abbrev main_v98 : Ref sig .tc := ⟨.hbm, 129, rfl⟩
abbrev main_c_14 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_15 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115_0 : Ref sig .tc := ⟨.hbm, 148, rfl⟩
abbrev main_v115_1 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_c_16 : Ref sig .tc := ⟨.hbm, 161, rfl⟩
abbrev main_v127 : Ref sig .tc := ⟨.hbm, 162, rfl⟩
abbrev main_v128 : Ref sig .tc := ⟨.hbm, 163, rfl⟩
abbrev main_c_17 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_18 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145_0 : Ref sig .tc := ⟨.hbm, 182, rfl⟩
abbrev main_v145_1 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_scratch0 : Ref sig .tc := ⟨.vmem, 16, rfl⟩
abbrev cc2_scratch1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_scratch0 : Ref sig .tc := ⟨.vmem, 38, rfl⟩
abbrev cc5_scratch1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg6_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_scratch0 : Ref sig .tc := ⟨.vmem, 60, rfl⟩
abbrev cc8_scratch1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg5_0 : Ref sig .tc := ⟨.vmem, 69, rfl⟩
abbrev cc9_stg6_0 : Ref sig .tc := ⟨.vmem, 70, rfl⟩
abbrev cc9_stg6_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg3_0 : Ref sig .tc := ⟨.vmem, 76, rfl⟩
abbrev cc10_stg3_1 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg2_0 : Ref sig .tc := ⟨.vmem, 81, rfl⟩
abbrev cc11_scratch0 : Ref sig .tc := ⟨.vmem, 82, rfl⟩
abbrev cc11_scratch1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg1_1 : Ref sig .tc := ⟨.vmem, 87, rfl⟩
abbrev cc12_stg2_0 : Ref sig .tc := ⟨.vmem, 88, rfl⟩
abbrev cc12_stg3_0 : Ref sig .tc := ⟨.vmem, 89, rfl⟩
abbrev cc12_stg4_0 : Ref sig .tc := ⟨.vmem, 90, rfl⟩
abbrev cc12_stg5_0 : Ref sig .tc := ⟨.vmem, 91, rfl⟩
abbrev cc12_stg6_0 : Ref sig .tc := ⟨.vmem, 92, rfl⟩
abbrev cc12_stg6_1 : Ref sig .tc := ⟨.vmem, 93, rfl⟩
abbrev cc13_stg0_0 : Ref sig .tc := ⟨.vmem, 94, rfl⟩
abbrev cc13_stg0_1 : Ref sig .tc := ⟨.vmem, 95, rfl⟩
abbrev cc13_stg1_0 : Ref sig .tc := ⟨.vmem, 96, rfl⟩
abbrev cc13_stg2_0 : Ref sig .tc := ⟨.vmem, 97, rfl⟩
abbrev cc13_stg3_0 : Ref sig .tc := ⟨.vmem, 98, rfl⟩
abbrev cc13_stg3_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem3_0 : DmaSem sig := 41
abbrev cc6_sem4_0 : DmaSem sig := 42
abbrev cc6_sem5_0 : DmaSem sig := 43
abbrev cc6_sem6_0 : DmaSem sig := 44
abbrev cc6_sem6_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem3_0 : DmaSem sig := 61
abbrev cc9_sem4_0 : DmaSem sig := 62
abbrev cc9_sem5_0 : DmaSem sig := 63
abbrev cc9_sem6_0 : DmaSem sig := 64
abbrev cc9_sem6_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem3_0 : DmaSem sig := 70
abbrev cc10_sem3_1 : DmaSem sig := 71
abbrev cc11_sem0_0 : DmaSem sig := 72
abbrev cc11_sem0_1 : DmaSem sig := 73
abbrev cc11_sem1_0 : DmaSem sig := 74
abbrev cc11_sem2_0 : DmaSem sig := 75
abbrev cc12_sem0_0 : DmaSem sig := 76
abbrev cc12_sem0_1 : DmaSem sig := 77
abbrev cc12_sem1_0 : DmaSem sig := 78
abbrev cc12_sem1_1 : DmaSem sig := 79
abbrev cc12_sem2_0 : DmaSem sig := 80
abbrev cc12_sem3_0 : DmaSem sig := 81
abbrev cc12_sem4_0 : DmaSem sig := 82
abbrev cc12_sem5_0 : DmaSem sig := 83
abbrev cc12_sem6_0 : DmaSem sig := 84
abbrev cc12_sem6_1 : DmaSem sig := 85
abbrev cc13_sem0_0 : DmaSem sig := 86
abbrev cc13_sem0_1 : DmaSem sig := 87
abbrev cc13_sem1_0 : DmaSem sig := 88
abbrev cc13_sem2_0 : DmaSem sig := 89
abbrev cc13_sem3_0 : DmaSem sig := 90
abbrev cc13_sem3_1 : DmaSem sig := 91

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def k8_cond2 (i : grid8.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S2000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def k11_cond2 (i : grid11.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S2000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x10 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x10 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S2000x10 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S128 : S_.BroadcastsInDim S128 (![] : Fin 0 → Fin S128.rank)
  slices_S4x128x128_S1x128x128_0_0_0 : S4x128x128.Slices ![0, 0, 0] S1x128x128
  shapeCasts_S1x128x128_S128x128 : S1x128x128.ShapeCasts S128x128
  shapeCasts_S2000x128_S2000x128 : S2000x128.ShapeCasts S2000x128
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reduces_S2000x128_S128 : S2000x128.Reduces [0] S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x10_S2000x10_1_0_0_1_n_n_wf : DotDims.WF S2000x128 S128x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S50000x128.size a
  hwx6_6 : ∀ i : grid6.Coords, EltTy.bits .f32 = 32 ∨ (Rect.block (s := S50000x128) S2000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x128.size a ≤ S50000x128.size a
  hwx9_6 : ∀ i : grid9.Coords, EltTy.bits .f32 = 32 ∨ (Rect.block (s := S50000x128) S2000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S50000x128.size a
  hwx10_3 : ∀ i : grid10.Coords, EltTy.bits .f32 = 32 ∨ (Rect.block (s := S50000x128) S2000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x128.size a ≤ S50000x128.size a
  hwx12_1 : ∀ i : grid12.Coords, EltTy.bits .f32 = 32 ∨ (Rect.block (s := S50000x128) S2000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S2000x128.size a ≤ S50000x128.size a
  hwx12_6 : ∀ i : grid12.Coords, EltTy.bits .f32 = 32 ∨ (Rect.block (s := S50000x128) S2000x128.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x10.size a ≤ S128x10.size a
  hwx13_1 : ∀ i : grid13.Coords, EltTy.bits .f32 = 32 ∨ (Rect.block (s := S128x10) S128x10.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x10.size a ≤ S1x10.size a
  hwx13_2 : ∀ i : grid13.Coords, EltTy.bits .f32 = 32 ∨ (Rect.block (s := S1x10) S1x10.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x10.size a ≤ S50000x10.size a
  hwx13_3 : ∀ i : grid13.Coords, EltTy.bits .f32 = 32 ∨ (Rect.block (s := S50000x10) S2000x10.size (cc13_transform_3 i) (hinb13_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55_0) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55_1) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v62) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v84) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85_0) S1x128.size cc5_transform_1 reads5_1 true true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85_1) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun i => !(k5_cond2 i == 1#1) | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v84) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v62) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v85_0) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85_1) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v88) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v91) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v92) S2000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v92) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v114) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v115_0) S1x128.size cc8_transform_1 reads8_1 true true 1 stage8_1 sem8_1
    hrank8 hreads8_1 hinb8_1 nbuf8_1 (Memref.isWhole_whole _) hwx8_1 hstage8_1

abbrev win8_2 : Pipeline.Window sig grid8 :=
  Pipeline.Window.ofSpec (Memref.whole main_v115_1) S1x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun i => !(k8_cond2 i == 1#1) | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v114) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v92) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v115_0) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v115_1) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v118) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v121) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v122) S2000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v122) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v124) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v125) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v126) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v144) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v145_0) S1x128.size cc11_transform_1 reads11_1 true true 1 stage11_1 sem11_1
    hrank11 hreads11_1 hinb11_1 nbuf11_1 (Memref.isWhole_whole _) hwx11_1 hstage11_1

abbrev win11_2 : Pipeline.Window sig grid11 :=
  Pipeline.Window.ofSpec (Memref.whole main_v145_1) S1x128.size cc11_transform_2 reads11_2 true true 1 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun i => !(k11_cond2 i == 1#1) | 2 => fun i => !(k11_cond2 i == 1#1) | ⟨_ + 3, h⟩ => absurd h (Nat.not_lt.2 (Nat.le_add_left _ _))

abbrev win12_0 : Pipeline.Window sig grid12 :=
  Pipeline.Window.ofSpec (Memref.whole main_v144) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v122) S2000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v145_0) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v145_1) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v148) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v151) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v152) S2000x128.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v152) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg9) S128x10.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v153) S1x10.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v154) S2000x10.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x128x128 : Shape := ⟨3, ![1, 128, 128]⟩
abbrev S850000x128 : Shape := ⟨2, ![850000, 128]⟩
abbrev S50000x10 : Shape := ⟨2, ![50000, 10]⟩
abbrev S1x10 : Shape := ⟨2, ![1, 10]⟩

abbrev nBuf : Space → Nat
  | .hbm => 363
  | .vmem => 0
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S128x10, .f32⟩
  | 10 => ⟨S10, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S1x128, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128x128, .f32⟩
  | 4 => ⟨S128x128, .f32⟩
  | 5 => ⟨S50000x128, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .f32⟩
  | 15 => ⟨S850000x1, .f32⟩
  | 16 => ⟨S850000x128, .f32⟩
  | 17 => ⟨S850000x128, .f32⟩
  | 18 => ⟨S_, .f32⟩
  | 19 => ⟨S50000x128, .f32⟩
  | 20 => ⟨S850000x1, .i32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S128, .f32⟩
  | 29 => ⟨S_, .f32⟩
  | 30 => ⟨S128, .f32⟩
  | 31 => ⟨S128, .f32⟩
  | 32 => ⟨S_, .i32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S50000x128, .f32⟩
  | 40 => ⟨S50000x128, .f32⟩
  | 41 => ⟨S50000x128, .f32⟩
  | 42 => ⟨S_, .f32⟩
  | 43 => ⟨S_, .f32⟩
  | 44 => ⟨S_, .f32⟩
  | 45 => ⟨S_, .f32⟩
  | 46 => ⟨S128, .f32⟩
  | 47 => ⟨S128, .f32⟩
  | 48 => ⟨S128, .f32⟩
  | 49 => ⟨S_, .f32⟩
  | 50 => ⟨S_, .i1⟩
  | 51 => ⟨S_, .f32⟩
  | 52 => ⟨S_, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S_, .f32⟩
  | 59 => ⟨S128, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x1, .f32⟩
  | 92 => ⟨S850000x128, .f32⟩
  | 93 => ⟨S850000x128, .f32⟩
  | 94 => ⟨S_, .f32⟩
  | 95 => ⟨S50000x128, .f32⟩
  | 96 => ⟨S850000x1, .i32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000x128, .f32⟩

abbrev hbmTy0_2 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x128, .f32⟩
  | 39 => ⟨S850000x1, .f32⟩
  | 40 => ⟨S850000x128, .f32⟩
  | 41 => ⟨S850000x128, .f32⟩
  | 42 => ⟨S_, .f32⟩
  | 43 => ⟨S50000x128, .f32⟩
  | 44 => ⟨S850000x1, .i32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S50000x10, .f32⟩
  | 104 => ⟨S1x10, .f32⟩
  | 105 => ⟨S50000x10, .f32⟩
  | 106 => ⟨S50000x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_cst_3 : Ref sig .tc := ⟨.hbm, 101, rfl⟩
abbrev main_call1_v12 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_12 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_call2_cst : Ref sig .tc := ⟨.hbm, 127, rfl⟩
abbrev main_call2_v0 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_c_13 : Ref sig .tc := ⟨.hbm, 134, rfl⟩
abbrev main_v83 : Ref sig .tc := ⟨.hbm, 135, rfl⟩
abbrev main_v84 : Ref sig .tc := ⟨.hbm, 136, rfl⟩
abbrev main_c_14 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_15 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_16 : Ref sig .tc := ⟨.hbm, 155, rfl⟩
abbrev main_v101 : Ref sig .tc := ⟨.hbm, 156, rfl⟩
abbrev main_cst_17 : Ref sig .tc := ⟨.hbm, 157, rfl⟩
abbrev main_v102 : Ref sig .tc := ⟨.hbm, 158, rfl⟩
abbrev main_v103 : Ref sig .tc := ⟨.hbm, 159, rfl⟩
abbrev main_c_18 : Ref sig .tc := ⟨.hbm, 160, rfl⟩
abbrev main_call3_cst : Ref sig .tc := ⟨.hbm, 161, rfl⟩
abbrev main_call3_v0 : Ref sig .tc := ⟨.hbm, 162, rfl⟩
abbrev main_call3_v1 : Ref sig .tc := ⟨.hbm, 163, rfl⟩
abbrev main_call3_cst_0 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_v7 : Ref sig .tc := ⟨.hbm, 170, rfl⟩
abbrev main_call3_cst_1 : Ref sig .tc := ⟨.hbm, 171, rfl⟩
abbrev main_call3_v8 : Ref sig .tc := ⟨.hbm, 172, rfl⟩
abbrev main_call3_cst_2 : Ref sig .tc := ⟨.hbm, 173, rfl⟩
abbrev main_call3_v9 : Ref sig .tc := ⟨.hbm, 174, rfl⟩
abbrev main_call3_v10 : Ref sig .tc := ⟨.hbm, 175, rfl⟩
abbrev main_call3_v11 : Ref sig .tc := ⟨.hbm, 176, rfl⟩
abbrev main_call3_cst_3 : Ref sig .tc := ⟨.hbm, 177, rfl⟩
abbrev main_call3_v12 : Ref sig .tc := ⟨.hbm, 178, rfl⟩
abbrev main_call3_cst_4 : Ref sig .tc := ⟨.hbm, 179, rfl⟩
abbrev main_call3_call0_v0 : Ref sig .tc := ⟨.hbm, 180, rfl⟩
abbrev main_call3_call0_v1 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_cst_19 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_call4_cst : Ref sig .tc := ⟨.hbm, 203, rfl⟩
abbrev main_call4_v0 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_c_20 : Ref sig .tc := ⟨.hbm, 210, rfl⟩
abbrev main_v129 : Ref sig .tc := ⟨.hbm, 211, rfl⟩
abbrev main_v130 : Ref sig .tc := ⟨.hbm, 212, rfl⟩
abbrev main_c_21 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_cst_22 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_cst_23 : Ref sig .tc := ⟨.hbm, 231, rfl⟩
abbrev main_v147 : Ref sig .tc := ⟨.hbm, 232, rfl⟩
abbrev main_cst_24 : Ref sig .tc := ⟨.hbm, 233, rfl⟩
abbrev main_v148 : Ref sig .tc := ⟨.hbm, 234, rfl⟩
abbrev main_v149 : Ref sig .tc := ⟨.hbm, 235, rfl⟩
abbrev main_c_25 : Ref sig .tc := ⟨.hbm, 236, rfl⟩
abbrev main_call5_cst : Ref sig .tc := ⟨.hbm, 237, rfl⟩
abbrev main_call5_v0 : Ref sig .tc := ⟨.hbm, 238, rfl⟩
abbrev main_call5_v1 : Ref sig .tc := ⟨.hbm, 239, rfl⟩
abbrev main_call5_cst_0 : Ref sig .tc := ⟨.hbm, 240, rfl⟩
abbrev main_call5_v2 : Ref sig .tc := ⟨.hbm, 241, rfl⟩
abbrev main_call5_v3 : Ref sig .tc := ⟨.hbm, 242, rfl⟩
abbrev main_call5_v4 : Ref sig .tc := ⟨.hbm, 243, rfl⟩
abbrev main_call5_v5 : Ref sig .tc := ⟨.hbm, 244, rfl⟩
abbrev main_call5_v6 : Ref sig .tc := ⟨.hbm, 245, rfl⟩
abbrev main_call5_v7 : Ref sig .tc := ⟨.hbm, 246, rfl⟩
abbrev main_call5_cst_1 : Ref sig .tc := ⟨.hbm, 247, rfl⟩
abbrev main_call5_v8 : Ref sig .tc := ⟨.hbm, 248, rfl⟩
abbrev main_call5_cst_2 : Ref sig .tc := ⟨.hbm, 249, rfl⟩
abbrev main_call5_v9 : Ref sig .tc := ⟨.hbm, 250, rfl⟩
abbrev main_call5_v10 : Ref sig .tc := ⟨.hbm, 251, rfl⟩
abbrev main_call5_v11 : Ref sig .tc := ⟨.hbm, 252, rfl⟩
abbrev main_call5_cst_3 : Ref sig .tc := ⟨.hbm, 253, rfl⟩
abbrev main_call5_v12 : Ref sig .tc := ⟨.hbm, 254, rfl⟩
abbrev main_call5_cst_4 : Ref sig .tc := ⟨.hbm, 255, rfl⟩
abbrev main_call5_call0_v0 : Ref sig .tc := ⟨.hbm, 256, rfl⟩
abbrev main_call5_call0_v1 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_cst_26 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_call6_cst : Ref sig .tc := ⟨.hbm, 279, rfl⟩
abbrev main_call6_v0 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_c_27 : Ref sig .tc := ⟨.hbm, 286, rfl⟩
abbrev main_v175 : Ref sig .tc := ⟨.hbm, 287, rfl⟩
abbrev main_v176 : Ref sig .tc := ⟨.hbm, 288, rfl⟩
abbrev main_c_28 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_cst_29 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_cst_30 : Ref sig .tc := ⟨.hbm, 307, rfl⟩
abbrev main_v193 : Ref sig .tc := ⟨.hbm, 308, rfl⟩
abbrev main_cst_31 : Ref sig .tc := ⟨.hbm, 309, rfl⟩
abbrev main_v194 : Ref sig .tc := ⟨.hbm, 310, rfl⟩
abbrev main_v195 : Ref sig .tc := ⟨.hbm, 311, rfl⟩
abbrev main_c_32 : Ref sig .tc := ⟨.hbm, 312, rfl⟩
abbrev main_call7_cst : Ref sig .tc := ⟨.hbm, 313, rfl⟩
abbrev main_call7_v0 : Ref sig .tc := ⟨.hbm, 314, rfl⟩
abbrev main_call7_v1 : Ref sig .tc := ⟨.hbm, 315, rfl⟩
abbrev main_call7_cst_0 : Ref sig .tc := ⟨.hbm, 316, rfl⟩
abbrev main_call7_v2 : Ref sig .tc := ⟨.hbm, 317, rfl⟩
abbrev main_call7_v3 : Ref sig .tc := ⟨.hbm, 318, rfl⟩
abbrev main_call7_v4 : Ref sig .tc := ⟨.hbm, 319, rfl⟩
abbrev main_call7_v5 : Ref sig .tc := ⟨.hbm, 320, rfl⟩
abbrev main_call7_v6 : Ref sig .tc := ⟨.hbm, 321, rfl⟩
abbrev main_call7_v7 : Ref sig .tc := ⟨.hbm, 322, rfl⟩
abbrev main_call7_cst_1 : Ref sig .tc := ⟨.hbm, 323, rfl⟩
abbrev main_call7_v8 : Ref sig .tc := ⟨.hbm, 324, rfl⟩
abbrev main_call7_cst_2 : Ref sig .tc := ⟨.hbm, 325, rfl⟩
abbrev main_call7_v9 : Ref sig .tc := ⟨.hbm, 326, rfl⟩
abbrev main_call7_v10 : Ref sig .tc := ⟨.hbm, 327, rfl⟩
abbrev main_call7_v11 : Ref sig .tc := ⟨.hbm, 328, rfl⟩
abbrev main_call7_cst_3 : Ref sig .tc := ⟨.hbm, 329, rfl⟩
abbrev main_call7_v12 : Ref sig .tc := ⟨.hbm, 330, rfl⟩
abbrev main_call7_cst_4 : Ref sig .tc := ⟨.hbm, 331, rfl⟩
abbrev main_call7_call0_v0 : Ref sig .tc := ⟨.hbm, 332, rfl⟩
abbrev main_call7_call0_v1 : Ref sig .tc := ⟨.hbm, 333, rfl⟩
abbrev main_v196 : Ref sig .tc := ⟨.hbm, 334, rfl⟩
abbrev main_v197 : Ref sig .tc := ⟨.hbm, 335, rfl⟩
abbrev main_v198 : Ref sig .tc := ⟨.hbm, 336, rfl⟩
abbrev main_v199 : Ref sig .tc := ⟨.hbm, 337, rfl⟩
abbrev main_cst_33 : Ref sig .tc := ⟨.hbm, 338, rfl⟩
abbrev main_v200 : Ref sig .tc := ⟨.hbm, 339, rfl⟩
abbrev main_v201 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_v211 : Ref sig .tc := ⟨.hbm, 350, rfl⟩
abbrev main_v212 : Ref sig .tc := ⟨.hbm, 351, rfl⟩
abbrev main_v213 : Ref sig .tc := ⟨.hbm, 352, rfl⟩
abbrev main_v214 : Ref sig .tc := ⟨.hbm, 353, rfl⟩
abbrev main_v215 : Ref sig .tc := ⟨.hbm, 354, rfl⟩
abbrev main_call8_cst : Ref sig .tc := ⟨.hbm, 355, rfl⟩
abbrev main_call8_v0 : Ref sig .tc := ⟨.hbm, 356, rfl⟩
abbrev main_v216 : Ref sig .tc := ⟨.hbm, 357, rfl⟩
abbrev main_v217 : Ref sig .tc := ⟨.hbm, 358, rfl⟩
abbrev main_v218 : Ref sig .tc := ⟨.hbm, 359, rfl⟩
abbrev main_v219 : Ref sig .tc := ⟨.hbm, 360, rfl⟩
abbrev main_v220 : Ref sig .tc := ⟨.hbm, 361, rfl⟩
abbrev main_v221 : Ref sig .tc := ⟨.hbm, 362, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x10_S50000x10_1_0_0_1_n_n_wf : DotDims.WF S50000x128 S128x10 S50000x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.K.R1.lean ====
import proofs.«137587_j59279138619792_1_alg».proof.Proof.Gen.Kernel.Launch
import proofs.«137587_j59279138619792_1_alg».proof.Proof.Gen.Kernel.Skeleton
import proofs.«137587_j59279138619792_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S2000x128 .f32) (x1 : Vec F S128x128 .f32) (x2 : Vec F S1x128 .f32) : Vec F S2000x128 .f32 :=
  View.canon [⟨r1_3, k1_pay1 (View.ld x0 r1_0) (View.ld x1 r1_1) (View.ld x2 r1_2)⟩]

set_option maxHeartbeats 1000000 in
-- The one store covers the whole output block, so what the output reads afterwards depends on the three inputs only.
theorem sound_kernel1 (c : Dev nD) (E : Set ℕ) i (P Q : sProp (MT nD τ sig Unit (Elt F) ℕ (UR sig nD τ) ℕ)) {arg0 arg1 arg2 arg3} harg0 harg1 harg2 harg3
    {D0 D1 D2 D3 : Type} {b3 : D3 → _} {x0 x1 x2} :
    iprop(P ∗ Q ∗ (∃ _ : D0, owns c.tc arg0 fullShare x0) ∗ (∃ _ : D1, owns c.tc arg1 fullShare x1) ∗ (∃ _ : D2, owns c.tc arg2 fullShare x2)
        ∗ (∃ d, owns c.tc arg3 fullShare (b3 d)))
      ⊢ wp frame (wpE (defs₀ (F := F)) Variants.none c none) E (cc1__matmul_bias_kernel i arg0 harg0 arg1 harg1 arg2 harg2 arg3 harg3) fun _ =>
        iprop(P ∗ Q ∗ owns c.tc arg0 fullShare x0 ∗ owns c.tc arg1 fullShare x1 ∗ owns c.tc arg2 fullShare x2
          ∗ owns c.tc arg3 fullShare (out1_3 x0 x1 x2)) := by
  simp only [cc1__matmul_bias_kernel_eq_skeleton]; unfold cc1__matmul_bias_kernel_skel owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe HP HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S2000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1 (c : Dev nD) (t) : (∀ d, (dat1 V c).before 0 t d = iblk1 V c 0 t) ∧ (∀ d, (dat1 V c).before 1 t d = iblk1 V c 1 t)
    ∧ ∀ d, (dat1 V c).before 2 t d = iblk1 V c 2 t := by
  refine ⟨?_, ?_, ?_⟩ <;> exact (dat1 V c).before_in_eq_fetched _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  simp only [before1 V c t]
  dsimp only [dat1]
  exact sound_kernel1 c _ (grid1.coords t) _ _ (hstage1_0 _) (hstage1_1 _) (hstage1_2 _) (hstage1_3 _)

end Cert.Kernel.Gen

end
-- ==== Proof.K.R0.lean ====
import proofs.«137587_j59279138619792_1_alg».proof.Proof.K.R1

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S2000x128 .f32) (x1 : Vec F S128x128 .f32) (x2 : Vec F S1x128 .f32) : Vec F S2000x128 .f32 :=
  View.canon [⟨r1_3, k0_pay1 (View.ld x0 r1_0) (View.ld x1 r1_1) (View.ld x2 r1_2)⟩]

set_option maxHeartbeats 1000000 in
-- The one store covers the whole output block, so what the output reads afterwards depends on the three inputs only.
theorem sound_kernel0 (c : Dev nD) (E : Set ℕ) i (P Q : sProp (MT nD τ sig Unit (Elt F) ℕ (UR sig nD τ) ℕ)) {arg0 arg1 arg2 arg3} harg0 harg1 harg2 harg3
    {D0 D1 D2 D3 : Type} {b3 : D3 → _} {x0 x1 x2} :
    iprop(P ∗ Q ∗ (∃ _ : D0, owns c.tc arg0 fullShare x0) ∗ (∃ _ : D1, owns c.tc arg1 fullShare x1) ∗ (∃ _ : D2, owns c.tc arg2 fullShare x2)
        ∗ (∃ d, owns c.tc arg3 fullShare (b3 d)))
      ⊢ wp frame (wpE (defs₀ (F := F)) Variants.none c none) E (cc0__matmul_bias_kernel i arg0 harg0 arg1 harg1 arg2 harg2 arg3 harg3) fun _ =>
        iprop(P ∗ Q ∗ owns c.tc arg0 fullShare x0 ∗ owns c.tc arg1 fullShare x1 ∗ owns c.tc arg2 fullShare x2
          ∗ owns c.tc arg3 fullShare (out0_3 x0 x1 x2)) := by
  simp only [cc0__matmul_bias_kernel_eq_skeleton]; unfold cc0__matmul_bias_kernel_skel owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe HP HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0 (c : Dev nD) (t) : (∀ d, (dat0 V c).before 0 t d = iblk0 V c 0 t) ∧ (∀ d, (dat0 V c).before 1 t d = iblk0 V c 1 t)
    ∧ ∀ d, (dat0 V c).before 2 t d = iblk0 V c 2 t := by
  refine ⟨?_, ?_, ?_⟩ <;> exact (dat0 V c).before_in_eq_fetched _ rfl (fun _ => rfl) (fun _ _ _ => rfl) (fun _ => rfl) t

theorem body_obligation0 (c : Dev nD) : BodyObligation (dat0 (F := F) V c) (defs₀ (F := F)) Variants.none () Set.univ := fun t => by
  rw [bigSep_W0, bigSep_W0]
  simp only [before0 V c t]
  dsimp only [dat0]
  exact sound_kernel0 c _ (grid0.coords t) _ _ (hstage0_0 _) (hstage0_1 _) (hstage0_2 _) (hstage0_3 _)

end Cert.Kernel.Gen

end
-- ==== Proof.K.R2.lean ====
import proofs.«137587_j59279138619792_1_alg».proof.Proof.Gen.Kernel.Launch
import proofs.«137587_j59279138619792_1_alg».proof.Proof.Gen.Kernel.Skeleton
import proofs.«137587_j59279138619792_1_alg».proof.Proof.Gen.Kernel.Points
import Idealize.ShloMosaic.Lib.Pipeline.FrameBody
import Idealize.ShloMosaic.Lib.Tactic
import Idealize.ShloMosaic.Lib.Pipeline.Value

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S1x128 .f32 × Vec F S1x128 .f32
  | 0, h => (k2_pay4 (iblk2 V c 0 ⟨0, h⟩) k2_pay1, k2_pay5 (iblk2 V c 0 ⟨0, h⟩) k2_pay2)
  | n + 1, h => (k2_pay4 (iblk2 V c 0 ⟨n + 1, h⟩) (accAt2 c n (Nat.lt_of_succ_lt h)).1,
      k2_pay5 (iblk2 V c 0 ⟨n + 1, h⟩) (accAt2 c n (Nat.lt_of_succ_lt h)).2)

theorem accAt2_zero (c : Dev nD) (h : 0 < cfg2.N) :
    accAt2 V c 0 h = (k2_pay4 (iblk2 V c 0 ⟨0, h⟩) k2_pay1, k2_pay5 (iblk2 V c 0 ⟨0, h⟩) k2_pay2) := rfl

theorem accAt2_succ (c : Dev nD) (n : ℕ) (h : n + 1 < cfg2.N) :
    accAt2 V c (n + 1) h = (k2_pay4 (iblk2 V c 0 ⟨n + 1, h⟩) (accAt2 V c n (Nat.lt_of_succ_lt h)).1,
      k2_pay5 (iblk2 V c 0 ⟨n + 1, h⟩) (accAt2 V c n (Nat.lt_of_succ_lt h)).2) := rfl

abbrev scM2_0 : Memref sig .tc .vmem S1x128 .f32 := Memref.whole cc2_scratch0
abbrev scM2_1 : Memref sig .tc .vmem S1x128 .f32 := Memref.whole cc2_scratch1

def Phi2 (c : Dev nD) : (n : ℕ) → n ≤ cfg2.N → sProp 𝕄
  | 0, _ => Pipeline.ΦA spec2 c
  | n + 1, hn => iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]
      ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => k2_pay6 (accAt2 V c t.val t.isLt).1
    | ⟨2, _⟩ => k2_pay7 (accAt2 V c t.val t.isLt).1 (accAt2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = k2_pay6 (accAt2 V c t.val t.isLt).1 := by dsimp only [dat2]
theorem after2_2 (c : Dev nD) (t : Fin cfg2.N) :
    (dat2 V c).after 2 t = k2_pay7 (accAt2 V c t.val t.isLt).1 (accAt2 V c t.val t.isLt).2 := by dsimp only [dat2]

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

theorem hz2 : (![0, 0] : Fin 2 → Nat) = fun _ => 0 := funext fun a => by fin_cases a <;> rfl

-- A row whose newest store covers it whole reads as that store's payload, whatever was stored before.
theorem read_store2 (m : Memref sig .tc .vmem S1x128 .f32) (f : m.view.ty.Contents (Elt F)) (w : Vec F S1x128 .f32)
    (L : List (View.Piece (Elt F) S1x128 .f32)) :
    m.view.read (Elt F) (m.view.writes (Elt F) f (⟨Rect.unit ![0, 0] S1x128.size inb_S1x128_S1x128_0_0, w⟩ :: L)) = w :=
  (View.read_writes_eq_canon _ _ _ fun y => ⟨_, List.mem_cons_self, View.mem_set_unit_zero hz2 inb_S1x128_S1x128_0_0 y⟩).trans
    (View.canon_cons_unit_zero hz2 _ w L)

theorem sound_kernel2_A (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : cond2_0 i) (hc1 : ¬cond2_1 i)
    (x0 : Vec F S2000x128 .f32) (xi1 xi2 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 k2_pay1) ∗ owns (c : Thread nD τ) arg5 fullShare (k2_pay5 x0 k2_pay2)) -∗ K ⟨⟩))
      ⊢ wp frame (wpE (defs₀ (F := F)) Variants.none c none) E (cc2__meanvar_kernel i arg1 harg1 arg2 harg2 arg3 harg3 arg4 harg4 arg5 harg5) K := by
  simp only [cc2__meanvar_kernel_eq_skeleton]; unfold cc2__meanvar_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  (try sl_unfold_words)
  simp only [View.readAt_eq_ld, harg1.read_unread, View.ld_unit_zero (S := S2000x128) hz2, View.readCov_unit_zero (S := S1x128) _ hz2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro; exact read_store2 _ _ _ _
  iexists _; isplitr
  swap; · iexact HS1
  ipureintro; exact read_store2 _ _ _ _

theorem sound_kernel2_B (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : ¬cond2_0 i) (hc1 : ¬cond2_1 i)
    (x0 : Vec F S2000x128 .f32) (xi1 xi2 xs0 xs1 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__meanvar_kernel i arg1 harg1 arg2 harg2 arg3 harg3 arg4 harg4 arg5 harg5) K := by
  simp only [cc2__meanvar_kernel_eq_skeleton]; unfold cc2__meanvar_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  simp only [View.readAt_eq_ld, harg1.read_unread, harg4.read_unread, harg5.read_unread, View.ld_unit_zero (S := S2000x128) hz2, View.ld_unit_zero (S := S1x128) hz2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro; exact read_store2 _ _ _ _
  iexists _; isplitr
  swap; · iexact HS1
  ipureintro; exact read_store2 _ _ _ _

theorem sound_kernel2_C (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : ¬cond2_0 i) (hc1 : cond2_1 i)
    (x0 : Vec F S2000x128 .f32) (xs0 xs1 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k2_pay6 (k2_pay4 x0 xs0))
            ∗ owns (c : Thread nD τ) arg3 fullShare (k2_pay7 (k2_pay4 x0 xs0) (k2_pay5 x0 xs1))
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__meanvar_kernel i arg1 harg1 arg2 harg2 arg3 harg3 arg4 harg4 arg5 harg5) K := by
  simp only [cc2__meanvar_kernel_eq_skeleton]; unfold cc2__meanvar_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  (try sl_unfold_words)
  simp only [View.readAt_eq_ld, harg1.read_unread, harg4.read_unread, harg5.read_unread, View.ld_unit_zero (S := S2000x128) hz2, View.ld_unit_zero (S := S1x128) hz2, View.readCov_unit_zero (S := S1x128) _ hz2]
  iapply Hk
  isplitl [H0]
  · iexists _; isplitr; · ipureintro; exact harg1.read_unread _
    iexact H0
  isplitl [H1]
  · iexists _; isplitr
    swap; · iexact H1
    ipureintro; exact read_store2 _ _ _ _
  isplitl [H2]
  · iexists _; isplitr
    swap; · iexact H2
    ipureintro; exact read_store2 _ _ _ _
  isplitl [HS0]
  · iexists _; isplitr
    swap; · iexact HS0
    ipureintro; exact read_store2 _ _ _ _
  iexists _; isplitr
  swap; · iexact HS1
  ipureintro; exact read_store2 _ _ _ _

-- Where a window is not idle, its current buffer is left at what the body computes for it.
theorem leavesExact_live2 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
        ∗ (∃ r, prngReg c r)) := by
  unfold Pipeline.ΦA; rw [scopedRest2_split]; simp only [scM2_0, scM2_1, owns_whole]; try rfl

theorem liveAt2_0 : ∀ t : Fin cfg2.N, cfg2.idle 0 (grid2.coords t) = false := by decide +kernel
theorem idleAt2_1 : ∀ t : Fin cfg2.N, ¬cond2_1 (grid2.coords t) → cfg2.idle 1 (grid2.coords t) = true := by decide +kernel
theorem idleAt2_2 : ∀ t : Fin cfg2.N, ¬cond2_1 (grid2.coords t) → cfg2.idle 2 (grid2.coords t) = true := by decide +kernel
theorem liveAt2_1 : ∀ t : Fin cfg2.N, cond2_1 (grid2.coords t) → cfg2.idle 1 (grid2.coords t) = false := by decide +kernel
theorem liveAt2_2 : ∀ t : Fin cfg2.N, cond2_1 (grid2.coords t) → cfg2.idle 2 (grid2.coords t) = false := by decide +kernel
theorem noFlush2_1 : ∀ t : Fin cfg2.N, ¬cond2_1 (grid2.coords t) → (cfg2.win 1).flush t = false := by decide +kernel
theorem noFlush2_2 : ∀ t : Fin cfg2.N, ¬cond2_1 (grid2.coords t) → (cfg2.win 2).flush t = false := by decide +kernel

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem body_obligation2 (c : Dev nD) : BodyObligation (dat2 (F := F) V c) (defs₀ (F := F)) Variants.none () Set.univ := fun t => by
  rw [bigSep_W2, bigSep_W2]
  change iprop(_ ∗ _ ∗ _ ∗ _ ∗ _) ⊢ wp _ _ _ (bodyAt2 t) fun _ =>
    iprop(_ ∗ _ ∗ (dat2 V c).leavesExact 0 t ∗ (dat2 V c).leavesExact 1 t ∗ (dat2 V c).leavesExact 2 t)
  unfold bodyAt2
  simp only [before2_0]
  rw [show (dat2 V c).owesAt () t.succ = (dat2 V c).owesAt () t.castSucc from rfl]
  rw [show (dat2 V c).Φ t.succ = Phi2 V c (t.val + 1) t.isLt from rfl, Phi2]
  rw [leavesExact_live2 (dat2 V c) 0 t (liveAt2_0 t), after2_0]
  have hN : t.val < 25 := lt_of_lt_of_eq t.isLt (show cfg2.N = 25 from N_2)
  by_cases h1 : t.val % 25 = 24
  · have h0 : ¬t.val % 25 = 0 := by omega
    rw [leavesExact_live2 (dat2 V c) 1 t (liveAt2_1 t ((hcond2_1 t).mpr h1)), after2_1]
    rw [leavesExact_live2 (dat2 V c) 2 t (liveAt2_2 t ((hcond2_1 t).mpr h1)), after2_2]
    obtain ⟨_ | n, hn⟩ := t
    · exact absurd (show 0 % 25 = 24 from h1) (by decide)
    rw [show (dat2 V c).Φ (Fin.castSucc ⟨n + 1, hn⟩) = Phi2 V c (n + 1) (Nat.le_of_lt hn) from rfl, Phi2]
    iintro ⟨⟨⟨HS0, HS1⟩, Hrest, Hg⟩, Ho, ⟨%d0, H0⟩, ⟨%d1, H1⟩, ⟨%d2, H2⟩⟩
    iapply (sound_kernel2_C c Set.univ _ _ _ _ _ _ _ _ _ _ _ (fun h => h0 ((hcond2_0 _).mp h)) ((hcond2_1 _).mpr h1) _ _ _ _)
    iframe H0 HS0 HS1
    isplitl [H1]; · iexists _; iexact H1
    isplitl [H2]; · iexists _; iexact H2
    iintro ⟨H0, H1, H2, HS0, HS1⟩
    iframe Hrest Hg Ho H0
    isplitl [HS0 HS1]
    · isplitl [HS0]; · iexact HS0
      iexact HS1
    isplitl [H1]; · iexact H1
    iexact H2
  · have hc1 : ¬cond2_1 (grid2.coords t) := fun h => h1 ((hcond2_1 t).mp h)
    rw [Dat.leavesExact_idle (dat2 V c) 1 t (idleAt2_1 t hc1) (noFlush2_1 t hc1)]
    rw [Dat.leavesExact_idle (dat2 V c) 2 t (idleAt2_2 t hc1) (noFlush2_2 t hc1)]
    by_cases h0 : t.val % 25 = 0
    · have hz : t.val = 0 := by omega
      obtain ⟨_ | n, hn⟩ := t
      swap; · exact absurd hz (Nat.succ_ne_zero n)
      rw [show (dat2 V c).Φ (Fin.castSucc ⟨0, hn⟩) = _ from PhiA2_eq c]
      iintro ⟨⟨⟨⟨HS0, HS1⟩, Hrest⟩, Hg⟩, Ho, ⟨%d0, H0⟩, ⟨%d1, H1⟩, ⟨%d2, H2⟩⟩
      iapply (sound_kernel2_A c Set.univ _ _ _ _ _ _ _ _ _ _ _ ((hcond2_0 _).mpr h0) hc1 _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2
    · obtain ⟨_ | n, hn⟩ := t
      · exact absurd rfl h0
      rw [show (dat2 V c).Φ (Fin.castSucc ⟨n + 1, hn⟩) = Phi2 V c (n + 1) (Nat.le_of_lt hn) from rfl, Phi2]
      iintro ⟨⟨⟨HS0, HS1⟩, Hrest, Hg⟩, Ho, ⟨%d0, H0⟩, ⟨%d1, H1⟩, ⟨%d2, H2⟩⟩
      iapply (sound_kernel2_B c Set.univ _ _ _ _ _ _ _ _ _ _ _ (fun h => h0 ((hcond2_0 _).mp h)) hc1 _ _ _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2

theorem hin2 (c : Dev nD) (P : sProp 𝕄) :
    iprop((∃ r, prngReg c r) ∗ P ∗ Pipeline.scopedRest (Ix := Unit) (Name := ℕ) (U := UR sig nD τ) (Lvl := ℕ) (Val := Elt F) spec2 c)
      ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

theorem hout2 (c : Dev nD) :
    (dat2 V c).Φ (Fin.last cfg2.N)
      ⊢ iprop((∃ r, prngReg c r) ∗ emp ∗ Pipeline.scopedRest (Ix := Unit) (Name := ℕ) (U := UR sig nD τ) (Lvl := ℕ) (Val := Elt F) spec2 c) := by
  have hN : cfg2.N = 25 := N_2
  rw [show (dat2 V c).Φ (Fin.last cfg2.N) = Phi2 V c (24 + 1) (by decide) from rfl, Phi2, scopedRest2_split]
  simp only [scM2_0, scM2_1, owns_whole]
  iintro ⟨⟨HS0, HS1⟩, Hrest, Hg⟩
  isplitl [Hg]; · iexact Hg
  isplitr; · iempintro
  isplitl [HS0 HS1]
  · isplitl [HS0]
    · iexists _; iexact HS0
    iexists _; iexact HS1
  iexact Hrest

end Region2

end Cert.Kernel.Gen

end
-- ==== Proof.K.R3.lean ====
import proofs.«137587_j59279138619792_1_alg».proof.Proof.Gen.Kernel.Launch
import proofs.«137587_j59279138619792_1_alg».proof.Proof.Gen.Kernel.Skeleton
import proofs.«137587_j59279138619792_1_alg».proof.Proof.Gen.Kernel.Points
import Idealize.ShloMosaic.Lib.Pipeline.FrameBody
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

def out3_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r3_0, k3_pay1 (View.ld x0 r3_0) (View.ld x2 r3_1) (View.ld x3 r3_1) (View.ld x4 r3_1) (View.ld x5 r3_1) (View.ld x1 r3_0)⟩]

theorem cover3_6 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__bn_relu_res_kernel i arg1 harg1 arg2 harg2 arg3 harg3 arg4 harg4 arg5 harg5 arg6 harg6 arg7 harg7) K := by
  simp only [cc3__bn_relu_res_kernel_eq_skeleton]; unfold cc3__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem after3 (c : Dev nD) (t : Fin cfg3.N) : (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t :=
  ⟨rfl, rfl, rfl, rfl, rfl, rfl⟩

theorem before3 (c : Dev nD) (t : Fin cfg3.N) : (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) := by
  refine ⟨?_, ?_, ?_, ?_, ?_, ?_⟩ <;> exact (dat3 V c).before_in_eq_fetched _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3]
  sl_whnfR [defs₀, Defs.onTc]
  simp only [before3 V c t, after3 V c t, after3_6]
  rewrite [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  iframe

end Region3

end Cert.Kernel.Gen
-- ==== Proof.K.R4.lean ====
import proofs.«137587_j59279138619792_1_alg».proof.Proof.K.R1

noncomputable section

namespace Cert.Kernel.Gen

open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S2000x128 .f32) (x1 : Vec F S128x128 .f32) (x2 : Vec F S1x128 .f32) : Vec F S2000x128 .f32 :=
  View.canon [⟨r1_3, k4_pay1 (View.ld x0 r1_0) (View.ld x1 r1_1) (View.ld x2 r1_2)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out4_3 (iblk4 V c 0 t) (iblk4 V c 1 t) (iblk4 V c 2 t) := by dsimp only [dat4]

theorem before4 (c : Dev nD) (t) : (∀ d, (dat4 V c).before 0 t d = iblk4 V c 0 t) ∧ (∀ d, (dat4 V c).before 1 t d = iblk4 V c 1 t)
    ∧ ∀ d, (dat4 V c).before 2 t d = iblk4 V c 2 t := by
  refine ⟨?_, ?_, ?_⟩ <;> exact (dat4 V c).before_in_eq_fetched _ rfl (fun _ => rfl) (fun _ _ _ => rfl) (fun _ => rfl) t

theorem body_obligation4 (c : Dev nD) : BodyObligation (dat4 (F := F) V c) (defs₀ (F := F)) Variants.none () Set.univ := fun t => by
  rw [bigSep_W4, bigSep_W4]
  simp only [before4 V c t]
  dsimp only [dat4]
  exact sound_kernel1 c _ (grid4.coords t) _ _ (hstage4_0 _) (hstage4_1 _) (hstage4_2 _) (hstage4_3 _)

end Cert.Kernel.Gen

end
-- ==== Proof.K.R5.lean ====
import proofs.«137587_j59279138619792_1_alg».proof.Proof.K.R2

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def accAt5 (c : Dev nD) : (n : ℕ) → n < cfg5.N → Vec F S1x128 .f32 × Vec F S1x128 .f32
  | 0, h => (k5_pay4 (iblk5 V c 0 ⟨0, h⟩) k5_pay1, k5_pay5 (iblk5 V c 0 ⟨0, h⟩) k5_pay2)
  | n + 1, h => (k5_pay4 (iblk5 V c 0 ⟨n + 1, h⟩) (accAt5 c n (Nat.lt_of_succ_lt h)).1,
      k5_pay5 (iblk5 V c 0 ⟨n + 1, h⟩) (accAt5 c n (Nat.lt_of_succ_lt h)).2)

theorem accAt5_zero (c : Dev nD) (h : 0 < cfg5.N) :
    accAt5 V c 0 h = (k5_pay4 (iblk5 V c 0 ⟨0, h⟩) k5_pay1, k5_pay5 (iblk5 V c 0 ⟨0, h⟩) k5_pay2) := rfl

theorem accAt5_succ (c : Dev nD) (n : ℕ) (h : n + 1 < cfg5.N) :
    accAt5 V c (n + 1) h = (k5_pay4 (iblk5 V c 0 ⟨n + 1, h⟩) (accAt5 V c n (Nat.lt_of_succ_lt h)).1,
      k5_pay5 (iblk5 V c 0 ⟨n + 1, h⟩) (accAt5 V c n (Nat.lt_of_succ_lt h)).2) := rfl

abbrev scM5_0 : Memref sig .tc .vmem S1x128 .f32 := Memref.whole cc5_scratch0
abbrev scM5_1 : Memref sig .tc .vmem S1x128 .f32 := Memref.whole cc5_scratch1

def Phi5 (c : Dev nD) : (n : ℕ) → n ≤ cfg5.N → sProp 𝕄
  | 0, _ => Pipeline.ΦA spec5 c
  | n + 1, hn => iprop(iprop(owns (c : Thread nD τ) scM5_0 fullShare (accAt5 V c n hn).1 ∗ owns (c : Thread nD τ) scM5_1 fullShare (accAt5 V c n hn).2)
      ∗ Pipeline.scopedRestBut (Ix := Unit) (Name := ℕ) (U := UR sig nD τ) (Lvl := ℕ) (Val := Elt F) spec5 c [cc5_scratch0, cc5_scratch1]
      ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => k5_pay6 (accAt5 V c t.val t.isLt).1
    | ⟨2, _⟩ => k5_pay7 (accAt5 V c t.val t.isLt).1 (accAt5 V c t.val t.isLt).2
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = k5_pay6 (accAt5 V c t.val t.isLt).1 := by dsimp only [dat5]
theorem after5_2 (c : Dev nD) (t : Fin cfg5.N) :
    (dat5 V c).after 2 t = k5_pay7 (accAt5 V c t.val t.isLt).1 (accAt5 V c t.val t.isLt).2 := by dsimp only [dat5]

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1])
        ∗ (∃ r, prngReg c r)) := by
  unfold Pipeline.ΦA; rw [scopedRest5_split]; simp only [scM5_0, scM5_1, owns_whole]; try rfl

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

theorem body_obligation5 (c : Dev nD) : BodyObligation (dat5 (F := F) V c) (defs₀ (F := F)) Variants.none () Set.univ := fun t => by
  rw [bigSep_W5, bigSep_W5]
  change iprop(_ ∗ _ ∗ _ ∗ _ ∗ _) ⊢ wp _ _ _ (bodyAt5 t) fun _ =>
    iprop(_ ∗ _ ∗ (dat5 V c).leavesExact 0 t ∗ (dat5 V c).leavesExact 1 t ∗ (dat5 V c).leavesExact 2 t)
  unfold bodyAt5
  rw [show cc5__meanvar_kernel (F := F) = cc2__meanvar_kernel (F := F) from rfl]
  simp only [before5_0]
  rw [show (dat5 V c).owesAt () t.succ = (dat5 V c).owesAt () t.castSucc from rfl]
  rw [show (dat5 V c).Φ t.succ = Phi5 V c (t.val + 1) t.isLt from rfl, Phi5]
  rw [leavesExact_live2 (dat5 V c) 0 t (liveAt2_0 t), after5_0]
  have hN : t.val < 25 := lt_of_lt_of_eq t.isLt (show cfg5.N = 25 from N_5)
  by_cases h1 : t.val % 25 = 24
  · have h0 : ¬t.val % 25 = 0 := by omega
    rw [leavesExact_live2 (dat5 V c) 1 t (liveAt2_1 t ((hcond2_1 t).mpr h1)), after5_1]
    rw [leavesExact_live2 (dat5 V c) 2 t (liveAt2_2 t ((hcond2_1 t).mpr h1)), after5_2]
    obtain ⟨_ | n, hn⟩ := t
    · exact absurd (show 0 % 25 = 24 from h1) (by decide)
    rw [show (dat5 V c).Φ (Fin.castSucc ⟨n + 1, hn⟩) = Phi5 V c (n + 1) (Nat.le_of_lt hn) from rfl, Phi5]
    iintro ⟨⟨⟨HS0, HS1⟩, Hrest, Hg⟩, Ho, ⟨%d0, H0⟩, ⟨%d1, H1⟩, ⟨%d2, H2⟩⟩
    iapply (sound_kernel2_C c Set.univ _ _ _ _ _ _ _ _ _ _ _ (fun h => h0 ((hcond2_0 _).mp h)) ((hcond2_1 _).mpr h1) _ _ _ _)
    iframe H0 HS0 HS1
    isplitl [H1]; · iexists _; iexact H1
    isplitl [H2]; · iexists _; iexact H2
    iintro ⟨H0, H1, H2, HS0, HS1⟩
    iframe Hrest Hg Ho H0
    isplitl [HS0 HS1]
    · isplitl [HS0]; · iexact HS0
      iexact HS1
    isplitl [H1]; · iexact H1
    iexact H2
  · have hc1 : ¬cond2_1 (grid5.coords t) := fun h => h1 ((hcond2_1 t).mp h)
    rw [Dat.leavesExact_idle (dat5 V c) 1 t (idleAt2_1 t hc1) (noFlush2_1 t hc1)]
    rw [Dat.leavesExact_idle (dat5 V c) 2 t (idleAt2_2 t hc1) (noFlush2_2 t hc1)]
    by_cases h0 : t.val % 25 = 0
    · have hz : t.val = 0 := by omega
      obtain ⟨_ | n, hn⟩ := t
      swap; · exact absurd hz (Nat.succ_ne_zero n)
      rw [show (dat5 V c).Φ (Fin.castSucc ⟨0, hn⟩) = _ from PhiA5_eq c]
      iintro ⟨⟨⟨⟨HS0, HS1⟩, Hrest⟩, Hg⟩, Ho, ⟨%d0, H0⟩, ⟨%d1, H1⟩, ⟨%d2, H2⟩⟩
      iapply (sound_kernel2_A c Set.univ _ _ _ _ _ _ _ _ _ _ _ ((hcond2_0 _).mpr h0) hc1 _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2
    · obtain ⟨_ | n, hn⟩ := t
      · exact absurd rfl h0
      rw [show (dat5 V c).Φ (Fin.castSucc ⟨n + 1, hn⟩) = Phi5 V c (n + 1) (Nat.le_of_lt hn) from rfl, Phi5]
      iintro ⟨⟨⟨HS0, HS1⟩, Hrest, Hg⟩, Ho, ⟨%d0, H0⟩, ⟨%d1, H1⟩, ⟨%d2, H2⟩⟩
      iapply (sound_kernel2_B c Set.univ _ _ _ _ _ _ _ _ _ _ _ (fun h => h0 ((hcond2_0 _).mp h)) hc1 _ _ _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2

theorem hin5 (c : Dev nD) (P : sProp 𝕄) :
    iprop((∃ r, prngReg c r) ∗ P ∗ Pipeline.scopedRest (Ix := Unit) (Name := ℕ) (U := UR sig nD τ) (Lvl := ℕ) (Val := Elt F) spec5 c)
      ⊢ (dat5 V c).Φ 0 := by
  rw [show (dat5 V c).Φ 0 = Pipeline.ΦA spec5 c from rfl]; unfold Pipeline.ΦA
  iintro ⟨Hp, -, Hr⟩
  isplitl [Hr]; · iexact Hr
  iexact Hp

theorem hout5 (c : Dev nD) :
    (dat5 V c).Φ (Fin.last cfg5.N)
      ⊢ iprop((∃ r, prngReg c r) ∗ emp ∗ Pipeline.scopedRest (Ix := Unit) (Name := ℕ) (U := UR sig nD τ) (Lvl := ℕ) (Val := Elt F) spec5 c) := by
  have hN : cfg5.N = 25 := N_5
  rw [show (dat5 V c).Φ (Fin.last cfg5.N) = Phi5 V c (24 + 1) (by decide) from rfl, Phi5, scopedRest5_split]
  simp only [scM5_0, scM5_1, owns_whole]
  iintro ⟨⟨HS0, HS1⟩, Hrest, Hg⟩
  isplitl [Hg]; · iexact Hg
  isplitr; · iempintro
  isplitl [HS0 HS1]
  · isplitl [HS0]
    · iexists _; iexact HS0
    iexists _; iexact HS1
  iexact Hrest

end Region5

end Cert.Kernel.Gen

end
-- ==== Proof.K.R6.lean ====
import proofs.«137587_j59279138619792_1_alg».proof.Proof.K.R3

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.ProofMode
open Idealize.ShloMosaic.Pipeline (Dat BodyObligation)

variable {F : FTy → Type} [FloatOps F]

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x128 := Rect.unit (s := S2000x128) ![0, 0] S2000x128.size inb_S2000x128_S2000x128_0_0
abbrev r6_1 : Rect S1x128 := Rect.unit (s := S1x128) ![0, 0] S1x128.size inb_S1x128_S1x128_0_0

def out6_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r6_0, k6_pay1 (View.ld x0 r6_0) (View.ld x2 r6_1) (View.ld x3 r6_1) (View.ld x4 r6_1) (View.ld x5 r6_1) (View.ld x1 r6_0)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem after6 (c : Dev nD) (t : Fin cfg6.N) : (dat6 V c).after 0 t = iblk6 V c 0 t ∧ (dat6 V c).after 1 t = iblk6 V c 1 t ∧ (dat6 V c).after 2 t = iblk6 V c 2 t ∧ (dat6 V c).after 3 t = iblk6 V c 3 t ∧ (dat6 V c).after 4 t = iblk6 V c 4 t ∧ (dat6 V c).after 5 t = iblk6 V c 5 t :=
  ⟨rfl, rfl, rfl, rfl, rfl, rfl⟩

theorem before6 (c : Dev nD) (t : Fin cfg6.N) : (∀ d, (dat6 V c).before 0 t d = iblk6 V c 0 t) ∧ (∀ d, (dat6 V c).before 1 t d = iblk6 V c 1 t) ∧ (∀ d, (dat6 V c).before 2 t d = iblk6 V c 2 t) ∧ (∀ d, (dat6 V c).before 3 t d = iblk6 V c 3 t) ∧ (∀ d, (dat6 V c).before 4 t d = iblk6 V c 4 t) ∧ (∀ d, (dat6 V c).before 5 t d = iblk6 V c 5 t) := by
  refine ⟨?_, ?_, ?_, ?_, ?_, ?_⟩ <;> exact (dat6 V c).before_in_eq_fetched _ rfl (fun _ => rfl) (fun _ _ _ => rfl) (fun _ => rfl) t

theorem body_obligation6 (c : Dev nD) : BodyObligation (dat6 (F := F) V c) (defs₀ (F := F)) Variants.none () Set.univ := fun t => by
  rw [bigSep_W6, bigSep_W6]
  sl_whnfR [defs₀, Defs.onTc]
  simp only [before6 V c t, after6 V c t, after6_6]
  rewrite [show cc6__bn_relu_res_kernel (F := F) = cc3__bn_relu_res_kernel from rfl, show out6_6 (F := F) = out3_6 from rfl,
    show (dat6 V c).Φ t.succ = (dat6 V c).Φ t.castSucc from rfl,
    show (dat6 V c).owesAt () t.succ = (dat6 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel3
  iframe H0 H1 H2 H3 H4 H5
  isplitl [H6]; · iexists _; iexact H6
  iintro ⟨H0, H1, H2, H3, H4, H5, H6⟩
  iframe

end Region6

end Cert.Kernel.Gen
-- ==== Proof.K.R7.lean ====
import proofs.«137587_j59279138619792_1_alg».proof.Proof.K.R1

noncomputable section

namespace Cert.Kernel.Gen

open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_3 (x0 : Vec F S2000x128 .f32) (x1 : Vec F S128x128 .f32) (x2 : Vec F S1x128 .f32) : Vec F S2000x128 .f32 :=
  View.canon [⟨r1_3, k7_pay1 (View.ld x0 r1_0) (View.ld x1 r1_1) (View.ld x2 r1_2)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) :
    (dat7 V c).after 3 t = out7_3 (iblk7 V c 0 t) (iblk7 V c 1 t) (iblk7 V c 2 t) := by dsimp only [dat7]

theorem before7 (c : Dev nD) (t) : (∀ d, (dat7 V c).before 0 t d = iblk7 V c 0 t) ∧ (∀ d, (dat7 V c).before 1 t d = iblk7 V c 1 t)
    ∧ ∀ d, (dat7 V c).before 2 t d = iblk7 V c 2 t := by
  refine ⟨?_, ?_, ?_⟩ <;> exact (dat7 V c).before_in_eq_fetched _ rfl (fun _ => rfl) (fun _ _ _ => rfl) (fun _ => rfl) t

theorem body_obligation7 (c : Dev nD) : BodyObligation (dat7 (F := F) V c) (defs₀ (F := F)) Variants.none () Set.univ := fun t => by
  rw [bigSep_W7, bigSep_W7]
  simp only [before7 V c t]
  dsimp only [dat7]
  exact sound_kernel1 c _ (grid7.coords t) _ _ (hstage7_0 _) (hstage7_1 _) (hstage7_2 _) (hstage7_3 _)

end Cert.Kernel.Gen

end
-- ==== Proof.K.R8.lean ====
import proofs.«137587_j59279138619792_1_alg».proof.Proof.K.R2

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def accAt8 (c : Dev nD) : (n : ℕ) → n < cfg8.N → Vec F S1x128 .f32 × Vec F S1x128 .f32
  | 0, h => (k8_pay4 (iblk8 V c 0 ⟨0, h⟩) k8_pay1, k8_pay5 (iblk8 V c 0 ⟨0, h⟩) k8_pay2)
  | n + 1, h => (k8_pay4 (iblk8 V c 0 ⟨n + 1, h⟩) (accAt8 c n (Nat.lt_of_succ_lt h)).1,
      k8_pay5 (iblk8 V c 0 ⟨n + 1, h⟩) (accAt8 c n (Nat.lt_of_succ_lt h)).2)

theorem accAt8_zero (c : Dev nD) (h : 0 < cfg8.N) :
    accAt8 V c 0 h = (k8_pay4 (iblk8 V c 0 ⟨0, h⟩) k8_pay1, k8_pay5 (iblk8 V c 0 ⟨0, h⟩) k8_pay2) := rfl

theorem accAt8_succ (c : Dev nD) (n : ℕ) (h : n + 1 < cfg8.N) :
    accAt8 V c (n + 1) h = (k8_pay4 (iblk8 V c 0 ⟨n + 1, h⟩) (accAt8 V c n (Nat.lt_of_succ_lt h)).1,
      k8_pay5 (iblk8 V c 0 ⟨n + 1, h⟩) (accAt8 V c n (Nat.lt_of_succ_lt h)).2) := rfl

abbrev scM8_0 : Memref sig .tc .vmem S1x128 .f32 := Memref.whole cc8_scratch0
abbrev scM8_1 : Memref sig .tc .vmem S1x128 .f32 := Memref.whole cc8_scratch1

def Phi8 (c : Dev nD) : (n : ℕ) → n ≤ cfg8.N → sProp 𝕄
  | 0, _ => Pipeline.ΦA spec8 c
  | n + 1, hn => iprop(iprop(owns (c : Thread nD τ) scM8_0 fullShare (accAt8 V c n hn).1 ∗ owns (c : Thread nD τ) scM8_1 fullShare (accAt8 V c n hn).2)
      ∗ Pipeline.scopedRestBut (Ix := Unit) (Name := ℕ) (U := UR sig nD τ) (Lvl := ℕ) (Val := Elt F) spec8 c [cc8_scratch0, cc8_scratch1]
      ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => k8_pay6 (accAt8 V c t.val t.isLt).1
    | ⟨2, _⟩ => k8_pay7 (accAt8 V c t.val t.isLt).1 (accAt8 V c t.val t.isLt).2
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = k8_pay6 (accAt8 V c t.val t.isLt).1 := by dsimp only [dat8]
theorem after8_2 (c : Dev nD) (t : Fin cfg8.N) :
    (dat8 V c).after 2 t = k8_pay7 (accAt8 V c t.val t.isLt).1 (accAt8 V c t.val t.isLt).2 := by dsimp only [dat8]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1])
        ∗ (∃ r, prngReg c r)) := by
  unfold Pipeline.ΦA; rw [scopedRest8_split]; simp only [scM8_0, scM8_1, owns_whole]; try rfl

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)

theorem body_obligation8 (c : Dev nD) : BodyObligation (dat8 (F := F) V c) (defs₀ (F := F)) Variants.none () Set.univ := fun t => by
  rw [bigSep_W8, bigSep_W8]
  change iprop(_ ∗ _ ∗ _ ∗ _ ∗ _) ⊢ wp _ _ _ (bodyAt8 t) fun _ =>
    iprop(_ ∗ _ ∗ (dat8 V c).leavesExact 0 t ∗ (dat8 V c).leavesExact 1 t ∗ (dat8 V c).leavesExact 2 t)
  unfold bodyAt8
  rw [show cc8__meanvar_kernel (F := F) = cc2__meanvar_kernel (F := F) from rfl]
  simp only [before8_0]
  rw [show (dat8 V c).owesAt () t.succ = (dat8 V c).owesAt () t.castSucc from rfl]
  rw [show (dat8 V c).Φ t.succ = Phi8 V c (t.val + 1) t.isLt from rfl, Phi8]
  rw [leavesExact_live2 (dat8 V c) 0 t (liveAt2_0 t), after8_0]
  have hN : t.val < 25 := lt_of_lt_of_eq t.isLt (show cfg8.N = 25 from N_8)
  by_cases h1 : t.val % 25 = 24
  · have h0 : ¬t.val % 25 = 0 := by omega
    rw [leavesExact_live2 (dat8 V c) 1 t (liveAt2_1 t ((hcond2_1 t).mpr h1)), after8_1]
    rw [leavesExact_live2 (dat8 V c) 2 t (liveAt2_2 t ((hcond2_1 t).mpr h1)), after8_2]
    obtain ⟨_ | n, hn⟩ := t
    · exact absurd (show 0 % 25 = 24 from h1) (by decide)
    rw [show (dat8 V c).Φ (Fin.castSucc ⟨n + 1, hn⟩) = Phi8 V c (n + 1) (Nat.le_of_lt hn) from rfl, Phi8]
    iintro ⟨⟨⟨HS0, HS1⟩, Hrest, Hg⟩, Ho, ⟨%d0, H0⟩, ⟨%d1, H1⟩, ⟨%d2, H2⟩⟩
    iapply (sound_kernel2_C c Set.univ _ _ _ _ _ _ _ _ _ _ _ (fun h => h0 ((hcond2_0 _).mp h)) ((hcond2_1 _).mpr h1) _ _ _ _)
    iframe H0 HS0 HS1
    isplitl [H1]; · iexists _; iexact H1
    isplitl [H2]; · iexists _; iexact H2
    iintro ⟨H0, H1, H2, HS0, HS1⟩
    iframe Hrest Hg Ho H0
    isplitl [HS0 HS1]
    · isplitl [HS0]; · iexact HS0
      iexact HS1
    isplitl [H1]; · iexact H1
    iexact H2
  · have hc1 : ¬cond2_1 (grid8.coords t) := fun h => h1 ((hcond2_1 t).mp h)
    rw [Dat.leavesExact_idle (dat8 V c) 1 t (idleAt2_1 t hc1) (noFlush2_1 t hc1)]
    rw [Dat.leavesExact_idle (dat8 V c) 2 t (idleAt2_2 t hc1) (noFlush2_2 t hc1)]
    by_cases h0 : t.val % 25 = 0
    · have hz : t.val = 0 := by omega
      obtain ⟨_ | n, hn⟩ := t
      swap; · exact absurd hz (Nat.succ_ne_zero n)
      rw [show (dat8 V c).Φ (Fin.castSucc ⟨0, hn⟩) = _ from PhiA8_eq c]
      iintro ⟨⟨⟨⟨HS0, HS1⟩, Hrest⟩, Hg⟩, Ho, ⟨%d0, H0⟩, ⟨%d1, H1⟩, ⟨%d2, H2⟩⟩
      iapply (sound_kernel2_A c Set.univ _ _ _ _ _ _ _ _ _ _ _ ((hcond2_0 _).mpr h0) hc1 _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2
    · obtain ⟨_ | n, hn⟩ := t
      · exact absurd rfl h0
      rw [show (dat8 V c).Φ (Fin.castSucc ⟨n + 1, hn⟩) = Phi8 V c (n + 1) (Nat.le_of_lt hn) from rfl, Phi8]
      iintro ⟨⟨⟨HS0, HS1⟩, Hrest, Hg⟩, Ho, ⟨%d0, H0⟩, ⟨%d1, H1⟩, ⟨%d2, H2⟩⟩
      iapply (sound_kernel2_B c Set.univ _ _ _ _ _ _ _ _ _ _ _ (fun h => h0 ((hcond2_0 _).mp h)) hc1 _ _ _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2

theorem hin8 (c : Dev nD) (P : sProp 𝕄) :
    iprop((∃ r, prngReg c r) ∗ P ∗ Pipeline.scopedRest (Ix := Unit) (Name := ℕ) (U := UR sig nD τ) (Lvl := ℕ) (Val := Elt F) spec8 c)
      ⊢ (dat8 V c).Φ 0 := by
  rw [show (dat8 V c).Φ 0 = Pipeline.ΦA spec8 c from rfl]; unfold Pipeline.ΦA
  iintro ⟨Hp, -, Hr⟩
  isplitl [Hr]; · iexact Hr
  iexact Hp

theorem hout8 (c : Dev nD) :
    (dat8 V c).Φ (Fin.last cfg8.N)
      ⊢ iprop((∃ r, prngReg c r) ∗ emp ∗ Pipeline.scopedRest (Ix := Unit) (Name := ℕ) (U := UR sig nD τ) (Lvl := ℕ) (Val := Elt F) spec8 c) := by
  have hN : cfg8.N = 25 := N_8
  rw [show (dat8 V c).Φ (Fin.last cfg8.N) = Phi8 V c (24 + 1) (by decide) from rfl, Phi8, scopedRest8_split]
  simp only [scM8_0, scM8_1, owns_whole]
  iintro ⟨⟨HS0, HS1⟩, Hrest, Hg⟩
  isplitl [Hg]; · iexact Hg
  isplitr; · iempintro
  isplitl [HS0 HS1]
  · isplitl [HS0]
    · iexists _; iexact HS0
    iexists _; iexact HS1
  iexact Hrest

end Region8

end Cert.Kernel.Gen

end
-- ==== Proof.K.R9.lean ====
import proofs.«137587_j59279138619792_1_alg».proof.Proof.K.R3

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.ProofMode
open Idealize.ShloMosaic.Pipeline (Dat BodyObligation)

variable {F : FTy → Type} [FloatOps F]

section Region9
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S2000x128 := Rect.unit (s := S2000x128) ![0, 0] S2000x128.size inb_S2000x128_S2000x128_0_0
abbrev r9_1 : Rect S1x128 := Rect.unit (s := S1x128) ![0, 0] S1x128.size inb_S1x128_S1x128_0_0

def out9_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r9_0, k9_pay1 (View.ld x0 r9_0) (View.ld x2 r9_1) (View.ld x3 r9_1) (View.ld x4 r9_1) (View.ld x5 r9_1) (View.ld x1 r9_0)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

theorem after9 (c : Dev nD) (t : Fin cfg9.N) : (dat9 V c).after 0 t = iblk9 V c 0 t ∧ (dat9 V c).after 1 t = iblk9 V c 1 t ∧ (dat9 V c).after 2 t = iblk9 V c 2 t ∧ (dat9 V c).after 3 t = iblk9 V c 3 t ∧ (dat9 V c).after 4 t = iblk9 V c 4 t ∧ (dat9 V c).after 5 t = iblk9 V c 5 t :=
  ⟨rfl, rfl, rfl, rfl, rfl, rfl⟩

theorem before9 (c : Dev nD) (t : Fin cfg9.N) : (∀ d, (dat9 V c).before 0 t d = iblk9 V c 0 t) ∧ (∀ d, (dat9 V c).before 1 t d = iblk9 V c 1 t) ∧ (∀ d, (dat9 V c).before 2 t d = iblk9 V c 2 t) ∧ (∀ d, (dat9 V c).before 3 t d = iblk9 V c 3 t) ∧ (∀ d, (dat9 V c).before 4 t d = iblk9 V c 4 t) ∧ (∀ d, (dat9 V c).before 5 t d = iblk9 V c 5 t) := by
  refine ⟨?_, ?_, ?_, ?_, ?_, ?_⟩ <;> exact (dat9 V c).before_in_eq_fetched _ rfl (fun _ => rfl) (fun _ _ _ => rfl) (fun _ => rfl) t

theorem body_obligation9 (c : Dev nD) : BodyObligation (dat9 (F := F) V c) (defs₀ (F := F)) Variants.none () Set.univ := fun t => by
  rw [bigSep_W9, bigSep_W9]
  sl_whnfR [defs₀, Defs.onTc]
  simp only [before9 V c t, after9 V c t, after9_6]
  rewrite [show cc9__bn_relu_res_kernel (F := F) = cc3__bn_relu_res_kernel from rfl, show out9_6 (F := F) = out3_6 from rfl,
    show (dat9 V c).Φ t.succ = (dat9 V c).Φ t.castSucc from rfl,
    show (dat9 V c).owesAt () t.succ = (dat9 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel3
  iframe H0 H1 H2 H3 H4 H5
  isplitl [H6]; · iexists _; iexact H6
  iintro ⟨H0, H1, H2, H3, H4, H5, H6⟩
  iframe

end Region9

end Cert.Kernel.Gen
-- ==== Proof.K.R10.lean ====
import proofs.«137587_j59279138619792_1_alg».proof.Proof.K.R1

noncomputable section

namespace Cert.Kernel.Gen

open Idealize.ShloMosaic Idealize.ShloMosaic.TcCoe Idealize.SL.RA
open Idealize.ShloMosaic.Pipeline (Dat BodyObligation)

variable {F : FTy → Type} [FloatOps F]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_3 (x0 : Vec F S2000x128 .f32) (x1 : Vec F S128x128 .f32) (x2 : Vec F S1x128 .f32) : Vec F S2000x128 .f32 :=
  View.canon [⟨r1_3, k10_pay1 (View.ld x0 r1_0) (View.ld x1 r1_1) (View.ld x2 r1_2)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) :
    (dat10 V c).after 3 t = out10_3 (iblk10 V c 0 t) (iblk10 V c 1 t) (iblk10 V c 2 t) := by dsimp only [dat10]

theorem before10 (c : Dev nD) (t) : (∀ d, (dat10 V c).before 0 t d = iblk10 V c 0 t) ∧ (∀ d, (dat10 V c).before 1 t d = iblk10 V c 1 t)
    ∧ ∀ d, (dat10 V c).before 2 t d = iblk10 V c 2 t := by
  refine ⟨?_, ?_, ?_⟩ <;> exact (dat10 V c).before_in_eq_fetched _ rfl (fun _ => rfl) (fun _ _ _ => rfl) (fun _ => rfl) t

theorem body_obligation10 (c : Dev nD) : BodyObligation (dat10 (F := F) V c) (defs₀ (F := F)) Variants.none () Set.univ := fun t => by
  rw [bigSep_W10, bigSep_W10]
  simp only [before10 V c t]
  dsimp only [dat10]
  exact sound_kernel1 c _ (grid10.coords t) _ _ (hstage10_0 _) (hstage10_1 _) (hstage10_2 _) (hstage10_3 _)

end Cert.Kernel.Gen

end
-- ==== Proof.K.R11.lean ====
import proofs.«137587_j59279138619792_1_alg».proof.Proof.K.R2

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region11

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def accAt11 (c : Dev nD) : (n : ℕ) → n < cfg11.N → Vec F S1x128 .f32 × Vec F S1x128 .f32
  | 0, h => (k11_pay4 (iblk11 V c 0 ⟨0, h⟩) k11_pay1, k11_pay5 (iblk11 V c 0 ⟨0, h⟩) k11_pay2)
  | n + 1, h => (k11_pay4 (iblk11 V c 0 ⟨n + 1, h⟩) (accAt11 c n (Nat.lt_of_succ_lt h)).1,
      k11_pay5 (iblk11 V c 0 ⟨n + 1, h⟩) (accAt11 c n (Nat.lt_of_succ_lt h)).2)

theorem accAt11_zero (c : Dev nD) (h : 0 < cfg11.N) :
    accAt11 V c 0 h = (k11_pay4 (iblk11 V c 0 ⟨0, h⟩) k11_pay1, k11_pay5 (iblk11 V c 0 ⟨0, h⟩) k11_pay2) := rfl

theorem accAt11_succ (c : Dev nD) (n : ℕ) (h : n + 1 < cfg11.N) :
    accAt11 V c (n + 1) h = (k11_pay4 (iblk11 V c 0 ⟨n + 1, h⟩) (accAt11 V c n (Nat.lt_of_succ_lt h)).1,
      k11_pay5 (iblk11 V c 0 ⟨n + 1, h⟩) (accAt11 V c n (Nat.lt_of_succ_lt h)).2) := rfl

abbrev scM11_0 : Memref sig .tc .vmem S1x128 .f32 := Memref.whole cc11_scratch0
abbrev scM11_1 : Memref sig .tc .vmem S1x128 .f32 := Memref.whole cc11_scratch1

def Phi11 (c : Dev nD) : (n : ℕ) → n ≤ cfg11.N → sProp 𝕄
  | 0, _ => Pipeline.ΦA spec11 c
  | n + 1, hn => iprop(iprop(owns (c : Thread nD τ) scM11_0 fullShare (accAt11 V c n hn).1 ∗ owns (c : Thread nD τ) scM11_1 fullShare (accAt11 V c n hn).2)
      ∗ Pipeline.scopedRestBut (Ix := Unit) (Name := ℕ) (U := UR sig nD τ) (Lvl := ℕ) (Val := Elt F) spec11 c [cc11_scratch0, cc11_scratch1]
      ∗ ∃ r, prngReg c r)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => k11_pay6 (accAt11 V c t.val t.isLt).1
    | ⟨2, _⟩ => k11_pay7 (accAt11 V c t.val t.isLt).1 (accAt11 V c t.val t.isLt).2
  Φ t := Phi11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = k11_pay6 (accAt11 V c t.val t.isLt).1 := by dsimp only [dat11]
theorem after11_2 (c : Dev nD) (t : Fin cfg11.N) :
    (dat11 V c).after 2 t = k11_pay7 (accAt11 V c t.val t.isLt).1 (accAt11 V c t.val t.isLt).2 := by dsimp only [dat11]

theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1])
        ∗ (∃ r, prngReg c r)) := by
  unfold Pipeline.ΦA; rw [scopedRest11_split]; simp only [scM11_0, scM11_1, owns_whole]; try rfl

theorem before11_0 (c : Dev nD) (t : Fin cfg11.N) (d) : (dat11 V c).before 0 t d = iblk11 V c 0 t :=
  ((dat11 V c).before_in_eq_fetched 0 rfl (fun _ => rfl) (fun _ _ _ => rfl)
    (fun t => by rw [after11_0]; unfold Dat.blockOf iblk11; rw [A_eq11]; try rfl) t d).trans
    (by unfold Dat.fetched Dat.blockOf iblk11; rw [A_eq11]; try rfl)

theorem body_obligation11 (c : Dev nD) : BodyObligation (dat11 (F := F) V c) (defs₀ (F := F)) Variants.none () Set.univ := fun t => by
  rw [bigSep_W11, bigSep_W11]
  change iprop(_ ∗ _ ∗ _ ∗ _ ∗ _) ⊢ wp _ _ _ (bodyAt11 t) fun _ =>
    iprop(_ ∗ _ ∗ (dat11 V c).leavesExact 0 t ∗ (dat11 V c).leavesExact 1 t ∗ (dat11 V c).leavesExact 2 t)
  unfold bodyAt11
  rw [show cc11__meanvar_kernel (F := F) = cc2__meanvar_kernel (F := F) from rfl]
  simp only [before11_0]
  rw [show (dat11 V c).owesAt () t.succ = (dat11 V c).owesAt () t.castSucc from rfl]
  rw [show (dat11 V c).Φ t.succ = Phi11 V c (t.val + 1) t.isLt from rfl, Phi11]
  rw [leavesExact_live2 (dat11 V c) 0 t (liveAt2_0 t), after11_0]
  have hN : t.val < 25 := lt_of_lt_of_eq t.isLt (show cfg11.N = 25 from N_11)
  by_cases h1 : t.val % 25 = 24
  · have h0 : ¬t.val % 25 = 0 := by omega
    rw [leavesExact_live2 (dat11 V c) 1 t (liveAt2_1 t ((hcond2_1 t).mpr h1)), after11_1]
    rw [leavesExact_live2 (dat11 V c) 2 t (liveAt2_2 t ((hcond2_1 t).mpr h1)), after11_2]
    obtain ⟨_ | n, hn⟩ := t
    · exact absurd (show 0 % 25 = 24 from h1) (by decide)
    rw [show (dat11 V c).Φ (Fin.castSucc ⟨n + 1, hn⟩) = Phi11 V c (n + 1) (Nat.le_of_lt hn) from rfl, Phi11]
    iintro ⟨⟨⟨HS0, HS1⟩, Hrest, Hg⟩, Ho, ⟨%d0, H0⟩, ⟨%d1, H1⟩, ⟨%d2, H2⟩⟩
    iapply (sound_kernel2_C c Set.univ _ _ _ _ _ _ _ _ _ _ _ (fun h => h0 ((hcond2_0 _).mp h)) ((hcond2_1 _).mpr h1) _ _ _ _)
    iframe H0 HS0 HS1
    isplitl [H1]; · iexists _; iexact H1
    isplitl [H2]; · iexists _; iexact H2
    iintro ⟨H0, H1, H2, HS0, HS1⟩
    iframe Hrest Hg Ho H0
    isplitl [HS0 HS1]
    · isplitl [HS0]; · iexact HS0
      iexact HS1
    isplitl [H1]; · iexact H1
    iexact H2
  · have hc1 : ¬cond2_1 (grid11.coords t) := fun h => h1 ((hcond2_1 t).mp h)
    rw [Dat.leavesExact_idle (dat11 V c) 1 t (idleAt2_1 t hc1) (noFlush2_1 t hc1)]
    rw [Dat.leavesExact_idle (dat11 V c) 2 t (idleAt2_2 t hc1) (noFlush2_2 t hc1)]
    by_cases h0 : t.val % 25 = 0
    · have hz : t.val = 0 := by omega
      obtain ⟨_ | n, hn⟩ := t
      swap; · exact absurd hz (Nat.succ_ne_zero n)
      rw [show (dat11 V c).Φ (Fin.castSucc ⟨0, hn⟩) = _ from PhiA11_eq c]
      iintro ⟨⟨⟨⟨HS0, HS1⟩, Hrest⟩, Hg⟩, Ho, ⟨%d0, H0⟩, ⟨%d1, H1⟩, ⟨%d2, H2⟩⟩
      iapply (sound_kernel2_A c Set.univ _ _ _ _ _ _ _ _ _ _ _ ((hcond2_0 _).mpr h0) hc1 _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2
    · obtain ⟨_ | n, hn⟩ := t
      · exact absurd rfl h0
      rw [show (dat11 V c).Φ (Fin.castSucc ⟨n + 1, hn⟩) = Phi11 V c (n + 1) (Nat.le_of_lt hn) from rfl, Phi11]
      iintro ⟨⟨⟨HS0, HS1⟩, Hrest, Hg⟩, Ho, ⟨%d0, H0⟩, ⟨%d1, H1⟩, ⟨%d2, H2⟩⟩
      iapply (sound_kernel2_B c Set.univ _ _ _ _ _ _ _ _ _ _ _ (fun h => h0 ((hcond2_0 _).mp h)) hc1 _ _ _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2

theorem hin11 (c : Dev nD) (P : sProp 𝕄) :
    iprop((∃ r, prngReg c r) ∗ P ∗ Pipeline.scopedRest (Ix := Unit) (Name := ℕ) (U := UR sig nD τ) (Lvl := ℕ) (Val := Elt F) spec11 c)
      ⊢ (dat11 V c).Φ 0 := by
  rw [show (dat11 V c).Φ 0 = Pipeline.ΦA spec11 c from rfl]; unfold Pipeline.ΦA
  iintro ⟨Hp, -, Hr⟩
  isplitl [Hr]; · iexact Hr
  iexact Hp

theorem hout11 (c : Dev nD) :
    (dat11 V c).Φ (Fin.last cfg11.N)
      ⊢ iprop((∃ r, prngReg c r) ∗ emp ∗ Pipeline.scopedRest (Ix := Unit) (Name := ℕ) (U := UR sig nD τ) (Lvl := ℕ) (Val := Elt F) spec11 c) := by
  have hN : cfg11.N = 25 := N_11
  rw [show (dat11 V c).Φ (Fin.last cfg11.N) = Phi11 V c (24 + 1) (by decide) from rfl, Phi11, scopedRest11_split]
  simp only [scM11_0, scM11_1, owns_whole]
  iintro ⟨⟨HS0, HS1⟩, Hrest, Hg⟩
  isplitl [Hg]; · iexact Hg
  isplitr; · iempintro
  isplitl [HS0 HS1]
  · isplitl [HS0]
    · iexists _; iexact HS0
    iexists _; iexact HS1
  iexact Hrest

end Region11

end Cert.Kernel.Gen

end
-- ==== Proof.K.R12.lean ====
import proofs.«137587_j59279138619792_1_alg».proof.Proof.K.R3

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.ProofMode
open Idealize.ShloMosaic.Pipeline (Dat BodyObligation)

variable {F : FTy → Type} [FloatOps F]

section Region12
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S2000x128 := Rect.unit (s := S2000x128) ![0, 0] S2000x128.size inb_S2000x128_S2000x128_0_0
abbrev r12_1 : Rect S1x128 := Rect.unit (s := S1x128) ![0, 0] S1x128.size inb_S1x128_S1x128_0_0

def out12_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r12_0, k12_pay1 (View.ld x0 r12_0) (View.ld x2 r12_1) (View.ld x3 r12_1) (View.ld x4 r12_1) (View.ld x5 r12_1) (View.ld x1 r12_0)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_6 (c : Dev nD) (t : Fin cfg12.N) : (dat12 V c).after 6 t = out12_6 (iblk12 V c 0 t) (iblk12 V c 1 t) (iblk12 V c 2 t) (iblk12 V c 3 t) (iblk12 V c 4 t) (iblk12 V c 5 t) := by dsimp only [dat12]

theorem after12 (c : Dev nD) (t : Fin cfg12.N) : (dat12 V c).after 0 t = iblk12 V c 0 t ∧ (dat12 V c).after 1 t = iblk12 V c 1 t ∧ (dat12 V c).after 2 t = iblk12 V c 2 t ∧ (dat12 V c).after 3 t = iblk12 V c 3 t ∧ (dat12 V c).after 4 t = iblk12 V c 4 t ∧ (dat12 V c).after 5 t = iblk12 V c 5 t :=
  ⟨rfl, rfl, rfl, rfl, rfl, rfl⟩

theorem before12 (c : Dev nD) (t : Fin cfg12.N) : (∀ d, (dat12 V c).before 0 t d = iblk12 V c 0 t) ∧ (∀ d, (dat12 V c).before 1 t d = iblk12 V c 1 t) ∧ (∀ d, (dat12 V c).before 2 t d = iblk12 V c 2 t) ∧ (∀ d, (dat12 V c).before 3 t d = iblk12 V c 3 t) ∧ (∀ d, (dat12 V c).before 4 t d = iblk12 V c 4 t) ∧ (∀ d, (dat12 V c).before 5 t d = iblk12 V c 5 t) := by
  refine ⟨?_, ?_, ?_, ?_, ?_, ?_⟩ <;> exact (dat12 V c).before_in_eq_fetched _ rfl (fun _ => rfl) (fun _ _ _ => rfl) (fun _ => rfl) t

theorem body_obligation12 (c : Dev nD) : BodyObligation (dat12 (F := F) V c) (defs₀ (F := F)) Variants.none () Set.univ := fun t => by
  rw [bigSep_W12, bigSep_W12]
  sl_whnfR [defs₀, Defs.onTc]
  simp only [before12 V c t, after12 V c t, after12_6]
  rewrite [show cc12__bn_relu_res_kernel (F := F) = cc3__bn_relu_res_kernel from rfl, show out12_6 (F := F) = out3_6 from rfl,
    show (dat12 V c).Φ t.succ = (dat12 V c).Φ t.castSucc from rfl,
    show (dat12 V c).owesAt () t.succ = (dat12 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel3
  iframe H0 H1 H2 H3 H4 H5
  isplitl [H6]; · iexists _; iexact H6
  iintro ⟨H0, H1, H2, H3, H4, H5, H6⟩
  iframe

end Region12

end Cert.Kernel.Gen
-- ==== Proof.K.R13.lean ====
import proofs.«137587_j59279138619792_1_alg».proof.Proof.K.R1

noncomputable section

namespace Cert.Kernel.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

abbrev r13_1 : Rect S128x10 := Rect.unit (s := S128x10) ![0, 0] S128x10.size inb_S128x10_S128x10_0_0
abbrev r13_2 : Rect S1x10 := Rect.unit (s := S1x10) ![0, 0] S1x10.size inb_S1x10_S1x10_0_0
abbrev r13_3 : Rect S2000x10 := Rect.unit (s := S2000x10) ![0, 0] S2000x10.size inb_S2000x10_S2000x10_0_0

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def out13_3 (x0 : Vec F S2000x128 .f32) (x1 : Vec F S128x10 .f32) (x2 : Vec F S1x10 .f32) : Vec F S2000x10 .f32 :=
  View.canon [⟨r13_3, k13_pay1 (View.ld x0 r1_0) (View.ld x1 r13_1) (View.ld x2 r13_2)⟩]

set_option maxHeartbeats 1000000 in
-- The one store covers the whole output block, so what the output reads afterwards depends on the three inputs only.
theorem sound_kernel13 (c : Dev nD) (E : Set ℕ) i (P Q : sProp (MT nD τ sig Unit (Elt F) ℕ (UR sig nD τ) ℕ)) {arg0 arg1 arg2 arg3} harg0 harg1 harg2 harg3
    {D0 D1 D2 D3 : Type} {b3 : D3 → _} {x0 x1 x2} :
    iprop(P ∗ Q ∗ (∃ _ : D0, owns c.tc arg0 fullShare x0) ∗ (∃ _ : D1, owns c.tc arg1 fullShare x1) ∗ (∃ _ : D2, owns c.tc arg2 fullShare x2)
        ∗ (∃ d, owns c.tc arg3 fullShare (b3 d)))
      ⊢ wp frame (wpE (defs₀ (F := F)) Variants.none c none) E (cc13__matmul_bias_kernel i arg0 harg0 arg1 harg1 arg2 harg2 arg3 harg3) fun _ =>
        iprop(P ∗ Q ∗ owns c.tc arg0 fullShare x0 ∗ owns c.tc arg1 fullShare x1 ∗ owns c.tc arg2 fullShare x2
          ∗ owns c.tc arg3 fullShare (out13_3 x0 x1 x2)) := by
  simp only [cc13__matmul_bias_kernel_eq_skeleton]; unfold cc13__matmul_bias_kernel_skel owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe HP HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S2000x10.size (by rfl))

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_3 (c : Dev nD) (t : Fin cfg13.N) :
    (dat13 V c).after 3 t = out13_3 (iblk13 V c 0 t) (iblk13 V c 1 t) (iblk13 V c 2 t) := by dsimp only [dat13]

theorem before13 (c : Dev nD) (t) : (∀ d, (dat13 V c).before 0 t d = iblk13 V c 0 t) ∧ (∀ d, (dat13 V c).before 1 t d = iblk13 V c 1 t)
    ∧ ∀ d, (dat13 V c).before 2 t d = iblk13 V c 2 t := by
  refine ⟨?_, ?_, ?_⟩ <;> exact (dat13 V c).before_in_eq_fetched _ rfl (fun _ => rfl) (fun _ _ _ => rfl) (fun _ => rfl) t

theorem body_obligation13 (c : Dev nD) : BodyObligation (dat13 (F := F) V c) (defs₀ (F := F)) Variants.none () Set.univ := fun t => by
  rw [bigSep_W13, bigSep_W13]
  simp only [before13 V c t]
  dsimp only [dat13]
  exact sound_kernel13 c _ (grid13.coords t) _ _ (hstage13_0 _) (hstage13_1 _) (hstage13_2 _) (hstage13_3 _)

end Cert.Kernel.Gen

end
-- ==== Proof.K.Chain.lean ====
import proofs.«137587_j59279138619792_1_alg».proof.Proof.Gen.Kernel.Regions
import proofs.«137587_j59279138619792_1_alg».proof.Proof.K.R0
import proofs.«137587_j59279138619792_1_alg».proof.Proof.K.R1
import proofs.«137587_j59279138619792_1_alg».proof.Proof.K.R2
import proofs.«137587_j59279138619792_1_alg».proof.Proof.K.R3
import proofs.«137587_j59279138619792_1_alg».proof.Proof.K.R4
import proofs.«137587_j59279138619792_1_alg».proof.Proof.K.R5
import proofs.«137587_j59279138619792_1_alg».proof.Proof.K.R6
import proofs.«137587_j59279138619792_1_alg».proof.Proof.K.R7
import proofs.«137587_j59279138619792_1_alg».proof.Proof.K.R8
import proofs.«137587_j59279138619792_1_alg».proof.Proof.K.R9
import proofs.«137587_j59279138619792_1_alg».proof.Proof.K.R10
import proofs.«137587_j59279138619792_1_alg».proof.Proof.K.R11
import proofs.«137587_j59279138619792_1_alg».proof.Proof.K.R12
import proofs.«137587_j59279138619792_1_alg».proof.Proof.K.R13

noncomputable section

namespace Cert.Kernel.Gen

open Idealize.ShloMosaic Idealize.ShloMosaic.TcCoe

variable {F : FTy → Type} [FloatOps F] (m : (ℓ : Loc nD τ sig) → Buf (Elt F) ℓ)

abbrev Vt (W : Dev nD → Valuation τ sig (Elt F)) : (c : Dev nD) → (b : Ref sig .tc) → Buf (Elt F) ((c : Thread nD τ).loc b) :=
  fun c b => W c b
abbrev X3 : Dev nD → Valuation τ sig (Elt F) := fun c => V3 m c
def o_main_v31 (c : Dev nD) : Buf (Elt F) ((c : Thread nD τ).loc main_v31) := (dat0 (Vt (X3 m)) c).arrAt 3 cfg0.N
abbrev X4 : Dev nD → Valuation τ sig (Elt F) := fun c => Function.update (X3 m c) main_v31 (o_main_v31 m c)
abbrev X5 : Dev nD → Valuation τ sig (Elt F) := fun c => StableHlo.after hostOps1 (X4 m c)
def o_main_v36 (c : Dev nD) : Buf (Elt F) ((c : Thread nD τ).loc main_v36) := (dat1 (Vt (X5 m)) c).arrAt 3 cfg1.N
abbrev X6 : Dev nD → Valuation τ sig (Elt F) := fun c => Function.update (X5 m c) main_v36 (o_main_v36 m c)
abbrev X7 : Dev nD → Valuation τ sig (Elt F) := fun c => StableHlo.after hostOps2 (X6 m c)
def o_main_v55_0 (c : Dev nD) : Buf (Elt F) ((c : Thread nD τ).loc main_v55_0) := (dat2 (Vt (X7 m)) c).arrAt 1 cfg2.N
def o_main_v55_1 (c : Dev nD) : Buf (Elt F) ((c : Thread nD τ).loc main_v55_1) := (dat2 (Vt (X7 m)) c).arrAt 2 cfg2.N
abbrev X8 : Dev nD → Valuation τ sig (Elt F) := fun c => Function.update (Function.update (X7 m c) main_v55_0 (o_main_v55_0 m c)) main_v55_1 (o_main_v55_1 m c)
abbrev X9 : Dev nD → Valuation τ sig (Elt F) := fun c => StableHlo.after hostOps3 (X8 m c)
def o_main_v62 (c : Dev nD) : Buf (Elt F) ((c : Thread nD τ).loc main_v62) := (dat3 (Vt (X9 m)) c).arrAt 6 cfg3.N
abbrev X10 : Dev nD → Valuation τ sig (Elt F) := fun c => Function.update (X9 m c) main_v62 (o_main_v62 m c)
abbrev X11 : Dev nD → Valuation τ sig (Elt F) := fun c => StableHlo.after hostOps4 (X10 m c)
def o_main_v66 (c : Dev nD) : Buf (Elt F) ((c : Thread nD τ).loc main_v66) := (dat4 (Vt (X11 m)) c).arrAt 3 cfg4.N
abbrev X12 : Dev nD → Valuation τ sig (Elt F) := fun c => Function.update (X11 m c) main_v66 (o_main_v66 m c)
abbrev X13 : Dev nD → Valuation τ sig (Elt F) := fun c => StableHlo.after hostOps5 (X12 m c)
def o_main_v85_0 (c : Dev nD) : Buf (Elt F) ((c : Thread nD τ).loc main_v85_0) := (dat5 (Vt (X13 m)) c).arrAt 1 cfg5.N
def o_main_v85_1 (c : Dev nD) : Buf (Elt F) ((c : Thread nD τ).loc main_v85_1) := (dat5 (Vt (X13 m)) c).arrAt 2 cfg5.N
abbrev X14 : Dev nD → Valuation τ sig (Elt F) := fun c => Function.update (Function.update (X13 m c) main_v85_0 (o_main_v85_0 m c)) main_v85_1 (o_main_v85_1 m c)
abbrev X15 : Dev nD → Valuation τ sig (Elt F) := fun c => StableHlo.after hostOps6 (X14 m c)
def o_main_v92 (c : Dev nD) : Buf (Elt F) ((c : Thread nD τ).loc main_v92) := (dat6 (Vt (X15 m)) c).arrAt 6 cfg6.N
abbrev X16 : Dev nD → Valuation τ sig (Elt F) := fun c => Function.update (X15 m c) main_v92 (o_main_v92 m c)
abbrev X17 : Dev nD → Valuation τ sig (Elt F) := fun c => StableHlo.after hostOps7 (X16 m c)
def o_main_v96 (c : Dev nD) : Buf (Elt F) ((c : Thread nD τ).loc main_v96) := (dat7 (Vt (X17 m)) c).arrAt 3 cfg7.N
abbrev X18 : Dev nD → Valuation τ sig (Elt F) := fun c => Function.update (X17 m c) main_v96 (o_main_v96 m c)
abbrev X19 : Dev nD → Valuation τ sig (Elt F) := fun c => StableHlo.after hostOps8 (X18 m c)
def o_main_v115_0 (c : Dev nD) : Buf (Elt F) ((c : Thread nD τ).loc main_v115_0) := (dat8 (Vt (X19 m)) c).arrAt 1 cfg8.N
def o_main_v115_1 (c : Dev nD) : Buf (Elt F) ((c : Thread nD τ).loc main_v115_1) := (dat8 (Vt (X19 m)) c).arrAt 2 cfg8.N
abbrev X20 : Dev nD → Valuation τ sig (Elt F) := fun c => Function.update (Function.update (X19 m c) main_v115_0 (o_main_v115_0 m c)) main_v115_1 (o_main_v115_1 m c)
abbrev X21 : Dev nD → Valuation τ sig (Elt F) := fun c => StableHlo.after hostOps9 (X20 m c)
def o_main_v122 (c : Dev nD) : Buf (Elt F) ((c : Thread nD τ).loc main_v122) := (dat9 (Vt (X21 m)) c).arrAt 6 cfg9.N
abbrev X22 : Dev nD → Valuation τ sig (Elt F) := fun c => Function.update (X21 m c) main_v122 (o_main_v122 m c)
abbrev X23 : Dev nD → Valuation τ sig (Elt F) := fun c => StableHlo.after hostOps10 (X22 m c)
def o_main_v126 (c : Dev nD) : Buf (Elt F) ((c : Thread nD τ).loc main_v126) := (dat10 (Vt (X23 m)) c).arrAt 3 cfg10.N
abbrev X24 : Dev nD → Valuation τ sig (Elt F) := fun c => Function.update (X23 m c) main_v126 (o_main_v126 m c)
abbrev X25 : Dev nD → Valuation τ sig (Elt F) := fun c => StableHlo.after hostOps11 (X24 m c)
def o_main_v145_0 (c : Dev nD) : Buf (Elt F) ((c : Thread nD τ).loc main_v145_0) := (dat11 (Vt (X25 m)) c).arrAt 1 cfg11.N
def o_main_v145_1 (c : Dev nD) : Buf (Elt F) ((c : Thread nD τ).loc main_v145_1) := (dat11 (Vt (X25 m)) c).arrAt 2 cfg11.N
abbrev X26 : Dev nD → Valuation τ sig (Elt F) := fun c => Function.update (Function.update (X25 m c) main_v145_0 (o_main_v145_0 m c)) main_v145_1 (o_main_v145_1 m c)
abbrev X27 : Dev nD → Valuation τ sig (Elt F) := fun c => StableHlo.after hostOps12 (X26 m c)
def o_main_v152 (c : Dev nD) : Buf (Elt F) ((c : Thread nD τ).loc main_v152) := (dat12 (Vt (X27 m)) c).arrAt 6 cfg12.N
abbrev X28 : Dev nD → Valuation τ sig (Elt F) := fun c => Function.update (X27 m c) main_v152 (o_main_v152 m c)
abbrev X29 : Dev nD → Valuation τ sig (Elt F) := fun c => StableHlo.after hostOps13 (X28 m c)
def o_main_v154 (c : Dev nD) : Buf (Elt F) ((c : Thread nD τ).loc main_v154) := (dat13 (Vt (X29 m)) c).arrAt 3 cfg13.N
abbrev X30 : Dev nD → Valuation τ sig (Elt F) := fun c => Function.update (X29 m c) main_v154 (o_main_v154 m c)

-- What each region leaves in its output arrays, by the number of the item of @main that follows the region.
def outs : Outs (F := F) := fun J r c => match J with
  | 4 => if h : r = main_v31 then h ▸ o_main_v31 m c else V0 m c r
  | 6 => if h : r = main_v36 then h ▸ o_main_v36 m c else V0 m c r
  | 8 => if h : r = main_v55_0 then h ▸ o_main_v55_0 m c else if h : r = main_v55_1 then h ▸ o_main_v55_1 m c else V0 m c r
  | 10 => if h : r = main_v62 then h ▸ o_main_v62 m c else V0 m c r
  | 12 => if h : r = main_v66 then h ▸ o_main_v66 m c else V0 m c r
  | 14 => if h : r = main_v85_0 then h ▸ o_main_v85_0 m c else if h : r = main_v85_1 then h ▸ o_main_v85_1 m c else V0 m c r
  | 16 => if h : r = main_v92 then h ▸ o_main_v92 m c else V0 m c r
  | 18 => if h : r = main_v96 then h ▸ o_main_v96 m c else V0 m c r
  | 20 => if h : r = main_v115_0 then h ▸ o_main_v115_0 m c else if h : r = main_v115_1 then h ▸ o_main_v115_1 m c else V0 m c r
  | 22 => if h : r = main_v122 then h ▸ o_main_v122 m c else V0 m c r
  | 24 => if h : r = main_v126 then h ▸ o_main_v126 m c else V0 m c r
  | 26 => if h : r = main_v145_0 then h ▸ o_main_v145_0 m c else if h : r = main_v145_1 then h ▸ o_main_v145_1 m c else V0 m c r
  | 28 => if h : r = main_v152 then h ▸ o_main_v152 m c else V0 m c r
  | 30 => if h : r = main_v154 then h ▸ o_main_v154 m c else V0 m c r
  | _ => V0 m c r

-- Equal valuations updated at the same buffer by the same contents are equal.
theorem update_congr {V V' : Valuation τ sig (Elt F)} (h : V = V') : ∀ r x, Function.update V r x = Function.update V' r x := h ▸ fun _ _ => rfl
theorem V4_eq (c : Dev nD) : V4 m (outs m) c = X4 m c := update_congr rfl ..
theorem V5_eq (c : Dev nD) : V5 m (outs m) c = X5 m c := congrArg (StableHlo.after hostOps1) (V4_eq m c)
theorem V6_eq (c : Dev nD) : V6 m (outs m) c = X6 m c := update_congr (V5_eq m c) ..
theorem V7_eq (c : Dev nD) : V7 m (outs m) c = X7 m c := congrArg (StableHlo.after hostOps2) (V6_eq m c)
theorem V8_eq (c : Dev nD) : V8 m (outs m) c = X8 m c := update_congr (update_congr (V7_eq m c) ..) ..
theorem V9_eq (c : Dev nD) : V9 m (outs m) c = X9 m c := congrArg (StableHlo.after hostOps3) (V8_eq m c)
theorem V10_eq (c : Dev nD) : V10 m (outs m) c = X10 m c := update_congr (V9_eq m c) ..
theorem V11_eq (c : Dev nD) : V11 m (outs m) c = X11 m c := congrArg (StableHlo.after hostOps4) (V10_eq m c)
theorem V12_eq (c : Dev nD) : V12 m (outs m) c = X12 m c := update_congr (V11_eq m c) ..
theorem V13_eq (c : Dev nD) : V13 m (outs m) c = X13 m c := congrArg (StableHlo.after hostOps5) (V12_eq m c)
theorem V14_eq (c : Dev nD) : V14 m (outs m) c = X14 m c := update_congr (update_congr (V13_eq m c) ..) ..
theorem V15_eq (c : Dev nD) : V15 m (outs m) c = X15 m c := congrArg (StableHlo.after hostOps6) (V14_eq m c)
theorem V16_eq (c : Dev nD) : V16 m (outs m) c = X16 m c := update_congr (V15_eq m c) ..
theorem V17_eq (c : Dev nD) : V17 m (outs m) c = X17 m c := congrArg (StableHlo.after hostOps7) (V16_eq m c)
theorem V18_eq (c : Dev nD) : V18 m (outs m) c = X18 m c := update_congr (V17_eq m c) ..
theorem V19_eq (c : Dev nD) : V19 m (outs m) c = X19 m c := congrArg (StableHlo.after hostOps8) (V18_eq m c)
theorem V20_eq (c : Dev nD) : V20 m (outs m) c = X20 m c := update_congr (update_congr (V19_eq m c) ..) ..
theorem V21_eq (c : Dev nD) : V21 m (outs m) c = X21 m c := congrArg (StableHlo.after hostOps9) (V20_eq m c)
theorem V22_eq (c : Dev nD) : V22 m (outs m) c = X22 m c := update_congr (V21_eq m c) ..
theorem V23_eq (c : Dev nD) : V23 m (outs m) c = X23 m c := congrArg (StableHlo.after hostOps10) (V22_eq m c)
theorem V24_eq (c : Dev nD) : V24 m (outs m) c = X24 m c := update_congr (V23_eq m c) ..
theorem V25_eq (c : Dev nD) : V25 m (outs m) c = X25 m c := congrArg (StableHlo.after hostOps11) (V24_eq m c)
theorem V26_eq (c : Dev nD) : V26 m (outs m) c = X26 m c := update_congr (update_congr (V25_eq m c) ..) ..
theorem V27_eq (c : Dev nD) : V27 m (outs m) c = X27 m c := congrArg (StableHlo.after hostOps12) (V26_eq m c)
theorem V28_eq (c : Dev nD) : V28 m (outs m) c = X28 m c := update_congr (V27_eq m c) ..
theorem V29_eq (c : Dev nD) : V29 m (outs m) c = X29 m c := congrArg (StableHlo.after hostOps13) (V28_eq m c)
theorem V30_eq (c : Dev nD) : V30 m (outs m) c = X30 m c := update_congr (V29_eq m c) ..

end Cert.Kernel.Gen

end
-- ==== Proof.K.Pdats.lean ====
import proofs.«137587_j59279138619792_1_alg».proof.Proof.K.Chain

noncomputable section

namespace Cert.Kernel.Gen

open Idealize.ShloMosaic Idealize.ShloMosaic.TcCoe

variable {F : FTy → Type} [FloatOps F] (m : (ℓ : Loc nD τ sig) → Buf (Elt F) ℓ)

def pdats : (p : Fin 14) → (c : Dev nD) → Pipeline.Dat τ (Elt F) Unit ℕ (UR sig nD τ) ℕ (cfgs p) c
  | ⟨0, _⟩ => dat0 (Vt (X3 m))
  | ⟨1, _⟩ => dat1 (Vt (X5 m))
  | ⟨2, _⟩ => dat2 (Vt (X7 m))
  | ⟨3, _⟩ => dat3 (Vt (X9 m))
  | ⟨4, _⟩ => dat4 (Vt (X11 m))
  | ⟨5, _⟩ => dat5 (Vt (X13 m))
  | ⟨6, _⟩ => dat6 (Vt (X15 m))
  | ⟨7, _⟩ => dat7 (Vt (X17 m))
  | ⟨8, _⟩ => dat8 (Vt (X19 m))
  | ⟨9, _⟩ => dat9 (Vt (X21 m))
  | ⟨10, _⟩ => dat10 (Vt (X23 m))
  | ⟨11, _⟩ => dat11 (Vt (X25 m))
  | ⟨12, _⟩ => dat12 (Vt (X27 m))
  | ⟨13, _⟩ => dat13 (Vt (X29 m))
abbrev 𝒱₀ : Variants := Variants.none
abbrev L : GSem nD τ sig → Finset Unit := fun _ => ∅
abbrev lv : GSem nD τ sig → Unit → ℕ := fun _ _ => 0

end Cert.Kernel.Gen

end
-- ==== Proof.LibRegion.lean ====
import Idealize.ShloMosaic.Lib.Pipeline.FrameBody
import Idealize.ShloMosaic.Lib.Pipeline.RegionsLoop
import Idealize.ShloMosaic.Lib.Tactic

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} {U : Type} [URA U]
variable {Λ₀ : Labels} {P : Type}

local notation "𝕄" => MT nD τ sig Unit Val ℕ U ℕ

abbrev Beside (c : Dev nD) : sProp 𝕄 := iprop((∃ r, prngReg c r) ∗ ∃ W, owes (c : Thread nD τ) (0 : CellTallies nD τ sig Unit) W)

variable (cfgs : P → Cfg sig Λ₀)
  (pdats : (p : P) → (c : Dev nD) → Dat τ Val Unit ℕ U ℕ (cfgs p) c)
  (defs₀ : Defs nD τ sig Val Λ₀) (𝒱₀ : Variants)
  (L : GSem nD τ sig → Finset Unit) (lv : GSem nD τ sig → Unit → ℕ)

set_option backward.isDefEq.respectTransparency.types false in
def regionOfHeld (p : P) (lf : LaunchFacts (nD := nD) (τ := τ) cfgs p) (V V' : Dev nD → Valuation τ sig Val)
    (hbody : ∀ c, BodyObligationLoose (pdats p c) defs₀ 𝒱₀ () Set.univ)
    (o₁ o₂ : Fin (cfgs p).W)
    (hin : ∀ c, iprop((∃ r, prngReg c r) ∗ prefHeld (Ix := Unit) (Name := ℕ) (U := U) (Lvl := ℕ) ((cfgs p).toPCfg (Val := Val)).pre c (fun _ => fullShare) ((cfgs p).toPCfg_adm (Val := Val)).1 ∗ scopedRest (cfgs p).spec c) ⊢ (pdats p c).Φ 0)
    (hout : ∀ c, (pdats p c).Φ (Fin.last (cfgs p).N) ⊢ iprop((∃ r, prngReg c r) ∗ emp ∗ scopedRest (Ix := Unit) (Name := ℕ) (U := U) (Lvl := ℕ) (cfgs p).spec c))
    (hO₁ : ∀ c, V' c (arrRef (cfgs p).spec o₁) = (pdats p c).arrAt o₁ (cfgs p).N := by exact fun _ => (Function.update_of_ne (StableHlo.devRef_ne_of_ne (by decide)) ..).trans (Function.update_self ..))
    (hO₂ : ∀ c, V' c (arrRef (cfgs p).spec o₂) = (pdats p c).arrAt o₂ (cfgs p).N := by exact fun _ => Function.update_self ..)
    (hI : ∀ c (b : Ref sig .tc), b ≠ arrRef (cfgs p).spec o₁ → b ≠ arrRef (cfgs p).spec o₂ → V' c b = V c b := by exact fun _ _ h₁ h₂ => (Function.update_of_ne (StableHlo.devRef_ne_of_ne h₂) ..).trans (Function.update_of_ne (StableHlo.devRef_ne_of_ne h₁) ..))
    (hinp : ∀ w, w ≠ o₁ → w ≠ o₂ → ((cfgs p).win w).isOut = false := by decide)
    (howed : ∀ c t, (pdats p c).owed t = 0 := by exact fun _ _ => rfl)
    (hrec : ∀ c, (pdats p c).recorded 0 = Set.univ := by exact fun _ => rfl)
    (hq : ∀ c w, (pdats p c).q w = fullShare := by exact fun _ _ => rfl)
    (hA : ∀ c w, (pdats p c).A w = V c (arrRef (cfgs p).spec w) := by exact fun _ _ => rfl) :
    RegionSeg (fun q => (cfgs q).toPCfg (Val := Val)) (fun q => (cfgs q).toPCfg_adm) pdats () defs₀ 𝒱₀ L lv p where
  win := lf.win.to₀
  block_pos := lf.block_pos
  stage_whole := lf.stage_whole
  K := PEmpty
  osem k := k.elim
  ho := OwnSemFacts.none _
  hbody := hbody
  hwaits := hwaits_of_owed_zero _ _ _ _ L lv p howed
  pre c := iprop(StableHlo.held (c : Thread nD τ) (ucRefs τ sig) (V c) ∗ Beside c)
  post c := iprop(StableHlo.held (c : Thread nD τ) (ucRefs τ sig) (V' c) ∗ Beside c)
  X c := iprop(∃ r, prngReg c r)
  Y c := iprop(∃ r, prngReg c r)
  Z c := unscopedRest (Ix := Unit) (Name := ℕ) (U := U) (Lvl := ℕ) (cfgs p).spec c (fun b => V c b)
  hentry c := by
    rw [ownSems0_none]
    have hsplit := arrays_of_unscopedBufs (p := p) (fun q => (cfgs q).toPCfg (Val := Val)) (fun q => (cfgs q).toPCfg_adm) pdats lf.win lf.arr_whole c
      ((pdats p c).share_full (hq c)) (fun b => V c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin; rw [howed c 0]
      icases HO with ⟨%W, HO⟩; iexists W; isplitr; · ipureintro; unfold Dat.bound; rw [hrec c]; exact fun _ _ => Or.inl trivial
      iexact HO
    isplitl [Hp]; · iexact Hp
    iexact Hrest
  hin := hin
  hout c := by rw [ownSems0_none]; exact hout c
  hexit c := by
    have hjoin := unscopedBufs_of_arrays (p := p) (fun q => (cfgs q).toPCfg (Val := Val)) (fun q => (cfgs q).toPCfg_adm) (Ix := Unit) (Name := ℕ) (U := U) (Lvl := ℕ)
      lf.win lf.arr_whole c pdats ((pdats p c).share_full (hq c))
      (fun b => V c b) (fun b => V' c b) ((pdats p c).arrAt · (cfgs p).N)
      (fun w => by
        by_cases h₁ : w = o₁; · rw [h₁, hO₁]
        by_cases h₂ : w = o₂; · rw [h₂, hO₂]
        rw [(pdats p c).arrAt_in w (hinp w h₁ h₂), hA c w, hI c _ (fun e => h₁ (lf.win.arr_inj e)) fun e => h₂ (lf.win.arr_inj e)])
      (fun b hb => hI c b (fun e => hb (Finset.mem_image.mpr ⟨o₁, Finset.mem_univ _, e.symm⟩)) fun e => hb (Finset.mem_image.mpr ⟨o₂, Finset.mem_univ _, e.symm⟩))
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin; rw [howed c]
    icases HO with ⟨%W, -, HO⟩; iexists W; iexact HO

set_option backward.isDefEq.respectTransparency.types false in
def regionΦA (p : P) (lf : LaunchFacts (nD := nD) (τ := τ) cfgs p) (V V' : Dev nD → Valuation τ sig Val)
    (hbody : ∀ c, BodyObligationLoose (pdats p c) defs₀ 𝒱₀ () Set.univ)
    (o : Fin (cfgs p).W)
    (hO : ∀ c, V' c (arrRef (cfgs p).spec o) = (pdats p c).arrAt o (cfgs p).N := by exact fun _ => Function.update_self ..)
    (hI : ∀ c (b : Ref sig .tc), b ≠ arrRef (cfgs p).spec o → V' c b = V c b := by exact fun _ _ h => Function.update_of_ne (StableHlo.devRef_ne_of_ne h) ..)
    (hinp : ∀ w, w ≠ o → ((cfgs p).win w).isOut = false := by decide)
    (hΦ₀ : ∀ c, (pdats p c).Φ 0 = ΦA (cfgs p).spec c := by exact fun _ => rfl)
    (hΦₙ : ∀ c, (pdats p c).Φ (Fin.last (cfgs p).N) = ΦA (cfgs p).spec c := by exact fun _ => rfl)
    (howed : ∀ c t, (pdats p c).owed t = 0 := by exact fun _ _ => rfl)
    (hrec : ∀ c, (pdats p c).recorded 0 = Set.univ := by exact fun _ => rfl)
    (hq : ∀ c w, (pdats p c).q w = fullShare := by exact fun _ _ => rfl)
    (hA : ∀ c w, (pdats p c).A w = V c (arrRef (cfgs p).spec w) := by exact fun _ _ => rfl) :
    RegionSeg (fun q => (cfgs q).toPCfg (Val := Val)) (fun q => (cfgs q).toPCfg_adm) pdats () defs₀ 𝒱₀ L lv p :=
  regionOfHeld cfgs pdats defs₀ 𝒱₀ L lv p lf V V' hbody o o
    (fun c => by
      rw [hΦ₀]; unfold ΦA
      iintro ⟨Hp, -, Hr⟩
      isplitl [Hr]; · iexact Hr
      iexact Hp)
    (fun c => by
      rw [hΦₙ]; unfold ΦA
      iintro ⟨Hr, Hp⟩
      isplitl [Hp]; · iexact Hp
      isplitr; · iempintro
      iexact Hr)
    hO hO (fun c b h _ => hI c b h) (fun w h _ => hinp w h) howed hrec hq hA

omit cfgs pdats defs₀ 𝒱₀ L lv in
theorem own_launch (u : U) : (ownU u : sProp 𝕄) ⊢ |={Set.univ}=> iprop(BI.own (emb₁ u) ∗ bigSep Finset.univ fun _ : Dev nD => (BI.emp : sProp 𝕄)) := by
  rw [BI.bigSep_emp_const]
  iintro Hu; imodintro
  isplitl [Hu]; · iapply (show (ownU u : sProp 𝕄) ⊢ BI.own (emb₁ u) from .rfl); iexact Hu
  iempintro

end Cert.LibRegion

end
-- ==== Proof.K.Reg0.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg0 : Pipeline.RegionSeg (pcfgs (F := F)) adm (pdats m) () defs₀ 𝒱₀ L lv 0 :=
  LibRegion.regionΦA cfgs (pdats m) defs₀ 𝒱₀ L lv 0 launch0 (X3 m) (X4 m) (fun c => (body_obligation0 (Vt (X3 m)) c).loose) 3

end Cert.Kernel.Gen

end
-- ==== Proof.K.Reg1.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg1 : Pipeline.RegionSeg (pcfgs (F := F)) adm (pdats m) () defs₀ 𝒱₀ L lv 1 :=
  LibRegion.regionΦA cfgs (pdats m) defs₀ 𝒱₀ L lv 1 launch1 (X5 m) (X6 m) (fun c => (body_obligation1 (Vt (X5 m)) c).loose) 3

end Cert.Kernel.Gen

end
-- ==== Proof.K.Reg2.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg2 : Pipeline.RegionSeg (pcfgs (F := F)) adm (pdats m) () defs₀ 𝒱₀ L lv 2 :=
  LibRegion.regionOfHeld cfgs (pdats m) defs₀ 𝒱₀ L lv 2 launch2 (X7 m) (X8 m) (fun c => (body_obligation2 (Vt (X7 m)) c).loose) 1 2
    (fun c => hin2 (Vt (X7 m)) c _) (hout2 (Vt (X7 m)))

end Cert.Kernel.Gen

end
-- ==== Proof.K.Reg3.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg3 : Pipeline.RegionSeg (pcfgs (F := F)) adm (pdats m) () defs₀ 𝒱₀ L lv 3 :=
  LibRegion.regionΦA cfgs (pdats m) defs₀ 𝒱₀ L lv 3 launch3 (X9 m) (X10 m) (fun c => (body_obligation3 (Vt (X9 m)) c).loose) 6

end Cert.Kernel.Gen

end
-- ==== Proof.K.Reg4.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg4 : Pipeline.RegionSeg (pcfgs (F := F)) adm (pdats m) () defs₀ 𝒱₀ L lv 4 :=
  LibRegion.regionΦA cfgs (pdats m) defs₀ 𝒱₀ L lv 4 launch4 (X11 m) (X12 m) (fun c => (body_obligation4 (Vt (X11 m)) c).loose) 3

end Cert.Kernel.Gen

end
-- ==== Proof.K.Reg5.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg5 : Pipeline.RegionSeg (pcfgs (F := F)) adm (pdats m) () defs₀ 𝒱₀ L lv 5 :=
  LibRegion.regionOfHeld cfgs (pdats m) defs₀ 𝒱₀ L lv 5 launch5 (X13 m) (X14 m) (fun c => (body_obligation5 (Vt (X13 m)) c).loose) 1 2
    (fun c => hin5 (Vt (X13 m)) c _) (hout5 (Vt (X13 m)))

end Cert.Kernel.Gen

end
-- ==== Proof.K.Reg6.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg6 : Pipeline.RegionSeg (pcfgs (F := F)) adm (pdats m) () defs₀ 𝒱₀ L lv 6 :=
  LibRegion.regionΦA cfgs (pdats m) defs₀ 𝒱₀ L lv 6 launch6 (X15 m) (X16 m) (fun c => (body_obligation6 (Vt (X15 m)) c).loose) 6

end Cert.Kernel.Gen

end
-- ==== Proof.K.Reg7.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg7 : Pipeline.RegionSeg (pcfgs (F := F)) adm (pdats m) () defs₀ 𝒱₀ L lv 7 :=
  LibRegion.regionΦA cfgs (pdats m) defs₀ 𝒱₀ L lv 7 launch7 (X17 m) (X18 m) (fun c => (body_obligation7 (Vt (X17 m)) c).loose) 3

end Cert.Kernel.Gen

end
-- ==== Proof.K.Reg8.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg8 : Pipeline.RegionSeg (pcfgs (F := F)) adm (pdats m) () defs₀ 𝒱₀ L lv 8 :=
  LibRegion.regionOfHeld cfgs (pdats m) defs₀ 𝒱₀ L lv 8 launch8 (X19 m) (X20 m) (fun c => (body_obligation8 (Vt (X19 m)) c).loose) 1 2
    (fun c => hin8 (Vt (X19 m)) c _) (hout8 (Vt (X19 m)))

end Cert.Kernel.Gen

end
-- ==== Proof.K.Reg9.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg9 : Pipeline.RegionSeg (pcfgs (F := F)) adm (pdats m) () defs₀ 𝒱₀ L lv 9 :=
  LibRegion.regionΦA cfgs (pdats m) defs₀ 𝒱₀ L lv 9 launch9 (X21 m) (X22 m) (fun c => (body_obligation9 (Vt (X21 m)) c).loose) 6

end Cert.Kernel.Gen

end
-- ==== Proof.K.Reg10.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg10 : Pipeline.RegionSeg (pcfgs (F := F)) adm (pdats m) () defs₀ 𝒱₀ L lv 10 :=
  LibRegion.regionΦA cfgs (pdats m) defs₀ 𝒱₀ L lv 10 launch10 (X23 m) (X24 m) (fun c => (body_obligation10 (Vt (X23 m)) c).loose) 3

end Cert.Kernel.Gen

end
-- ==== Proof.K.Reg11.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg11 : Pipeline.RegionSeg (pcfgs (F := F)) adm (pdats m) () defs₀ 𝒱₀ L lv 11 :=
  LibRegion.regionOfHeld cfgs (pdats m) defs₀ 𝒱₀ L lv 11 launch11 (X25 m) (X26 m) (fun c => (body_obligation11 (Vt (X25 m)) c).loose) 1 2
    (fun c => hin11 (Vt (X25 m)) c _) (hout11 (Vt (X25 m)))

end Cert.Kernel.Gen

end
-- ==== Proof.K.Reg12.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg12 : Pipeline.RegionSeg (pcfgs (F := F)) adm (pdats m) () defs₀ 𝒱₀ L lv 12 :=
  LibRegion.regionΦA cfgs (pdats m) defs₀ 𝒱₀ L lv 12 launch12 (X27 m) (X28 m) (fun c => (body_obligation12 (Vt (X27 m)) c).loose) 6

end Cert.Kernel.Gen

end
-- ==== Proof.K.Reg13.lean ====
import proofs.«137587_j59279138619792_1_alg».proof.Proof.K.Pdats
import proofs.«137587_j59279138619792_1_alg».proof.Proof.LibRegion

noncomputable section

namespace Cert.Kernel.Gen

open Idealize.ShloMosaic

variable {F : FTy → Type} [FloatOps F] (m : (ℓ : Loc nD τ sig) → Buf (Elt F) ℓ)

def reg13 : Pipeline.RegionSeg (pcfgs (F := F)) adm (pdats m) () defs₀ 𝒱₀ L lv 13 :=
  LibRegion.regionΦA cfgs (pdats m) defs₀ 𝒱₀ L lv 13 launch13 (X29 m) (X30 m) (fun c => (body_obligation13 (Vt (X29 m)) c).loose) 3

end Cert.Kernel.Gen

end
-- ==== Proof.K.Run.lean ====
import proofs.«137587_j59279138619792_1_alg».proof.Proof.K.Reg0
import proofs.«137587_j59279138619792_1_alg».proof.Proof.K.Reg1
import proofs.«137587_j59279138619792_1_alg».proof.Proof.K.Reg2
import proofs.«137587_j59279138619792_1_alg».proof.Proof.K.Reg3
import proofs.«137587_j59279138619792_1_alg».proof.Proof.K.Reg4
import proofs.«137587_j59279138619792_1_alg».proof.Proof.K.Reg5
import proofs.«137587_j59279138619792_1_alg».proof.Proof.K.Reg6
import proofs.«137587_j59279138619792_1_alg».proof.Proof.K.Reg7
import proofs.«137587_j59279138619792_1_alg».proof.Proof.K.Reg8
import proofs.«137587_j59279138619792_1_alg».proof.Proof.K.Reg9
import proofs.«137587_j59279138619792_1_alg».proof.Proof.K.Reg10
import proofs.«137587_j59279138619792_1_alg».proof.Proof.K.Reg11
import proofs.«137587_j59279138619792_1_alg».proof.Proof.K.Reg12
import proofs.«137587_j59279138619792_1_alg».proof.Proof.K.Reg13

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond (F := F) m (Ix := Unit) (U := UR sig nD τ) (Lvl := ℕ) emb₁ () 𝒱₀ L lv (fun _ _ => rfl) ρ (outs m) (pdats m)
      (O₀ := 0) (G := _) (u₀ := _) (hu₀ := LibRegion.own_launch _) (E := fun _ c => LibRegion.Beside c)
      (hE0 := Pipeline.initEach L lv fun c => by
        iintro ⟨⟨-, HO, -, Hp, -⟩, -⟩
        imodintro
        isplitl [Hp]; · iexists _; iexact Hp
        iexists ∅; iexact HO)
      (hE14 := fun c => by iintro ⟨-, HO⟩; iexact HO)
      (reg0 m) (fun c => .rfl) (fun c => by rw [V4_eq]; exact .rfl)
      (reg1 m) (fun c => by rw [V5_eq]; exact .rfl) (fun c => by rw [V6_eq]; exact .rfl)
      (reg2 m) (fun c => by rw [V7_eq]; exact .rfl) (fun c => by rw [V8_eq]; exact .rfl)
      (reg3 m) (fun c => by rw [V9_eq]; exact .rfl) (fun c => by rw [V10_eq]; exact .rfl)
      (reg4 m) (fun c => by rw [V11_eq]; exact .rfl) (fun c => by rw [V12_eq]; exact .rfl)
      (reg5 m) (fun c => by rw [V13_eq]; exact .rfl) (fun c => by rw [V14_eq]; exact .rfl)
      (reg6 m) (fun c => by rw [V15_eq]; exact .rfl) (fun c => by rw [V16_eq]; exact .rfl)
      (reg7 m) (fun c => by rw [V17_eq]; exact .rfl) (fun c => by rw [V18_eq]; exact .rfl)
      (reg8 m) (fun c => by rw [V19_eq]; exact .rfl) (fun c => by rw [V20_eq]; exact .rfl)
      (reg9 m) (fun c => by rw [V21_eq]; exact .rfl) (fun c => by rw [V22_eq]; exact .rfl)
      (reg10 m) (fun c => by rw [V23_eq]; exact .rfl) (fun c => by rw [V24_eq]; exact .rfl)
      (reg11 m) (fun c => by rw [V25_eq]; exact .rfl) (fun c => by rw [V26_eq]; exact .rfl)
      (reg12 m) (fun c => by rw [V27_eq]; exact .rfl) (fun c => by rw [V28_eq]; exact .rfl)
      (reg13 m) (fun c => by rw [V29_eq]; exact .rfl) (fun c => by rw [V30_eq]; exact .rfl)

end Cert.Kernel.Gen

end
-- ==== Proof.KI.R1.lean ====
import proofs.«137587_j59279138619792_1_alg».proof.Proof.Gen.KernelIdeal.Launch
import proofs.«137587_j59279138619792_1_alg».proof.Proof.Gen.KernelIdeal.Skeleton
import proofs.«137587_j59279138619792_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F] [Named F]

variable (V : (c : Dev nD) → (b : Ref sig .tc) → Buf (Elt F) ((c : Thread nD τ).loc b))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S2000x128 .f32) (x1 : Vec F S128x128 .f32) (x2 : Vec F S1x128 .f32) : Vec F S2000x128 .f32 :=
  View.canon [⟨r1_3, k1_pay1 (View.ld x0 r1_0) (View.ld x1 r1_1) (View.ld x2 r1_2)⟩]

set_option maxHeartbeats 1000000 in
-- The one store covers the whole output block, so what the output reads afterwards depends on the three inputs only.
theorem sound_kernel1 (c : Dev nD) (E : Set ℕ) i (P Q : sProp (MT nD τ sig Unit (Elt F) ℕ (UR sig nD τ) ℕ)) {arg0 arg1 arg2 arg3} harg0 harg1 harg2 harg3
    {D0 D1 D2 D3 : Type} {b3 : D3 → _} {x0 x1 x2} :
    iprop(P ∗ Q ∗ (∃ _ : D0, owns c.tc arg0 fullShare x0) ∗ (∃ _ : D1, owns c.tc arg1 fullShare x1) ∗ (∃ _ : D2, owns c.tc arg2 fullShare x2)
        ∗ (∃ d, owns c.tc arg3 fullShare (b3 d)))
      ⊢ wp frame (wpE (defs₀ (F := F)) Variants.none c none) E (cc1__matmul_bias_kernel i arg0 harg0 arg1 harg1 arg2 harg2 arg3 harg3) fun _ =>
        iprop(P ∗ Q ∗ owns c.tc arg0 fullShare x0 ∗ owns c.tc arg1 fullShare x1 ∗ owns c.tc arg2 fullShare x2
          ∗ owns c.tc arg3 fullShare (out1_3 x0 x1 x2)) := by
  simp only [cc1__matmul_bias_kernel_eq_skeleton]; unfold cc1__matmul_bias_kernel_skel owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe HP HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S2000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1 (c : Dev nD) (t) : (∀ d, (dat1 V c).before 0 t d = iblk1 V c 0 t) ∧ (∀ d, (dat1 V c).before 1 t d = iblk1 V c 1 t)
    ∧ ∀ d, (dat1 V c).before 2 t d = iblk1 V c 2 t := by
  refine ⟨?_, ?_, ?_⟩ <;> exact (dat1 V c).before_in_eq_fetched _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  simp only [before1 V c t]
  dsimp only [dat1]
  exact sound_kernel1 c _ (grid1.coords t) _ _ (hstage1_0 _) (hstage1_1 _) (hstage1_2 _) (hstage1_3 _)

end Cert.KernelIdeal.Gen

end
-- ==== Proof.KI.R0.lean ====
import proofs.«137587_j59279138619792_1_alg».proof.Proof.KI.R1

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F] [Named F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S2000x128 .f32) (x1 : Vec F S128x128 .f32) (x2 : Vec F S1x128 .f32) : Vec F S2000x128 .f32 :=
  View.canon [⟨r1_3, k0_pay1 (View.ld x0 r1_0) (View.ld x1 r1_1) (View.ld x2 r1_2)⟩]

set_option maxHeartbeats 1000000 in
-- The one store covers the whole output block, so what the output reads afterwards depends on the three inputs only.
theorem sound_kernel0 (c : Dev nD) (E : Set ℕ) i (P Q : sProp (MT nD τ sig Unit (Elt F) ℕ (UR sig nD τ) ℕ)) {arg0 arg1 arg2 arg3} harg0 harg1 harg2 harg3
    {D0 D1 D2 D3 : Type} {b3 : D3 → _} {x0 x1 x2} :
    iprop(P ∗ Q ∗ (∃ _ : D0, owns c.tc arg0 fullShare x0) ∗ (∃ _ : D1, owns c.tc arg1 fullShare x1) ∗ (∃ _ : D2, owns c.tc arg2 fullShare x2)
        ∗ (∃ d, owns c.tc arg3 fullShare (b3 d)))
      ⊢ wp frame (wpE (defs₀ (F := F)) Variants.none c none) E (cc0__matmul_bias_kernel i arg0 harg0 arg1 harg1 arg2 harg2 arg3 harg3) fun _ =>
        iprop(P ∗ Q ∗ owns c.tc arg0 fullShare x0 ∗ owns c.tc arg1 fullShare x1 ∗ owns c.tc arg2 fullShare x2
          ∗ owns c.tc arg3 fullShare (out0_3 x0 x1 x2)) := by
  simp only [cc0__matmul_bias_kernel_eq_skeleton]; unfold cc0__matmul_bias_kernel_skel owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe HP HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0 (c : Dev nD) (t) : (∀ d, (dat0 V c).before 0 t d = iblk0 V c 0 t) ∧ (∀ d, (dat0 V c).before 1 t d = iblk0 V c 1 t)
    ∧ ∀ d, (dat0 V c).before 2 t d = iblk0 V c 2 t := by
  refine ⟨?_, ?_, ?_⟩ <;> exact (dat0 V c).before_in_eq_fetched _ rfl (fun _ => rfl) (fun _ _ _ => rfl) (fun _ => rfl) t

theorem body_obligation0 (c : Dev nD) : BodyObligation (dat0 (F := F) V c) (defs₀ (F := F)) Variants.none () Set.univ := fun t => by
  rw [bigSep_W0, bigSep_W0]
  simp only [before0 V c t]
  dsimp only [dat0]
  exact sound_kernel0 c _ (grid0.coords t) _ _ (hstage0_0 _) (hstage0_1 _) (hstage0_2 _) (hstage0_3 _)

end Cert.KernelIdeal.Gen

end
-- ==== Proof.KI.R2.lean ====
import proofs.«137587_j59279138619792_1_alg».proof.Proof.Gen.KernelIdeal.Launch
import proofs.«137587_j59279138619792_1_alg».proof.Proof.Gen.KernelIdeal.Skeleton
import proofs.«137587_j59279138619792_1_alg».proof.Proof.Gen.KernelIdeal.Points
import Idealize.ShloMosaic.Lib.Pipeline.FrameBody
import Idealize.ShloMosaic.Lib.Tactic
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S1x128 .f32 × Vec F S1x128 .f32
  | 0, h => (k2_pay4 (iblk2 V c 0 ⟨0, h⟩) k2_pay1, k2_pay5 (iblk2 V c 0 ⟨0, h⟩) k2_pay2)
  | n + 1, h => (k2_pay4 (iblk2 V c 0 ⟨n + 1, h⟩) (accAt2 c n (Nat.lt_of_succ_lt h)).1,
      k2_pay5 (iblk2 V c 0 ⟨n + 1, h⟩) (accAt2 c n (Nat.lt_of_succ_lt h)).2)

theorem accAt2_zero (c : Dev nD) (h : 0 < cfg2.N) :
    accAt2 V c 0 h = (k2_pay4 (iblk2 V c 0 ⟨0, h⟩) k2_pay1, k2_pay5 (iblk2 V c 0 ⟨0, h⟩) k2_pay2) := rfl

theorem accAt2_succ (c : Dev nD) (n : ℕ) (h : n + 1 < cfg2.N) :
    accAt2 V c (n + 1) h = (k2_pay4 (iblk2 V c 0 ⟨n + 1, h⟩) (accAt2 V c n (Nat.lt_of_succ_lt h)).1,
      k2_pay5 (iblk2 V c 0 ⟨n + 1, h⟩) (accAt2 V c n (Nat.lt_of_succ_lt h)).2) := rfl

abbrev scM2_0 : Memref sig .tc .vmem S1x128 .f32 := Memref.whole cc2_scratch0
abbrev scM2_1 : Memref sig .tc .vmem S1x128 .f32 := Memref.whole cc2_scratch1

def Phi2 (c : Dev nD) : (n : ℕ) → n ≤ cfg2.N → sProp 𝕄
  | 0, _ => Pipeline.ΦA spec2 c
  | n + 1, hn => iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]
      ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => k2_pay6 (accAt2 V c t.val t.isLt).1
    | ⟨2, _⟩ => k2_pay7 (accAt2 V c t.val t.isLt).1 (accAt2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = k2_pay6 (accAt2 V c t.val t.isLt).1 := by dsimp only [dat2]
theorem after2_2 (c : Dev nD) (t : Fin cfg2.N) :
    (dat2 V c).after 2 t = k2_pay7 (accAt2 V c t.val t.isLt).1 (accAt2 V c t.val t.isLt).2 := by dsimp only [dat2]

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

theorem hz2 : (![0, 0] : Fin 2 → Nat) = fun _ => 0 := funext fun a => by fin_cases a <;> rfl

-- A row whose newest store covers it whole reads as that store's payload, whatever was stored before.
theorem read_store2 (m : Memref sig .tc .vmem S1x128 .f32) (f : m.view.ty.Contents (Elt F)) (w : Vec F S1x128 .f32)
    (L : List (View.Piece (Elt F) S1x128 .f32)) :
    m.view.read (Elt F) (m.view.writes (Elt F) f (⟨Rect.unit ![0, 0] S1x128.size inb_S1x128_S1x128_0_0, w⟩ :: L)) = w :=
  (View.read_writes_eq_canon _ _ _ fun y => ⟨_, List.mem_cons_self, View.mem_set_unit_zero hz2 inb_S1x128_S1x128_0_0 y⟩).trans
    (View.canon_cons_unit_zero hz2 _ w L)

theorem sound_kernel2_A (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : cond2_0 i) (hc1 : ¬cond2_1 i)
    (x0 : Vec F S2000x128 .f32) (xi1 xi2 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 k2_pay1) ∗ owns (c : Thread nD τ) arg5 fullShare (k2_pay5 x0 k2_pay2)) -∗ K ⟨⟩))
      ⊢ wp frame (wpE (defs₀ (F := F)) Variants.none c none) E (cc2__meanvar_kernel i arg1 harg1 arg2 harg2 arg3 harg3 arg4 harg4 arg5 harg5) K := by
  simp only [cc2__meanvar_kernel_eq_skeleton]; unfold cc2__meanvar_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  (try sl_unfold_words)
  simp only [View.readAt_eq_ld, harg1.read_unread, View.ld_unit_zero (S := S2000x128) hz2, View.readCov_unit_zero (S := S1x128) _ hz2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro; exact read_store2 _ _ _ _
  iexists _; isplitr
  swap; · iexact HS1
  ipureintro; exact read_store2 _ _ _ _

theorem sound_kernel2_B (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : ¬cond2_0 i) (hc1 : ¬cond2_1 i)
    (x0 : Vec F S2000x128 .f32) (xi1 xi2 xs0 xs1 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__meanvar_kernel i arg1 harg1 arg2 harg2 arg3 harg3 arg4 harg4 arg5 harg5) K := by
  simp only [cc2__meanvar_kernel_eq_skeleton]; unfold cc2__meanvar_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  simp only [View.readAt_eq_ld, harg1.read_unread, harg4.read_unread, harg5.read_unread, View.ld_unit_zero (S := S2000x128) hz2, View.ld_unit_zero (S := S1x128) hz2]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro; exact read_store2 _ _ _ _
  iexists _; isplitr
  swap; · iexact HS1
  ipureintro; exact read_store2 _ _ _ _

theorem sound_kernel2_C (c : Dev nD) (E : Set ℕ) (i : grid2.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : ¬cond2_0 i) (hc1 : cond2_1 i)
    (x0 : Vec F S2000x128 .f32) (xs0 xs1 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k2_pay6 (k2_pay4 x0 xs0))
            ∗ owns (c : Thread nD τ) arg3 fullShare (k2_pay7 (k2_pay4 x0 xs0) (k2_pay5 x0 xs1))
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__meanvar_kernel i arg1 harg1 arg2 harg2 arg3 harg3 arg4 harg4 arg5 harg5) K := by
  simp only [cc2__meanvar_kernel_eq_skeleton]; unfold cc2__meanvar_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  (try sl_unfold_words)
  simp only [View.readAt_eq_ld, harg1.read_unread, harg4.read_unread, harg5.read_unread, View.ld_unit_zero (S := S2000x128) hz2, View.ld_unit_zero (S := S1x128) hz2, View.readCov_unit_zero (S := S1x128) _ hz2]
  iapply Hk
  isplitl [H0]
  · iexists _; isplitr; · ipureintro; exact harg1.read_unread _
    iexact H0
  isplitl [H1]
  · iexists _; isplitr
    swap; · iexact H1
    ipureintro; exact read_store2 _ _ _ _
  isplitl [H2]
  · iexists _; isplitr
    swap; · iexact H2
    ipureintro; exact read_store2 _ _ _ _
  isplitl [HS0]
  · iexists _; isplitr
    swap; · iexact HS0
    ipureintro; exact read_store2 _ _ _ _
  iexists _; isplitr
  swap; · iexact HS1
  ipureintro; exact read_store2 _ _ _ _

-- Where a window is not idle, its current buffer is left at what the body computes for it.
theorem leavesExact_live2 {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
        ∗ (∃ r, prngReg c r)) := by
  unfold Pipeline.ΦA; rw [scopedRest2_split]; simp only [scM2_0, scM2_1, owns_whole]; try rfl

theorem liveAt2_0 : ∀ t : Fin cfg2.N, cfg2.idle 0 (grid2.coords t) = false := by decide +kernel
theorem idleAt2_1 : ∀ t : Fin cfg2.N, ¬cond2_1 (grid2.coords t) → cfg2.idle 1 (grid2.coords t) = true := by decide +kernel
theorem idleAt2_2 : ∀ t : Fin cfg2.N, ¬cond2_1 (grid2.coords t) → cfg2.idle 2 (grid2.coords t) = true := by decide +kernel
theorem liveAt2_1 : ∀ t : Fin cfg2.N, cond2_1 (grid2.coords t) → cfg2.idle 1 (grid2.coords t) = false := by decide +kernel
theorem liveAt2_2 : ∀ t : Fin cfg2.N, cond2_1 (grid2.coords t) → cfg2.idle 2 (grid2.coords t) = false := by decide +kernel
theorem noFlush2_1 : ∀ t : Fin cfg2.N, ¬cond2_1 (grid2.coords t) → (cfg2.win 1).flush t = false := by decide +kernel
theorem noFlush2_2 : ∀ t : Fin cfg2.N, ¬cond2_1 (grid2.coords t) → (cfg2.win 2).flush t = false := by decide +kernel

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem body_obligation2 (c : Dev nD) : BodyObligation (dat2 (F := F) V c) (defs₀ (F := F)) Variants.none () Set.univ := fun t => by
  rw [bigSep_W2, bigSep_W2]
  change iprop(_ ∗ _ ∗ _ ∗ _ ∗ _) ⊢ wp _ _ _ (bodyAt2 t) fun _ =>
    iprop(_ ∗ _ ∗ (dat2 V c).leavesExact 0 t ∗ (dat2 V c).leavesExact 1 t ∗ (dat2 V c).leavesExact 2 t)
  unfold bodyAt2
  simp only [before2_0]
  rw [show (dat2 V c).owesAt () t.succ = (dat2 V c).owesAt () t.castSucc from rfl]
  rw [show (dat2 V c).Φ t.succ = Phi2 V c (t.val + 1) t.isLt from rfl, Phi2]
  rw [leavesExact_live2 (dat2 V c) 0 t (liveAt2_0 t), after2_0]
  have hN : t.val < 25 := lt_of_lt_of_eq t.isLt (show cfg2.N = 25 from N_2)
  by_cases h1 : t.val % 25 = 24
  · have h0 : ¬t.val % 25 = 0 := by omega
    rw [leavesExact_live2 (dat2 V c) 1 t (liveAt2_1 t ((hcond2_1 t).mpr h1)), after2_1]
    rw [leavesExact_live2 (dat2 V c) 2 t (liveAt2_2 t ((hcond2_1 t).mpr h1)), after2_2]
    obtain ⟨_ | n, hn⟩ := t
    · exact absurd (show 0 % 25 = 24 from h1) (by decide)
    rw [show (dat2 V c).Φ (Fin.castSucc ⟨n + 1, hn⟩) = Phi2 V c (n + 1) (Nat.le_of_lt hn) from rfl, Phi2]
    iintro ⟨⟨⟨HS0, HS1⟩, Hrest, Hg⟩, Ho, ⟨%d0, H0⟩, ⟨%d1, H1⟩, ⟨%d2, H2⟩⟩
    iapply (sound_kernel2_C c Set.univ _ _ _ _ _ _ _ _ _ _ _ (fun h => h0 ((hcond2_0 _).mp h)) ((hcond2_1 _).mpr h1) _ _ _ _)
    iframe H0 HS0 HS1
    isplitl [H1]; · iexists _; iexact H1
    isplitl [H2]; · iexists _; iexact H2
    iintro ⟨H0, H1, H2, HS0, HS1⟩
    iframe Hrest Hg Ho H0
    isplitl [HS0 HS1]
    · isplitl [HS0]; · iexact HS0
      iexact HS1
    isplitl [H1]; · iexact H1
    iexact H2
  · have hc1 : ¬cond2_1 (grid2.coords t) := fun h => h1 ((hcond2_1 t).mp h)
    rw [Dat.leavesExact_idle (dat2 V c) 1 t (idleAt2_1 t hc1) (noFlush2_1 t hc1)]
    rw [Dat.leavesExact_idle (dat2 V c) 2 t (idleAt2_2 t hc1) (noFlush2_2 t hc1)]
    by_cases h0 : t.val % 25 = 0
    · have hz : t.val = 0 := by omega
      obtain ⟨_ | n, hn⟩ := t
      swap; · exact absurd hz (Nat.succ_ne_zero n)
      rw [show (dat2 V c).Φ (Fin.castSucc ⟨0, hn⟩) = _ from PhiA2_eq c]
      iintro ⟨⟨⟨⟨HS0, HS1⟩, Hrest⟩, Hg⟩, Ho, ⟨%d0, H0⟩, ⟨%d1, H1⟩, ⟨%d2, H2⟩⟩
      iapply (sound_kernel2_A c Set.univ _ _ _ _ _ _ _ _ _ _ _ ((hcond2_0 _).mpr h0) hc1 _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2
    · obtain ⟨_ | n, hn⟩ := t
      · exact absurd rfl h0
      rw [show (dat2 V c).Φ (Fin.castSucc ⟨n + 1, hn⟩) = Phi2 V c (n + 1) (Nat.le_of_lt hn) from rfl, Phi2]
      iintro ⟨⟨⟨HS0, HS1⟩, Hrest, Hg⟩, Ho, ⟨%d0, H0⟩, ⟨%d1, H1⟩, ⟨%d2, H2⟩⟩
      iapply (sound_kernel2_B c Set.univ _ _ _ _ _ _ _ _ _ _ _ (fun h => h0 ((hcond2_0 _).mp h)) hc1 _ _ _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2

theorem hin2 (c : Dev nD) (P : sProp 𝕄) :
    iprop((∃ r, prngReg c r) ∗ P ∗ Pipeline.scopedRest (Ix := Unit) (Name := ℕ) (U := UR sig nD τ) (Lvl := ℕ) (Val := Elt F) spec2 c)
      ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

theorem hout2 (c : Dev nD) :
    (dat2 V c).Φ (Fin.last cfg2.N)
      ⊢ iprop((∃ r, prngReg c r) ∗ emp ∗ Pipeline.scopedRest (Ix := Unit) (Name := ℕ) (U := UR sig nD τ) (Lvl := ℕ) (Val := Elt F) spec2 c) := by
  have hN : cfg2.N = 25 := N_2
  rw [show (dat2 V c).Φ (Fin.last cfg2.N) = Phi2 V c (24 + 1) (by decide) from rfl, Phi2, scopedRest2_split]
  simp only [scM2_0, scM2_1, owns_whole]
  iintro ⟨⟨HS0, HS1⟩, Hrest, Hg⟩
  isplitl [Hg]; · iexact Hg
  isplitr; · iempintro
  isplitl [HS0 HS1]
  · isplitl [HS0]
    · iexists _; iexact HS0
    iexists _; iexact HS1
  iexact Hrest

end Region2

end Cert.KernelIdeal.Gen

end
-- ==== Proof.KI.R3.lean ====
import proofs.«137587_j59279138619792_1_alg».proof.Proof.Gen.KernelIdeal.Launch
import proofs.«137587_j59279138619792_1_alg».proof.Proof.Gen.KernelIdeal.Skeleton
import proofs.«137587_j59279138619792_1_alg».proof.Proof.Gen.KernelIdeal.Points
import Idealize.ShloMosaic.Lib.Pipeline.FrameBody
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

def out3_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r3_0, k3_pay1 (View.ld x0 r3_0) (View.ld x2 r3_1) (View.ld x3 r3_1) (View.ld x4 r3_1) (View.ld x5 r3_1) (View.ld x1 r3_0)⟩]

theorem cover3_6 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__bn_relu_res_kernel i arg1 harg1 arg2 harg2 arg3 harg3 arg4 harg4 arg5 harg5 arg6 harg6 arg7 harg7) K := by
  simp only [cc3__bn_relu_res_kernel_eq_skeleton]; unfold cc3__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem after3 (c : Dev nD) (t : Fin cfg3.N) : (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t :=
  ⟨rfl, rfl, rfl, rfl, rfl, rfl⟩

theorem before3 (c : Dev nD) (t : Fin cfg3.N) : (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) := by
  refine ⟨?_, ?_, ?_, ?_, ?_, ?_⟩ <;> exact (dat3 V c).before_in_eq_fetched _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3]
  sl_whnfR [defs₀, Defs.onTc]
  simp only [before3 V c t, after3 V c t, after3_6]
  rewrite [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  iframe

end Region3

end Cert.KernelIdeal.Gen
-- ==== Proof.KI.R4.lean ====
import proofs.«137587_j59279138619792_1_alg».proof.Proof.KI.R1

noncomputable section

namespace Cert.KernelIdeal.Gen

open Idealize.ShloMosaic Idealize.ShloMosaic.TcCoe Idealize.SL.RA
open Idealize.ShloMosaic.Pipeline (Dat BodyObligation)

variable {F : FTy → Type} [FloatOps F] [Named F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S2000x128 .f32) (x1 : Vec F S128x128 .f32) (x2 : Vec F S1x128 .f32) : Vec F S2000x128 .f32 :=
  View.canon [⟨r1_3, k4_pay1 (View.ld x0 r1_0) (View.ld x1 r1_1) (View.ld x2 r1_2)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) :
    (dat4 V c).after 3 t = out4_3 (iblk4 V c 0 t) (iblk4 V c 1 t) (iblk4 V c 2 t) := by dsimp only [dat4]

theorem before4 (c : Dev nD) (t) : (∀ d, (dat4 V c).before 0 t d = iblk4 V c 0 t) ∧ (∀ d, (dat4 V c).before 1 t d = iblk4 V c 1 t)
    ∧ ∀ d, (dat4 V c).before 2 t d = iblk4 V c 2 t := by
  refine ⟨?_, ?_, ?_⟩ <;> exact (dat4 V c).before_in_eq_fetched _ rfl (fun _ => rfl) (fun _ _ _ => rfl) (fun _ => rfl) t

theorem body_obligation4 (c : Dev nD) : BodyObligation (dat4 (F := F) V c) (defs₀ (F := F)) Variants.none () Set.univ := fun t => by
  rw [bigSep_W4, bigSep_W4]
  simp only [before4 V c t]
  dsimp only [dat4]
  exact sound_kernel1 c _ (grid4.coords t) _ _ (hstage4_0 _) (hstage4_1 _) (hstage4_2 _) (hstage4_3 _)

end Cert.KernelIdeal.Gen

end
-- ==== Proof.KI.R5.lean ====
import proofs.«137587_j59279138619792_1_alg».proof.Proof.KI.R2

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def accAt5 (c : Dev nD) : (n : ℕ) → n < cfg5.N → Vec F S1x128 .f32 × Vec F S1x128 .f32
  | 0, h => (k5_pay4 (iblk5 V c 0 ⟨0, h⟩) k5_pay1, k5_pay5 (iblk5 V c 0 ⟨0, h⟩) k5_pay2)
  | n + 1, h => (k5_pay4 (iblk5 V c 0 ⟨n + 1, h⟩) (accAt5 c n (Nat.lt_of_succ_lt h)).1,
      k5_pay5 (iblk5 V c 0 ⟨n + 1, h⟩) (accAt5 c n (Nat.lt_of_succ_lt h)).2)

theorem accAt5_zero (c : Dev nD) (h : 0 < cfg5.N) :
    accAt5 V c 0 h = (k5_pay4 (iblk5 V c 0 ⟨0, h⟩) k5_pay1, k5_pay5 (iblk5 V c 0 ⟨0, h⟩) k5_pay2) := rfl

theorem accAt5_succ (c : Dev nD) (n : ℕ) (h : n + 1 < cfg5.N) :
    accAt5 V c (n + 1) h = (k5_pay4 (iblk5 V c 0 ⟨n + 1, h⟩) (accAt5 V c n (Nat.lt_of_succ_lt h)).1,
      k5_pay5 (iblk5 V c 0 ⟨n + 1, h⟩) (accAt5 V c n (Nat.lt_of_succ_lt h)).2) := rfl

abbrev scM5_0 : Memref sig .tc .vmem S1x128 .f32 := Memref.whole cc5_scratch0
abbrev scM5_1 : Memref sig .tc .vmem S1x128 .f32 := Memref.whole cc5_scratch1

def Phi5 (c : Dev nD) : (n : ℕ) → n ≤ cfg5.N → sProp 𝕄
  | 0, _ => Pipeline.ΦA spec5 c
  | n + 1, hn => iprop(iprop(owns (c : Thread nD τ) scM5_0 fullShare (accAt5 V c n hn).1 ∗ owns (c : Thread nD τ) scM5_1 fullShare (accAt5 V c n hn).2)
      ∗ Pipeline.scopedRestBut (Ix := Unit) (Name := ℕ) (U := UR sig nD τ) (Lvl := ℕ) (Val := Elt F) spec5 c [cc5_scratch0, cc5_scratch1]
      ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => k5_pay6 (accAt5 V c t.val t.isLt).1
    | ⟨2, _⟩ => k5_pay7 (accAt5 V c t.val t.isLt).1 (accAt5 V c t.val t.isLt).2
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = k5_pay6 (accAt5 V c t.val t.isLt).1 := by dsimp only [dat5]
theorem after5_2 (c : Dev nD) (t : Fin cfg5.N) :
    (dat5 V c).after 2 t = k5_pay7 (accAt5 V c t.val t.isLt).1 (accAt5 V c t.val t.isLt).2 := by dsimp only [dat5]

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1])
        ∗ (∃ r, prngReg c r)) := by
  unfold Pipeline.ΦA; rw [scopedRest5_split]; simp only [scM5_0, scM5_1, owns_whole]; try rfl

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

theorem body_obligation5 (c : Dev nD) : BodyObligation (dat5 (F := F) V c) (defs₀ (F := F)) Variants.none () Set.univ := fun t => by
  rw [bigSep_W5, bigSep_W5]
  change iprop(_ ∗ _ ∗ _ ∗ _ ∗ _) ⊢ wp _ _ _ (bodyAt5 t) fun _ =>
    iprop(_ ∗ _ ∗ (dat5 V c).leavesExact 0 t ∗ (dat5 V c).leavesExact 1 t ∗ (dat5 V c).leavesExact 2 t)
  unfold bodyAt5
  rw [show cc5__meanvar_kernel (F := F) = cc2__meanvar_kernel (F := F) from rfl]
  simp only [before5_0]
  rw [show (dat5 V c).owesAt () t.succ = (dat5 V c).owesAt () t.castSucc from rfl]
  rw [show (dat5 V c).Φ t.succ = Phi5 V c (t.val + 1) t.isLt from rfl, Phi5]
  rw [leavesExact_live2 (dat5 V c) 0 t (liveAt2_0 t), after5_0]
  have hN : t.val < 25 := lt_of_lt_of_eq t.isLt (show cfg5.N = 25 from N_5)
  by_cases h1 : t.val % 25 = 24
  · have h0 : ¬t.val % 25 = 0 := by omega
    rw [leavesExact_live2 (dat5 V c) 1 t (liveAt2_1 t ((hcond2_1 t).mpr h1)), after5_1]
    rw [leavesExact_live2 (dat5 V c) 2 t (liveAt2_2 t ((hcond2_1 t).mpr h1)), after5_2]
    obtain ⟨_ | n, hn⟩ := t
    · exact absurd (show 0 % 25 = 24 from h1) (by decide)
    rw [show (dat5 V c).Φ (Fin.castSucc ⟨n + 1, hn⟩) = Phi5 V c (n + 1) (Nat.le_of_lt hn) from rfl, Phi5]
    iintro ⟨⟨⟨HS0, HS1⟩, Hrest, Hg⟩, Ho, ⟨%d0, H0⟩, ⟨%d1, H1⟩, ⟨%d2, H2⟩⟩
    iapply (sound_kernel2_C c Set.univ _ _ _ _ _ _ _ _ _ _ _ (fun h => h0 ((hcond2_0 _).mp h)) ((hcond2_1 _).mpr h1) _ _ _ _)
    iframe H0 HS0 HS1
    isplitl [H1]; · iexists _; iexact H1
    isplitl [H2]; · iexists _; iexact H2
    iintro ⟨H0, H1, H2, HS0, HS1⟩
    iframe Hrest Hg Ho H0
    isplitl [HS0 HS1]
    · isplitl [HS0]; · iexact HS0
      iexact HS1
    isplitl [H1]; · iexact H1
    iexact H2
  · have hc1 : ¬cond2_1 (grid5.coords t) := fun h => h1 ((hcond2_1 t).mp h)
    rw [Dat.leavesExact_idle (dat5 V c) 1 t (idleAt2_1 t hc1) (noFlush2_1 t hc1)]
    rw [Dat.leavesExact_idle (dat5 V c) 2 t (idleAt2_2 t hc1) (noFlush2_2 t hc1)]
    by_cases h0 : t.val % 25 = 0
    · have hz : t.val = 0 := by omega
      obtain ⟨_ | n, hn⟩ := t
      swap; · exact absurd hz (Nat.succ_ne_zero n)
      rw [show (dat5 V c).Φ (Fin.castSucc ⟨0, hn⟩) = _ from PhiA5_eq c]
      iintro ⟨⟨⟨⟨HS0, HS1⟩, Hrest⟩, Hg⟩, Ho, ⟨%d0, H0⟩, ⟨%d1, H1⟩, ⟨%d2, H2⟩⟩
      iapply (sound_kernel2_A c Set.univ _ _ _ _ _ _ _ _ _ _ _ ((hcond2_0 _).mpr h0) hc1 _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2
    · obtain ⟨_ | n, hn⟩ := t
      · exact absurd rfl h0
      rw [show (dat5 V c).Φ (Fin.castSucc ⟨n + 1, hn⟩) = Phi5 V c (n + 1) (Nat.le_of_lt hn) from rfl, Phi5]
      iintro ⟨⟨⟨HS0, HS1⟩, Hrest, Hg⟩, Ho, ⟨%d0, H0⟩, ⟨%d1, H1⟩, ⟨%d2, H2⟩⟩
      iapply (sound_kernel2_B c Set.univ _ _ _ _ _ _ _ _ _ _ _ (fun h => h0 ((hcond2_0 _).mp h)) hc1 _ _ _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2

theorem hin5 (c : Dev nD) (P : sProp 𝕄) :
    iprop((∃ r, prngReg c r) ∗ P ∗ Pipeline.scopedRest (Ix := Unit) (Name := ℕ) (U := UR sig nD τ) (Lvl := ℕ) (Val := Elt F) spec5 c)
      ⊢ (dat5 V c).Φ 0 := by
  rw [show (dat5 V c).Φ 0 = Pipeline.ΦA spec5 c from rfl]; unfold Pipeline.ΦA
  iintro ⟨Hp, -, Hr⟩
  isplitl [Hr]; · iexact Hr
  iexact Hp

theorem hout5 (c : Dev nD) :
    (dat5 V c).Φ (Fin.last cfg5.N)
      ⊢ iprop((∃ r, prngReg c r) ∗ emp ∗ Pipeline.scopedRest (Ix := Unit) (Name := ℕ) (U := UR sig nD τ) (Lvl := ℕ) (Val := Elt F) spec5 c) := by
  have hN : cfg5.N = 25 := N_5
  rw [show (dat5 V c).Φ (Fin.last cfg5.N) = Phi5 V c (24 + 1) (by decide) from rfl, Phi5, scopedRest5_split]
  simp only [scM5_0, scM5_1, owns_whole]
  iintro ⟨⟨HS0, HS1⟩, Hrest, Hg⟩
  isplitl [Hg]; · iexact Hg
  isplitr; · iempintro
  isplitl [HS0 HS1]
  · isplitl [HS0]
    · iexists _; iexact HS0
    iexists _; iexact HS1
  iexact Hrest

end Region5

end Cert.KernelIdeal.Gen

end
-- ==== Proof.KI.R6.lean ====
import proofs.«137587_j59279138619792_1_alg».proof.Proof.KI.R3

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.ProofMode
open Idealize.ShloMosaic.Pipeline (Dat BodyObligation)

variable {F : FTy → Type} [FloatOps F] [Named F]

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x128 := Rect.unit (s := S2000x128) ![0, 0] S2000x128.size inb_S2000x128_S2000x128_0_0
abbrev r6_1 : Rect S1x128 := Rect.unit (s := S1x128) ![0, 0] S1x128.size inb_S1x128_S1x128_0_0

def out6_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r6_0, k6_pay1 (View.ld x0 r6_0) (View.ld x2 r6_1) (View.ld x3 r6_1) (View.ld x4 r6_1) (View.ld x5 r6_1) (View.ld x1 r6_0)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem after6 (c : Dev nD) (t : Fin cfg6.N) : (dat6 V c).after 0 t = iblk6 V c 0 t ∧ (dat6 V c).after 1 t = iblk6 V c 1 t ∧ (dat6 V c).after 2 t = iblk6 V c 2 t ∧ (dat6 V c).after 3 t = iblk6 V c 3 t ∧ (dat6 V c).after 4 t = iblk6 V c 4 t ∧ (dat6 V c).after 5 t = iblk6 V c 5 t :=
  ⟨rfl, rfl, rfl, rfl, rfl, rfl⟩

theorem before6 (c : Dev nD) (t : Fin cfg6.N) : (∀ d, (dat6 V c).before 0 t d = iblk6 V c 0 t) ∧ (∀ d, (dat6 V c).before 1 t d = iblk6 V c 1 t) ∧ (∀ d, (dat6 V c).before 2 t d = iblk6 V c 2 t) ∧ (∀ d, (dat6 V c).before 3 t d = iblk6 V c 3 t) ∧ (∀ d, (dat6 V c).before 4 t d = iblk6 V c 4 t) ∧ (∀ d, (dat6 V c).before 5 t d = iblk6 V c 5 t) := by
  refine ⟨?_, ?_, ?_, ?_, ?_, ?_⟩ <;> exact (dat6 V c).before_in_eq_fetched _ rfl (fun _ => rfl) (fun _ _ _ => rfl) (fun _ => rfl) t

theorem body_obligation6 (c : Dev nD) : BodyObligation (dat6 (F := F) V c) (defs₀ (F := F)) Variants.none () Set.univ := fun t => by
  rw [bigSep_W6, bigSep_W6]
  sl_whnfR [defs₀, Defs.onTc]
  simp only [before6 V c t, after6 V c t, after6_6]
  rewrite [show cc6__bn_relu_res_kernel (F := F) = cc3__bn_relu_res_kernel from rfl, show out6_6 (F := F) = out3_6 from rfl,
    show (dat6 V c).Φ t.succ = (dat6 V c).Φ t.castSucc from rfl,
    show (dat6 V c).owesAt () t.succ = (dat6 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel3
  iframe H0 H1 H2 H3 H4 H5
  isplitl [H6]; · iexists _; iexact H6
  iintro ⟨H0, H1, H2, H3, H4, H5, H6⟩
  iframe

end Region6

end Cert.KernelIdeal.Gen
-- ==== Proof.KI.R7.lean ====
import proofs.«137587_j59279138619792_1_alg».proof.Proof.KI.R1

noncomputable section

namespace Cert.KernelIdeal.Gen

open Idealize.ShloMosaic Idealize.ShloMosaic.TcCoe Idealize.SL.RA
open Idealize.ShloMosaic.Pipeline (Dat BodyObligation)

variable {F : FTy → Type} [FloatOps F] [Named F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_3 (x0 : Vec F S2000x128 .f32) (x1 : Vec F S128x128 .f32) (x2 : Vec F S1x128 .f32) : Vec F S2000x128 .f32 :=
  View.canon [⟨r1_3, k7_pay1 (View.ld x0 r1_0) (View.ld x1 r1_1) (View.ld x2 r1_2)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) :
    (dat7 V c).after 3 t = out7_3 (iblk7 V c 0 t) (iblk7 V c 1 t) (iblk7 V c 2 t) := by dsimp only [dat7]

theorem before7 (c : Dev nD) (t) : (∀ d, (dat7 V c).before 0 t d = iblk7 V c 0 t) ∧ (∀ d, (dat7 V c).before 1 t d = iblk7 V c 1 t)
    ∧ ∀ d, (dat7 V c).before 2 t d = iblk7 V c 2 t := by
  refine ⟨?_, ?_, ?_⟩ <;> exact (dat7 V c).before_in_eq_fetched _ rfl (fun _ => rfl) (fun _ _ _ => rfl) (fun _ => rfl) t

theorem body_obligation7 (c : Dev nD) : BodyObligation (dat7 (F := F) V c) (defs₀ (F := F)) Variants.none () Set.univ := fun t => by
  rw [bigSep_W7, bigSep_W7]
  simp only [before7 V c t]
  dsimp only [dat7]
  exact sound_kernel1 c _ (grid7.coords t) _ _ (hstage7_0 _) (hstage7_1 _) (hstage7_2 _) (hstage7_3 _)

end Cert.KernelIdeal.Gen

end
-- ==== Proof.KI.R8.lean ====
import proofs.«137587_j59279138619792_1_alg».proof.Proof.KI.R2

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def accAt8 (c : Dev nD) : (n : ℕ) → n < cfg8.N → Vec F S1x128 .f32 × Vec F S1x128 .f32
  | 0, h => (k8_pay4 (iblk8 V c 0 ⟨0, h⟩) k8_pay1, k8_pay5 (iblk8 V c 0 ⟨0, h⟩) k8_pay2)
  | n + 1, h => (k8_pay4 (iblk8 V c 0 ⟨n + 1, h⟩) (accAt8 c n (Nat.lt_of_succ_lt h)).1,
      k8_pay5 (iblk8 V c 0 ⟨n + 1, h⟩) (accAt8 c n (Nat.lt_of_succ_lt h)).2)

theorem accAt8_zero (c : Dev nD) (h : 0 < cfg8.N) :
    accAt8 V c 0 h = (k8_pay4 (iblk8 V c 0 ⟨0, h⟩) k8_pay1, k8_pay5 (iblk8 V c 0 ⟨0, h⟩) k8_pay2) := rfl

theorem accAt8_succ (c : Dev nD) (n : ℕ) (h : n + 1 < cfg8.N) :
    accAt8 V c (n + 1) h = (k8_pay4 (iblk8 V c 0 ⟨n + 1, h⟩) (accAt8 V c n (Nat.lt_of_succ_lt h)).1,
      k8_pay5 (iblk8 V c 0 ⟨n + 1, h⟩) (accAt8 V c n (Nat.lt_of_succ_lt h)).2) := rfl

abbrev scM8_0 : Memref sig .tc .vmem S1x128 .f32 := Memref.whole cc8_scratch0
abbrev scM8_1 : Memref sig .tc .vmem S1x128 .f32 := Memref.whole cc8_scratch1

def Phi8 (c : Dev nD) : (n : ℕ) → n ≤ cfg8.N → sProp 𝕄
  | 0, _ => Pipeline.ΦA spec8 c
  | n + 1, hn => iprop(iprop(owns (c : Thread nD τ) scM8_0 fullShare (accAt8 V c n hn).1 ∗ owns (c : Thread nD τ) scM8_1 fullShare (accAt8 V c n hn).2)
      ∗ Pipeline.scopedRestBut (Ix := Unit) (Name := ℕ) (U := UR sig nD τ) (Lvl := ℕ) (Val := Elt F) spec8 c [cc8_scratch0, cc8_scratch1]
      ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => k8_pay6 (accAt8 V c t.val t.isLt).1
    | ⟨2, _⟩ => k8_pay7 (accAt8 V c t.val t.isLt).1 (accAt8 V c t.val t.isLt).2
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = k8_pay6 (accAt8 V c t.val t.isLt).1 := by dsimp only [dat8]
theorem after8_2 (c : Dev nD) (t : Fin cfg8.N) :
    (dat8 V c).after 2 t = k8_pay7 (accAt8 V c t.val t.isLt).1 (accAt8 V c t.val t.isLt).2 := by dsimp only [dat8]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1])
        ∗ (∃ r, prngReg c r)) := by
  unfold Pipeline.ΦA; rw [scopedRest8_split]; simp only [scM8_0, scM8_1, owns_whole]; try rfl

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)

theorem body_obligation8 (c : Dev nD) : BodyObligation (dat8 (F := F) V c) (defs₀ (F := F)) Variants.none () Set.univ := fun t => by
  rw [bigSep_W8, bigSep_W8]
  change iprop(_ ∗ _ ∗ _ ∗ _ ∗ _) ⊢ wp _ _ _ (bodyAt8 t) fun _ =>
    iprop(_ ∗ _ ∗ (dat8 V c).leavesExact 0 t ∗ (dat8 V c).leavesExact 1 t ∗ (dat8 V c).leavesExact 2 t)
  unfold bodyAt8
  rw [show cc8__meanvar_kernel (F := F) = cc2__meanvar_kernel (F := F) from rfl]
  simp only [before8_0]
  rw [show (dat8 V c).owesAt () t.succ = (dat8 V c).owesAt () t.castSucc from rfl]
  rw [show (dat8 V c).Φ t.succ = Phi8 V c (t.val + 1) t.isLt from rfl, Phi8]
  rw [leavesExact_live2 (dat8 V c) 0 t (liveAt2_0 t), after8_0]
  have hN : t.val < 25 := lt_of_lt_of_eq t.isLt (show cfg8.N = 25 from N_8)
  by_cases h1 : t.val % 25 = 24
  · have h0 : ¬t.val % 25 = 0 := by omega
    rw [leavesExact_live2 (dat8 V c) 1 t (liveAt2_1 t ((hcond2_1 t).mpr h1)), after8_1]
    rw [leavesExact_live2 (dat8 V c) 2 t (liveAt2_2 t ((hcond2_1 t).mpr h1)), after8_2]
    obtain ⟨_ | n, hn⟩ := t
    · exact absurd (show 0 % 25 = 24 from h1) (by decide)
    rw [show (dat8 V c).Φ (Fin.castSucc ⟨n + 1, hn⟩) = Phi8 V c (n + 1) (Nat.le_of_lt hn) from rfl, Phi8]
    iintro ⟨⟨⟨HS0, HS1⟩, Hrest, Hg⟩, Ho, ⟨%d0, H0⟩, ⟨%d1, H1⟩, ⟨%d2, H2⟩⟩
    iapply (sound_kernel2_C c Set.univ _ _ _ _ _ _ _ _ _ _ _ (fun h => h0 ((hcond2_0 _).mp h)) ((hcond2_1 _).mpr h1) _ _ _ _)
    iframe H0 HS0 HS1
    isplitl [H1]; · iexists _; iexact H1
    isplitl [H2]; · iexists _; iexact H2
    iintro ⟨H0, H1, H2, HS0, HS1⟩
    iframe Hrest Hg Ho H0
    isplitl [HS0 HS1]
    · isplitl [HS0]; · iexact HS0
      iexact HS1
    isplitl [H1]; · iexact H1
    iexact H2
  · have hc1 : ¬cond2_1 (grid8.coords t) := fun h => h1 ((hcond2_1 t).mp h)
    rw [Dat.leavesExact_idle (dat8 V c) 1 t (idleAt2_1 t hc1) (noFlush2_1 t hc1)]
    rw [Dat.leavesExact_idle (dat8 V c) 2 t (idleAt2_2 t hc1) (noFlush2_2 t hc1)]
    by_cases h0 : t.val % 25 = 0
    · have hz : t.val = 0 := by omega
      obtain ⟨_ | n, hn⟩ := t
      swap; · exact absurd hz (Nat.succ_ne_zero n)
      rw [show (dat8 V c).Φ (Fin.castSucc ⟨0, hn⟩) = _ from PhiA8_eq c]
      iintro ⟨⟨⟨⟨HS0, HS1⟩, Hrest⟩, Hg⟩, Ho, ⟨%d0, H0⟩, ⟨%d1, H1⟩, ⟨%d2, H2⟩⟩
      iapply (sound_kernel2_A c Set.univ _ _ _ _ _ _ _ _ _ _ _ ((hcond2_0 _).mpr h0) hc1 _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2
    · obtain ⟨_ | n, hn⟩ := t
      · exact absurd rfl h0
      rw [show (dat8 V c).Φ (Fin.castSucc ⟨n + 1, hn⟩) = Phi8 V c (n + 1) (Nat.le_of_lt hn) from rfl, Phi8]
      iintro ⟨⟨⟨HS0, HS1⟩, Hrest, Hg⟩, Ho, ⟨%d0, H0⟩, ⟨%d1, H1⟩, ⟨%d2, H2⟩⟩
      iapply (sound_kernel2_B c Set.univ _ _ _ _ _ _ _ _ _ _ _ (fun h => h0 ((hcond2_0 _).mp h)) hc1 _ _ _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2

theorem hin8 (c : Dev nD) (P : sProp 𝕄) :
    iprop((∃ r, prngReg c r) ∗ P ∗ Pipeline.scopedRest (Ix := Unit) (Name := ℕ) (U := UR sig nD τ) (Lvl := ℕ) (Val := Elt F) spec8 c)
      ⊢ (dat8 V c).Φ 0 := by
  rw [show (dat8 V c).Φ 0 = Pipeline.ΦA spec8 c from rfl]; unfold Pipeline.ΦA
  iintro ⟨Hp, -, Hr⟩
  isplitl [Hr]; · iexact Hr
  iexact Hp

theorem hout8 (c : Dev nD) :
    (dat8 V c).Φ (Fin.last cfg8.N)
      ⊢ iprop((∃ r, prngReg c r) ∗ emp ∗ Pipeline.scopedRest (Ix := Unit) (Name := ℕ) (U := UR sig nD τ) (Lvl := ℕ) (Val := Elt F) spec8 c) := by
  have hN : cfg8.N = 25 := N_8
  rw [show (dat8 V c).Φ (Fin.last cfg8.N) = Phi8 V c (24 + 1) (by decide) from rfl, Phi8, scopedRest8_split]
  simp only [scM8_0, scM8_1, owns_whole]
  iintro ⟨⟨HS0, HS1⟩, Hrest, Hg⟩
  isplitl [Hg]; · iexact Hg
  isplitr; · iempintro
  isplitl [HS0 HS1]
  · isplitl [HS0]
    · iexists _; iexact HS0
    iexists _; iexact HS1
  iexact Hrest

end Region8

end Cert.KernelIdeal.Gen

end
-- ==== Proof.KI.R9.lean ====
import proofs.«137587_j59279138619792_1_alg».proof.Proof.KI.R3

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.ProofMode
open Idealize.ShloMosaic.Pipeline (Dat BodyObligation)

variable {F : FTy → Type} [FloatOps F] [Named F]

section Region9
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S2000x128 := Rect.unit (s := S2000x128) ![0, 0] S2000x128.size inb_S2000x128_S2000x128_0_0
abbrev r9_1 : Rect S1x128 := Rect.unit (s := S1x128) ![0, 0] S1x128.size inb_S1x128_S1x128_0_0

def out9_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r9_0, k9_pay1 (View.ld x0 r9_0) (View.ld x2 r9_1) (View.ld x3 r9_1) (View.ld x4 r9_1) (View.ld x5 r9_1) (View.ld x1 r9_0)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

theorem after9 (c : Dev nD) (t : Fin cfg9.N) : (dat9 V c).after 0 t = iblk9 V c 0 t ∧ (dat9 V c).after 1 t = iblk9 V c 1 t ∧ (dat9 V c).after 2 t = iblk9 V c 2 t ∧ (dat9 V c).after 3 t = iblk9 V c 3 t ∧ (dat9 V c).after 4 t = iblk9 V c 4 t ∧ (dat9 V c).after 5 t = iblk9 V c 5 t :=
  ⟨rfl, rfl, rfl, rfl, rfl, rfl⟩

theorem before9 (c : Dev nD) (t : Fin cfg9.N) : (∀ d, (dat9 V c).before 0 t d = iblk9 V c 0 t) ∧ (∀ d, (dat9 V c).before 1 t d = iblk9 V c 1 t) ∧ (∀ d, (dat9 V c).before 2 t d = iblk9 V c 2 t) ∧ (∀ d, (dat9 V c).before 3 t d = iblk9 V c 3 t) ∧ (∀ d, (dat9 V c).before 4 t d = iblk9 V c 4 t) ∧ (∀ d, (dat9 V c).before 5 t d = iblk9 V c 5 t) := by
  refine ⟨?_, ?_, ?_, ?_, ?_, ?_⟩ <;> exact (dat9 V c).before_in_eq_fetched _ rfl (fun _ => rfl) (fun _ _ _ => rfl) (fun _ => rfl) t

theorem body_obligation9 (c : Dev nD) : BodyObligation (dat9 (F := F) V c) (defs₀ (F := F)) Variants.none () Set.univ := fun t => by
  rw [bigSep_W9, bigSep_W9]
  sl_whnfR [defs₀, Defs.onTc]
  simp only [before9 V c t, after9 V c t, after9_6]
  rewrite [show cc9__bn_relu_res_kernel (F := F) = cc3__bn_relu_res_kernel from rfl, show out9_6 (F := F) = out3_6 from rfl,
    show (dat9 V c).Φ t.succ = (dat9 V c).Φ t.castSucc from rfl,
    show (dat9 V c).owesAt () t.succ = (dat9 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel3
  iframe H0 H1 H2 H3 H4 H5
  isplitl [H6]; · iexists _; iexact H6
  iintro ⟨H0, H1, H2, H3, H4, H5, H6⟩
  iframe

end Region9

end Cert.KernelIdeal.Gen
-- ==== Proof.KI.R10.lean ====
import proofs.«137587_j59279138619792_1_alg».proof.Proof.KI.R1

noncomputable section

namespace Cert.KernelIdeal.Gen

open Idealize.ShloMosaic Idealize.ShloMosaic.TcCoe Idealize.SL.RA
open Idealize.ShloMosaic.Pipeline (Dat BodyObligation)

variable {F : FTy → Type} [FloatOps F] [Named F]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_3 (x0 : Vec F S2000x128 .f32) (x1 : Vec F S128x128 .f32) (x2 : Vec F S1x128 .f32) : Vec F S2000x128 .f32 :=
  View.canon [⟨r1_3, k10_pay1 (View.ld x0 r1_0) (View.ld x1 r1_1) (View.ld x2 r1_2)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) :
    (dat10 V c).after 3 t = out10_3 (iblk10 V c 0 t) (iblk10 V c 1 t) (iblk10 V c 2 t) := by dsimp only [dat10]

theorem before10 (c : Dev nD) (t) : (∀ d, (dat10 V c).before 0 t d = iblk10 V c 0 t) ∧ (∀ d, (dat10 V c).before 1 t d = iblk10 V c 1 t)
    ∧ ∀ d, (dat10 V c).before 2 t d = iblk10 V c 2 t := by
  refine ⟨?_, ?_, ?_⟩ <;> exact (dat10 V c).before_in_eq_fetched _ rfl (fun _ => rfl) (fun _ _ _ => rfl) (fun _ => rfl) t

theorem body_obligation10 (c : Dev nD) : BodyObligation (dat10 (F := F) V c) (defs₀ (F := F)) Variants.none () Set.univ := fun t => by
  rw [bigSep_W10, bigSep_W10]
  simp only [before10 V c t]
  dsimp only [dat10]
  exact sound_kernel1 c _ (grid10.coords t) _ _ (hstage10_0 _) (hstage10_1 _) (hstage10_2 _) (hstage10_3 _)

end Cert.KernelIdeal.Gen

end
-- ==== Proof.KI.R11.lean ====
import proofs.«137587_j59279138619792_1_alg».proof.Proof.KI.R2

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region11

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def accAt11 (c : Dev nD) : (n : ℕ) → n < cfg11.N → Vec F S1x128 .f32 × Vec F S1x128 .f32
  | 0, h => (k11_pay4 (iblk11 V c 0 ⟨0, h⟩) k11_pay1, k11_pay5 (iblk11 V c 0 ⟨0, h⟩) k11_pay2)
  | n + 1, h => (k11_pay4 (iblk11 V c 0 ⟨n + 1, h⟩) (accAt11 c n (Nat.lt_of_succ_lt h)).1,
      k11_pay5 (iblk11 V c 0 ⟨n + 1, h⟩) (accAt11 c n (Nat.lt_of_succ_lt h)).2)

theorem accAt11_zero (c : Dev nD) (h : 0 < cfg11.N) :
    accAt11 V c 0 h = (k11_pay4 (iblk11 V c 0 ⟨0, h⟩) k11_pay1, k11_pay5 (iblk11 V c 0 ⟨0, h⟩) k11_pay2) := rfl

theorem accAt11_succ (c : Dev nD) (n : ℕ) (h : n + 1 < cfg11.N) :
    accAt11 V c (n + 1) h = (k11_pay4 (iblk11 V c 0 ⟨n + 1, h⟩) (accAt11 V c n (Nat.lt_of_succ_lt h)).1,
      k11_pay5 (iblk11 V c 0 ⟨n + 1, h⟩) (accAt11 V c n (Nat.lt_of_succ_lt h)).2) := rfl

abbrev scM11_0 : Memref sig .tc .vmem S1x128 .f32 := Memref.whole cc11_scratch0
abbrev scM11_1 : Memref sig .tc .vmem S1x128 .f32 := Memref.whole cc11_scratch1

def Phi11 (c : Dev nD) : (n : ℕ) → n ≤ cfg11.N → sProp 𝕄
  | 0, _ => Pipeline.ΦA spec11 c
  | n + 1, hn => iprop(iprop(owns (c : Thread nD τ) scM11_0 fullShare (accAt11 V c n hn).1 ∗ owns (c : Thread nD τ) scM11_1 fullShare (accAt11 V c n hn).2)
      ∗ Pipeline.scopedRestBut (Ix := Unit) (Name := ℕ) (U := UR sig nD τ) (Lvl := ℕ) (Val := Elt F) spec11 c [cc11_scratch0, cc11_scratch1]
      ∗ ∃ r, prngReg c r)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => k11_pay6 (accAt11 V c t.val t.isLt).1
    | ⟨2, _⟩ => k11_pay7 (accAt11 V c t.val t.isLt).1 (accAt11 V c t.val t.isLt).2
  Φ t := Phi11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = k11_pay6 (accAt11 V c t.val t.isLt).1 := by dsimp only [dat11]
theorem after11_2 (c : Dev nD) (t : Fin cfg11.N) :
    (dat11 V c).after 2 t = k11_pay7 (accAt11 V c t.val t.isLt).1 (accAt11 V c t.val t.isLt).2 := by dsimp only [dat11]

theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1])
        ∗ (∃ r, prngReg c r)) := by
  unfold Pipeline.ΦA; rw [scopedRest11_split]; simp only [scM11_0, scM11_1, owns_whole]; try rfl

theorem before11_0 (c : Dev nD) (t : Fin cfg11.N) (d) : (dat11 V c).before 0 t d = iblk11 V c 0 t :=
  ((dat11 V c).before_in_eq_fetched 0 rfl (fun _ => rfl) (fun _ _ _ => rfl)
    (fun t => by rw [after11_0]; unfold Dat.blockOf iblk11; rw [A_eq11]; try rfl) t d).trans
    (by unfold Dat.fetched Dat.blockOf iblk11; rw [A_eq11]; try rfl)

theorem body_obligation11 (c : Dev nD) : BodyObligation (dat11 (F := F) V c) (defs₀ (F := F)) Variants.none () Set.univ := fun t => by
  rw [bigSep_W11, bigSep_W11]
  change iprop(_ ∗ _ ∗ _ ∗ _ ∗ _) ⊢ wp _ _ _ (bodyAt11 t) fun _ =>
    iprop(_ ∗ _ ∗ (dat11 V c).leavesExact 0 t ∗ (dat11 V c).leavesExact 1 t ∗ (dat11 V c).leavesExact 2 t)
  unfold bodyAt11
  rw [show cc11__meanvar_kernel (F := F) = cc2__meanvar_kernel (F := F) from rfl]
  simp only [before11_0]
  rw [show (dat11 V c).owesAt () t.succ = (dat11 V c).owesAt () t.castSucc from rfl]
  rw [show (dat11 V c).Φ t.succ = Phi11 V c (t.val + 1) t.isLt from rfl, Phi11]
  rw [leavesExact_live2 (dat11 V c) 0 t (liveAt2_0 t), after11_0]
  have hN : t.val < 25 := lt_of_lt_of_eq t.isLt (show cfg11.N = 25 from N_11)
  by_cases h1 : t.val % 25 = 24
  · have h0 : ¬t.val % 25 = 0 := by omega
    rw [leavesExact_live2 (dat11 V c) 1 t (liveAt2_1 t ((hcond2_1 t).mpr h1)), after11_1]
    rw [leavesExact_live2 (dat11 V c) 2 t (liveAt2_2 t ((hcond2_1 t).mpr h1)), after11_2]
    obtain ⟨_ | n, hn⟩ := t
    · exact absurd (show 0 % 25 = 24 from h1) (by decide)
    rw [show (dat11 V c).Φ (Fin.castSucc ⟨n + 1, hn⟩) = Phi11 V c (n + 1) (Nat.le_of_lt hn) from rfl, Phi11]
    iintro ⟨⟨⟨HS0, HS1⟩, Hrest, Hg⟩, Ho, ⟨%d0, H0⟩, ⟨%d1, H1⟩, ⟨%d2, H2⟩⟩
    iapply (sound_kernel2_C c Set.univ _ _ _ _ _ _ _ _ _ _ _ (fun h => h0 ((hcond2_0 _).mp h)) ((hcond2_1 _).mpr h1) _ _ _ _)
    iframe H0 HS0 HS1
    isplitl [H1]; · iexists _; iexact H1
    isplitl [H2]; · iexists _; iexact H2
    iintro ⟨H0, H1, H2, HS0, HS1⟩
    iframe Hrest Hg Ho H0
    isplitl [HS0 HS1]
    · isplitl [HS0]; · iexact HS0
      iexact HS1
    isplitl [H1]; · iexact H1
    iexact H2
  · have hc1 : ¬cond2_1 (grid11.coords t) := fun h => h1 ((hcond2_1 t).mp h)
    rw [Dat.leavesExact_idle (dat11 V c) 1 t (idleAt2_1 t hc1) (noFlush2_1 t hc1)]
    rw [Dat.leavesExact_idle (dat11 V c) 2 t (idleAt2_2 t hc1) (noFlush2_2 t hc1)]
    by_cases h0 : t.val % 25 = 0
    · have hz : t.val = 0 := by omega
      obtain ⟨_ | n, hn⟩ := t
      swap; · exact absurd hz (Nat.succ_ne_zero n)
      rw [show (dat11 V c).Φ (Fin.castSucc ⟨0, hn⟩) = _ from PhiA11_eq c]
      iintro ⟨⟨⟨⟨HS0, HS1⟩, Hrest⟩, Hg⟩, Ho, ⟨%d0, H0⟩, ⟨%d1, H1⟩, ⟨%d2, H2⟩⟩
      iapply (sound_kernel2_A c Set.univ _ _ _ _ _ _ _ _ _ _ _ ((hcond2_0 _).mpr h0) hc1 _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2
    · obtain ⟨_ | n, hn⟩ := t
      · exact absurd rfl h0
      rw [show (dat11 V c).Φ (Fin.castSucc ⟨n + 1, hn⟩) = Phi11 V c (n + 1) (Nat.le_of_lt hn) from rfl, Phi11]
      iintro ⟨⟨⟨HS0, HS1⟩, Hrest, Hg⟩, Ho, ⟨%d0, H0⟩, ⟨%d1, H1⟩, ⟨%d2, H2⟩⟩
      iapply (sound_kernel2_B c Set.univ _ _ _ _ _ _ _ _ _ _ _ (fun h => h0 ((hcond2_0 _).mp h)) hc1 _ _ _ _ _ _)
      iframe H0 H1 H2 HS0 HS1
      iintro ⟨H0, H1, H2, HS0, HS1⟩
      iframe Hrest Hg Ho H0
      isplitl [HS0 HS1]
      · isplitl [HS0]; · iexact HS0
        iexact HS1
      isplitl [H1]; · iexists _; iexact H1
      iexists _; iexact H2

theorem hin11 (c : Dev nD) (P : sProp 𝕄) :
    iprop((∃ r, prngReg c r) ∗ P ∗ Pipeline.scopedRest (Ix := Unit) (Name := ℕ) (U := UR sig nD τ) (Lvl := ℕ) (Val := Elt F) spec11 c)
      ⊢ (dat11 V c).Φ 0 := by
  rw [show (dat11 V c).Φ 0 = Pipeline.ΦA spec11 c from rfl]; unfold Pipeline.ΦA
  iintro ⟨Hp, -, Hr⟩
  isplitl [Hr]; · iexact Hr
  iexact Hp

theorem hout11 (c : Dev nD) :
    (dat11 V c).Φ (Fin.last cfg11.N)
      ⊢ iprop((∃ r, prngReg c r) ∗ emp ∗ Pipeline.scopedRest (Ix := Unit) (Name := ℕ) (U := UR sig nD τ) (Lvl := ℕ) (Val := Elt F) spec11 c) := by
  have hN : cfg11.N = 25 := N_11
  rw [show (dat11 V c).Φ (Fin.last cfg11.N) = Phi11 V c (24 + 1) (by decide) from rfl, Phi11, scopedRest11_split]
  simp only [scM11_0, scM11_1, owns_whole]
  iintro ⟨⟨HS0, HS1⟩, Hrest, Hg⟩
  isplitl [Hg]; · iexact Hg
  isplitr; · iempintro
  isplitl [HS0 HS1]
  · isplitl [HS0]
    · iexists _; iexact HS0
    iexists _; iexact HS1
  iexact Hrest

end Region11

end Cert.KernelIdeal.Gen

end
-- ==== Proof.KI.R12.lean ====
import proofs.«137587_j59279138619792_1_alg».proof.Proof.KI.R3

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.ProofMode
open Idealize.ShloMosaic.Pipeline (Dat BodyObligation)

variable {F : FTy → Type} [FloatOps F] [Named F]

section Region12
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S2000x128 := Rect.unit (s := S2000x128) ![0, 0] S2000x128.size inb_S2000x128_S2000x128_0_0
abbrev r12_1 : Rect S1x128 := Rect.unit (s := S1x128) ![0, 0] S1x128.size inb_S1x128_S1x128_0_0

def out12_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r12_0, k12_pay1 (View.ld x0 r12_0) (View.ld x2 r12_1) (View.ld x3 r12_1) (View.ld x4 r12_1) (View.ld x5 r12_1) (View.ld x1 r12_0)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_6 (c : Dev nD) (t : Fin cfg12.N) : (dat12 V c).after 6 t = out12_6 (iblk12 V c 0 t) (iblk12 V c 1 t) (iblk12 V c 2 t) (iblk12 V c 3 t) (iblk12 V c 4 t) (iblk12 V c 5 t) := by dsimp only [dat12]

theorem after12 (c : Dev nD) (t : Fin cfg12.N) : (dat12 V c).after 0 t = iblk12 V c 0 t ∧ (dat12 V c).after 1 t = iblk12 V c 1 t ∧ (dat12 V c).after 2 t = iblk12 V c 2 t ∧ (dat12 V c).after 3 t = iblk12 V c 3 t ∧ (dat12 V c).after 4 t = iblk12 V c 4 t ∧ (dat12 V c).after 5 t = iblk12 V c 5 t :=
  ⟨rfl, rfl, rfl, rfl, rfl, rfl⟩

theorem before12 (c : Dev nD) (t : Fin cfg12.N) : (∀ d, (dat12 V c).before 0 t d = iblk12 V c 0 t) ∧ (∀ d, (dat12 V c).before 1 t d = iblk12 V c 1 t) ∧ (∀ d, (dat12 V c).before 2 t d = iblk12 V c 2 t) ∧ (∀ d, (dat12 V c).before 3 t d = iblk12 V c 3 t) ∧ (∀ d, (dat12 V c).before 4 t d = iblk12 V c 4 t) ∧ (∀ d, (dat12 V c).before 5 t d = iblk12 V c 5 t) := by
  refine ⟨?_, ?_, ?_, ?_, ?_, ?_⟩ <;> exact (dat12 V c).before_in_eq_fetched _ rfl (fun _ => rfl) (fun _ _ _ => rfl) (fun _ => rfl) t

theorem body_obligation12 (c : Dev nD) : BodyObligation (dat12 (F := F) V c) (defs₀ (F := F)) Variants.none () Set.univ := fun t => by
  rw [bigSep_W12, bigSep_W12]
  sl_whnfR [defs₀, Defs.onTc]
  simp only [before12 V c t, after12 V c t, after12_6]
  rewrite [show cc12__bn_relu_res_kernel (F := F) = cc3__bn_relu_res_kernel from rfl, show out12_6 (F := F) = out3_6 from rfl,
    show (dat12 V c).Φ t.succ = (dat12 V c).Φ t.castSucc from rfl,
    show (dat12 V c).owesAt () t.succ = (dat12 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel3
  iframe H0 H1 H2 H3 H4 H5
  isplitl [H6]; · iexists _; iexact H6
  iintro ⟨H0, H1, H2, H3, H4, H5, H6⟩
  iframe

end Region12

end Cert.KernelIdeal.Gen
-- ==== Proof.KI.R13.lean ====
import proofs.«137587_j59279138619792_1_alg».proof.Proof.KI.R1

noncomputable section

namespace Cert.KernelIdeal.Gen

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F] [Named F]

variable (V : (c : Dev nD) → (b : Ref sig .tc) → Buf (Elt F) ((c : Thread nD τ).loc b))

abbrev r13_1 : Rect S128x10 := Rect.unit (s := S128x10) ![0, 0] S128x10.size inb_S128x10_S128x10_0_0
abbrev r13_2 : Rect S1x10 := Rect.unit (s := S1x10) ![0, 0] S1x10.size inb_S1x10_S1x10_0_0
abbrev r13_3 : Rect S2000x10 := Rect.unit (s := S2000x10) ![0, 0] S2000x10.size inb_S2000x10_S2000x10_0_0

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def out13_3 (x0 : Vec F S2000x128 .f32) (x1 : Vec F S128x10 .f32) (x2 : Vec F S1x10 .f32) : Vec F S2000x10 .f32 :=
  View.canon [⟨r13_3, k13_pay1 (View.ld x0 r1_0) (View.ld x1 r13_1) (View.ld x2 r13_2)⟩]

set_option maxHeartbeats 1000000 in
-- The one store covers the whole output block, so what the output reads afterwards depends on the three inputs only.
theorem sound_kernel13 (c : Dev nD) (E : Set ℕ) i (P Q : sProp (MT nD τ sig Unit (Elt F) ℕ (UR sig nD τ) ℕ)) {arg0 arg1 arg2 arg3} harg0 harg1 harg2 harg3
    {D0 D1 D2 D3 : Type} {b3 : D3 → _} {x0 x1 x2} :
    iprop(P ∗ Q ∗ (∃ _ : D0, owns c.tc arg0 fullShare x0) ∗ (∃ _ : D1, owns c.tc arg1 fullShare x1) ∗ (∃ _ : D2, owns c.tc arg2 fullShare x2)
        ∗ (∃ d, owns c.tc arg3 fullShare (b3 d)))
      ⊢ wp frame (wpE (defs₀ (F := F)) Variants.none c none) E (cc13__matmul_bias_kernel i arg0 harg0 arg1 harg1 arg2 harg2 arg3 harg3) fun _ =>
        iprop(P ∗ Q ∗ owns c.tc arg0 fullShare x0 ∗ owns c.tc arg1 fullShare x1 ∗ owns c.tc arg2 fullShare x2
          ∗ owns c.tc arg3 fullShare (out13_3 x0 x1 x2)) := by
  simp only [cc13__matmul_bias_kernel_eq_skeleton]; unfold cc13__matmul_bias_kernel_skel owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe HP HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S2000x10.size (by rfl))

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_3 (c : Dev nD) (t : Fin cfg13.N) :
    (dat13 V c).after 3 t = out13_3 (iblk13 V c 0 t) (iblk13 V c 1 t) (iblk13 V c 2 t) := by dsimp only [dat13]

theorem before13 (c : Dev nD) (t) : (∀ d, (dat13 V c).before 0 t d = iblk13 V c 0 t) ∧ (∀ d, (dat13 V c).before 1 t d = iblk13 V c 1 t)
    ∧ ∀ d, (dat13 V c).before 2 t d = iblk13 V c 2 t := by
  refine ⟨?_, ?_, ?_⟩ <;> exact (dat13 V c).before_in_eq_fetched _ rfl (fun _ => rfl) (fun _ _ _ => rfl) (fun _ => rfl) t

theorem body_obligation13 (c : Dev nD) : BodyObligation (dat13 (F := F) V c) (defs₀ (F := F)) Variants.none () Set.univ := fun t => by
  rw [bigSep_W13, bigSep_W13]
  simp only [before13 V c t]
  dsimp only [dat13]
  exact sound_kernel13 c _ (grid13.coords t) _ _ (hstage13_0 _) (hstage13_1 _) (hstage13_2 _) (hstage13_3 _)

end Cert.KernelIdeal.Gen

end
-- ==== Proof.KI.Chain.lean ====
import proofs.«137587_j59279138619792_1_alg».proof.Proof.Gen.KernelIdeal.Regions
import proofs.«137587_j59279138619792_1_alg».proof.Proof.KI.R0
import proofs.«137587_j59279138619792_1_alg».proof.Proof.KI.R1
import proofs.«137587_j59279138619792_1_alg».proof.Proof.KI.R2
import proofs.«137587_j59279138619792_1_alg».proof.Proof.KI.R3
import proofs.«137587_j59279138619792_1_alg».proof.Proof.KI.R4
import proofs.«137587_j59279138619792_1_alg».proof.Proof.KI.R5
import proofs.«137587_j59279138619792_1_alg».proof.Proof.KI.R6
import proofs.«137587_j59279138619792_1_alg».proof.Proof.KI.R7
import proofs.«137587_j59279138619792_1_alg».proof.Proof.KI.R8
import proofs.«137587_j59279138619792_1_alg».proof.Proof.KI.R9
import proofs.«137587_j59279138619792_1_alg».proof.Proof.KI.R10
import proofs.«137587_j59279138619792_1_alg».proof.Proof.KI.R11
import proofs.«137587_j59279138619792_1_alg».proof.Proof.KI.R12
import proofs.«137587_j59279138619792_1_alg».proof.Proof.KI.R13

noncomputable section

namespace Cert.KernelIdeal.Gen

open Idealize.ShloMosaic Idealize.ShloMosaic.TcCoe

variable {F : FTy → Type} [FloatOps F] [Named F] (m : (ℓ : Loc nD τ sig) → Buf (Elt F) ℓ)

abbrev Vt (W : Dev nD → Valuation τ sig (Elt F)) : (c : Dev nD) → (b : Ref sig .tc) → Buf (Elt F) ((c : Thread nD τ).loc b) :=
  fun c b => W c b
abbrev X3 : Dev nD → Valuation τ sig (Elt F) := fun c => V3 m c
def o_main_v31 (c : Dev nD) : Buf (Elt F) ((c : Thread nD τ).loc main_v31) := (dat0 (Vt (X3 m)) c).arrAt 3 cfg0.N
abbrev X4 : Dev nD → Valuation τ sig (Elt F) := fun c => Function.update (X3 m c) main_v31 (o_main_v31 m c)
abbrev X5 : Dev nD → Valuation τ sig (Elt F) := fun c => StableHlo.after hostOps1 (X4 m c)
def o_main_v36 (c : Dev nD) : Buf (Elt F) ((c : Thread nD τ).loc main_v36) := (dat1 (Vt (X5 m)) c).arrAt 3 cfg1.N
abbrev X6 : Dev nD → Valuation τ sig (Elt F) := fun c => Function.update (X5 m c) main_v36 (o_main_v36 m c)
abbrev X7 : Dev nD → Valuation τ sig (Elt F) := fun c => StableHlo.after hostOps2 (X6 m c)
def o_main_v55_0 (c : Dev nD) : Buf (Elt F) ((c : Thread nD τ).loc main_v55_0) := (dat2 (Vt (X7 m)) c).arrAt 1 cfg2.N
def o_main_v55_1 (c : Dev nD) : Buf (Elt F) ((c : Thread nD τ).loc main_v55_1) := (dat2 (Vt (X7 m)) c).arrAt 2 cfg2.N
abbrev X8 : Dev nD → Valuation τ sig (Elt F) := fun c => Function.update (Function.update (X7 m c) main_v55_0 (o_main_v55_0 m c)) main_v55_1 (o_main_v55_1 m c)
abbrev X9 : Dev nD → Valuation τ sig (Elt F) := fun c => StableHlo.after hostOps3 (X8 m c)
def o_main_v62 (c : Dev nD) : Buf (Elt F) ((c : Thread nD τ).loc main_v62) := (dat3 (Vt (X9 m)) c).arrAt 6 cfg3.N
abbrev X10 : Dev nD → Valuation τ sig (Elt F) := fun c => Function.update (X9 m c) main_v62 (o_main_v62 m c)
abbrev X11 : Dev nD → Valuation τ sig (Elt F) := fun c => StableHlo.after hostOps4 (X10 m c)
def o_main_v66 (c : Dev nD) : Buf (Elt F) ((c : Thread nD τ).loc main_v66) := (dat4 (Vt (X11 m)) c).arrAt 3 cfg4.N
abbrev X12 : Dev nD → Valuation τ sig (Elt F) := fun c => Function.update (X11 m c) main_v66 (o_main_v66 m c)
abbrev X13 : Dev nD → Valuation τ sig (Elt F) := fun c => StableHlo.after hostOps5 (X12 m c)
def o_main_v85_0 (c : Dev nD) : Buf (Elt F) ((c : Thread nD τ).loc main_v85_0) := (dat5 (Vt (X13 m)) c).arrAt 1 cfg5.N
def o_main_v85_1 (c : Dev nD) : Buf (Elt F) ((c : Thread nD τ).loc main_v85_1) := (dat5 (Vt (X13 m)) c).arrAt 2 cfg5.N
abbrev X14 : Dev nD → Valuation τ sig (Elt F) := fun c => Function.update (Function.update (X13 m c) main_v85_0 (o_main_v85_0 m c)) main_v85_1 (o_main_v85_1 m c)
abbrev X15 : Dev nD → Valuation τ sig (Elt F) := fun c => StableHlo.after hostOps6 (X14 m c)
def o_main_v92 (c : Dev nD) : Buf (Elt F) ((c : Thread nD τ).loc main_v92) := (dat6 (Vt (X15 m)) c).arrAt 6 cfg6.N
abbrev X16 : Dev nD → Valuation τ sig (Elt F) := fun c => Function.update (X15 m c) main_v92 (o_main_v92 m c)
abbrev X17 : Dev nD → Valuation τ sig (Elt F) := fun c => StableHlo.after hostOps7 (X16 m c)
def o_main_v96 (c : Dev nD) : Buf (Elt F) ((c : Thread nD τ).loc main_v96) := (dat7 (Vt (X17 m)) c).arrAt 3 cfg7.N
abbrev X18 : Dev nD → Valuation τ sig (Elt F) := fun c => Function.update (X17 m c) main_v96 (o_main_v96 m c)
abbrev X19 : Dev nD → Valuation τ sig (Elt F) := fun c => StableHlo.after hostOps8 (X18 m c)
def o_main_v115_0 (c : Dev nD) : Buf (Elt F) ((c : Thread nD τ).loc main_v115_0) := (dat8 (Vt (X19 m)) c).arrAt 1 cfg8.N
def o_main_v115_1 (c : Dev nD) : Buf (Elt F) ((c : Thread nD τ).loc main_v115_1) := (dat8 (Vt (X19 m)) c).arrAt 2 cfg8.N
abbrev X20 : Dev nD → Valuation τ sig (Elt F) := fun c => Function.update (Function.update (X19 m c) main_v115_0 (o_main_v115_0 m c)) main_v115_1 (o_main_v115_1 m c)
abbrev X21 : Dev nD → Valuation τ sig (Elt F) := fun c => StableHlo.after hostOps9 (X20 m c)
def o_main_v122 (c : Dev nD) : Buf (Elt F) ((c : Thread nD τ).loc main_v122) := (dat9 (Vt (X21 m)) c).arrAt 6 cfg9.N
abbrev X22 : Dev nD → Valuation τ sig (Elt F) := fun c => Function.update (X21 m c) main_v122 (o_main_v122 m c)
abbrev X23 : Dev nD → Valuation τ sig (Elt F) := fun c => StableHlo.after hostOps10 (X22 m c)
def o_main_v126 (c : Dev nD) : Buf (Elt F) ((c : Thread nD τ).loc main_v126) := (dat10 (Vt (X23 m)) c).arrAt 3 cfg10.N
abbrev X24 : Dev nD → Valuation τ sig (Elt F) := fun c => Function.update (X23 m c) main_v126 (o_main_v126 m c)
abbrev X25 : Dev nD → Valuation τ sig (Elt F) := fun c => StableHlo.after hostOps11 (X24 m c)
def o_main_v145_0 (c : Dev nD) : Buf (Elt F) ((c : Thread nD τ).loc main_v145_0) := (dat11 (Vt (X25 m)) c).arrAt 1 cfg11.N
def o_main_v145_1 (c : Dev nD) : Buf (Elt F) ((c : Thread nD τ).loc main_v145_1) := (dat11 (Vt (X25 m)) c).arrAt 2 cfg11.N
abbrev X26 : Dev nD → Valuation τ sig (Elt F) := fun c => Function.update (Function.update (X25 m c) main_v145_0 (o_main_v145_0 m c)) main_v145_1 (o_main_v145_1 m c)
abbrev X27 : Dev nD → Valuation τ sig (Elt F) := fun c => StableHlo.after hostOps12 (X26 m c)
def o_main_v152 (c : Dev nD) : Buf (Elt F) ((c : Thread nD τ).loc main_v152) := (dat12 (Vt (X27 m)) c).arrAt 6 cfg12.N
abbrev X28 : Dev nD → Valuation τ sig (Elt F) := fun c => Function.update (X27 m c) main_v152 (o_main_v152 m c)
abbrev X29 : Dev nD → Valuation τ sig (Elt F) := fun c => StableHlo.after hostOps13 (X28 m c)
def o_main_v154 (c : Dev nD) : Buf (Elt F) ((c : Thread nD τ).loc main_v154) := (dat13 (Vt (X29 m)) c).arrAt 3 cfg13.N
abbrev X30 : Dev nD → Valuation τ sig (Elt F) := fun c => Function.update (X29 m c) main_v154 (o_main_v154 m c)

-- What each region leaves in its output arrays, by the number of the item of @main that follows the region.
def outs : Outs (F := F) := fun J r c => match J with
  | 4 => if h : r = main_v31 then h ▸ o_main_v31 m c else V0 m c r
  | 6 => if h : r = main_v36 then h ▸ o_main_v36 m c else V0 m c r
  | 8 => if h : r = main_v55_0 then h ▸ o_main_v55_0 m c else if h : r = main_v55_1 then h ▸ o_main_v55_1 m c else V0 m c r
  | 10 => if h : r = main_v62 then h ▸ o_main_v62 m c else V0 m c r
  | 12 => if h : r = main_v66 then h ▸ o_main_v66 m c else V0 m c r
  | 14 => if h : r = main_v85_0 then h ▸ o_main_v85_0 m c else if h : r = main_v85_1 then h ▸ o_main_v85_1 m c else V0 m c r
  | 16 => if h : r = main_v92 then h ▸ o_main_v92 m c else V0 m c r
  | 18 => if h : r = main_v96 then h ▸ o_main_v96 m c else V0 m c r
  | 20 => if h : r = main_v115_0 then h ▸ o_main_v115_0 m c else if h : r = main_v115_1 then h ▸ o_main_v115_1 m c else V0 m c r
  | 22 => if h : r = main_v122 then h ▸ o_main_v122 m c else V0 m c r
  | 24 => if h : r = main_v126 then h ▸ o_main_v126 m c else V0 m c r
  | 26 => if h : r = main_v145_0 then h ▸ o_main_v145_0 m c else if h : r = main_v145_1 then h ▸ o_main_v145_1 m c else V0 m c r
  | 28 => if h : r = main_v152 then h ▸ o_main_v152 m c else V0 m c r
  | 30 => if h : r = main_v154 then h ▸ o_main_v154 m c else V0 m c r
  | _ => V0 m c r

-- Equal valuations updated at the same buffer by the same contents are equal.
theorem update_congr {V V' : Valuation τ sig (Elt F)} (h : V = V') : ∀ r x, Function.update V r x = Function.update V' r x := h ▸ fun _ _ => rfl
theorem V4_eq (c : Dev nD) : V4 m (outs m) c = X4 m c := update_congr rfl ..
theorem V5_eq (c : Dev nD) : V5 m (outs m) c = X5 m c := congrArg (StableHlo.after hostOps1) (V4_eq m c)
theorem V6_eq (c : Dev nD) : V6 m (outs m) c = X6 m c := update_congr (V5_eq m c) ..
theorem V7_eq (c : Dev nD) : V7 m (outs m) c = X7 m c := congrArg (StableHlo.after hostOps2) (V6_eq m c)
theorem V8_eq (c : Dev nD) : V8 m (outs m) c = X8 m c := update_congr (update_congr (V7_eq m c) ..) ..
theorem V9_eq (c : Dev nD) : V9 m (outs m) c = X9 m c := congrArg (StableHlo.after hostOps3) (V8_eq m c)
theorem V10_eq (c : Dev nD) : V10 m (outs m) c = X10 m c := update_congr (V9_eq m c) ..
theorem V11_eq (c : Dev nD) : V11 m (outs m) c = X11 m c := congrArg (StableHlo.after hostOps4) (V10_eq m c)
theorem V12_eq (c : Dev nD) : V12 m (outs m) c = X12 m c := update_congr (V11_eq m c) ..
theorem V13_eq (c : Dev nD) : V13 m (outs m) c = X13 m c := congrArg (StableHlo.after hostOps5) (V12_eq m c)
theorem V14_eq (c : Dev nD) : V14 m (outs m) c = X14 m c := update_congr (update_congr (V13_eq m c) ..) ..
theorem V15_eq (c : Dev nD) : V15 m (outs m) c = X15 m c := congrArg (StableHlo.after hostOps6) (V14_eq m c)
theorem V16_eq (c : Dev nD) : V16 m (outs m) c = X16 m c := update_congr (V15_eq m c) ..
theorem V17_eq (c : Dev nD) : V17 m (outs m) c = X17 m c := congrArg (StableHlo.after hostOps7) (V16_eq m c)
theorem V18_eq (c : Dev nD) : V18 m (outs m) c = X18 m c := update_congr (V17_eq m c) ..
theorem V19_eq (c : Dev nD) : V19 m (outs m) c = X19 m c := congrArg (StableHlo.after hostOps8) (V18_eq m c)
theorem V20_eq (c : Dev nD) : V20 m (outs m) c = X20 m c := update_congr (update_congr (V19_eq m c) ..) ..
theorem V21_eq (c : Dev nD) : V21 m (outs m) c = X21 m c := congrArg (StableHlo.after hostOps9) (V20_eq m c)
theorem V22_eq (c : Dev nD) : V22 m (outs m) c = X22 m c := update_congr (V21_eq m c) ..
theorem V23_eq (c : Dev nD) : V23 m (outs m) c = X23 m c := congrArg (StableHlo.after hostOps10) (V22_eq m c)
theorem V24_eq (c : Dev nD) : V24 m (outs m) c = X24 m c := update_congr (V23_eq m c) ..
theorem V25_eq (c : Dev nD) : V25 m (outs m) c = X25 m c := congrArg (StableHlo.after hostOps11) (V24_eq m c)
theorem V26_eq (c : Dev nD) : V26 m (outs m) c = X26 m c := update_congr (update_congr (V25_eq m c) ..) ..
theorem V27_eq (c : Dev nD) : V27 m (outs m) c = X27 m c := congrArg (StableHlo.after hostOps12) (V26_eq m c)
theorem V28_eq (c : Dev nD) : V28 m (outs m) c = X28 m c := update_congr (V27_eq m c) ..
theorem V29_eq (c : Dev nD) : V29 m (outs m) c = X29 m c := congrArg (StableHlo.after hostOps13) (V28_eq m c)
theorem V30_eq (c : Dev nD) : V30 m (outs m) c = X30 m c := update_congr (V29_eq m c) ..

end Cert.KernelIdeal.Gen

end
-- ==== Proof.KI.Pdats.lean ====
import proofs.«137587_j59279138619792_1_alg».proof.Proof.KI.Chain

noncomputable section

namespace Cert.KernelIdeal.Gen

open Idealize.ShloMosaic Idealize.ShloMosaic.TcCoe

variable {F : FTy → Type} [FloatOps F] [Named F] (m : (ℓ : Loc nD τ sig) → Buf (Elt F) ℓ)

def pdats : (p : Fin 14) → (c : Dev nD) → Pipeline.Dat τ (Elt F) Unit ℕ (UR sig nD τ) ℕ (cfgs p) c
  | ⟨0, _⟩ => dat0 (Vt (X3 m))
  | ⟨1, _⟩ => dat1 (Vt (X5 m))
  | ⟨2, _⟩ => dat2 (Vt (X7 m))
  | ⟨3, _⟩ => dat3 (Vt (X9 m))
  | ⟨4, _⟩ => dat4 (Vt (X11 m))
  | ⟨5, _⟩ => dat5 (Vt (X13 m))
  | ⟨6, _⟩ => dat6 (Vt (X15 m))
  | ⟨7, _⟩ => dat7 (Vt (X17 m))
  | ⟨8, _⟩ => dat8 (Vt (X19 m))
  | ⟨9, _⟩ => dat9 (Vt (X21 m))
  | ⟨10, _⟩ => dat10 (Vt (X23 m))
  | ⟨11, _⟩ => dat11 (Vt (X25 m))
  | ⟨12, _⟩ => dat12 (Vt (X27 m))
  | ⟨13, _⟩ => dat13 (Vt (X29 m))
abbrev 𝒱₀ : Variants := Variants.none
abbrev L : GSem nD τ sig → Finset Unit := fun _ => ∅
abbrev lv : GSem nD τ sig → Unit → ℕ := fun _ _ => 0

end Cert.KernelIdeal.Gen

end
-- ==== Proof.KI.Reg0.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg0 : Pipeline.RegionSeg (pcfgs (F := F)) adm (pdats m) () defs₀ 𝒱₀ L lv 0 :=
  LibRegion.regionΦA cfgs (pdats m) defs₀ 𝒱₀ L lv 0 launch0 (X3 m) (X4 m) (fun c => (body_obligation0 (Vt (X3 m)) c).loose) 3

end Cert.KernelIdeal.Gen

end
-- ==== Proof.KI.Reg1.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg1 : Pipeline.RegionSeg (pcfgs (F := F)) adm (pdats m) () defs₀ 𝒱₀ L lv 1 :=
  LibRegion.regionΦA cfgs (pdats m) defs₀ 𝒱₀ L lv 1 launch1 (X5 m) (X6 m) (fun c => (body_obligation1 (Vt (X5 m)) c).loose) 3

end Cert.KernelIdeal.Gen

end
-- ==== Proof.KI.Reg2.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg2 : Pipeline.RegionSeg (pcfgs (F := F)) adm (pdats m) () defs₀ 𝒱₀ L lv 2 :=
  LibRegion.regionOfHeld cfgs (pdats m) defs₀ 𝒱₀ L lv 2 launch2 (X7 m) (X8 m) (fun c => (body_obligation2 (Vt (X7 m)) c).loose) 1 2
    (fun c => hin2 (Vt (X7 m)) c _) (hout2 (Vt (X7 m)))

end Cert.KernelIdeal.Gen

end
-- ==== Proof.KI.Reg3.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg3 : Pipeline.RegionSeg (pcfgs (F := F)) adm (pdats m) () defs₀ 𝒱₀ L lv 3 :=
  LibRegion.regionΦA cfgs (pdats m) defs₀ 𝒱₀ L lv 3 launch3 (X9 m) (X10 m) (fun c => (body_obligation3 (Vt (X9 m)) c).loose) 6

end Cert.KernelIdeal.Gen

end
-- ==== Proof.KI.Reg4.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg4 : Pipeline.RegionSeg (pcfgs (F := F)) adm (pdats m) () defs₀ 𝒱₀ L lv 4 :=
  LibRegion.regionΦA cfgs (pdats m) defs₀ 𝒱₀ L lv 4 launch4 (X11 m) (X12 m) (fun c => (body_obligation4 (Vt (X11 m)) c).loose) 3

end Cert.KernelIdeal.Gen

end
-- ==== Proof.KI.Reg5.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg5 : Pipeline.RegionSeg (pcfgs (F := F)) adm (pdats m) () defs₀ 𝒱₀ L lv 5 :=
  LibRegion.regionOfHeld cfgs (pdats m) defs₀ 𝒱₀ L lv 5 launch5 (X13 m) (X14 m) (fun c => (body_obligation5 (Vt (X13 m)) c).loose) 1 2
    (fun c => hin5 (Vt (X13 m)) c _) (hout5 (Vt (X13 m)))

end Cert.KernelIdeal.Gen

end
-- ==== Proof.KI.Reg6.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg6 : Pipeline.RegionSeg (pcfgs (F := F)) adm (pdats m) () defs₀ 𝒱₀ L lv 6 :=
  LibRegion.regionΦA cfgs (pdats m) defs₀ 𝒱₀ L lv 6 launch6 (X15 m) (X16 m) (fun c => (body_obligation6 (Vt (X15 m)) c).loose) 6

end Cert.KernelIdeal.Gen

end
-- ==== Proof.KI.Reg7.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg7 : Pipeline.RegionSeg (pcfgs (F := F)) adm (pdats m) () defs₀ 𝒱₀ L lv 7 :=
  LibRegion.regionΦA cfgs (pdats m) defs₀ 𝒱₀ L lv 7 launch7 (X17 m) (X18 m) (fun c => (body_obligation7 (Vt (X17 m)) c).loose) 3

end Cert.KernelIdeal.Gen

end
-- ==== Proof.KI.Reg8.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg8 : Pipeline.RegionSeg (pcfgs (F := F)) adm (pdats m) () defs₀ 𝒱₀ L lv 8 :=
  LibRegion.regionOfHeld cfgs (pdats m) defs₀ 𝒱₀ L lv 8 launch8 (X19 m) (X20 m) (fun c => (body_obligation8 (Vt (X19 m)) c).loose) 1 2
    (fun c => hin8 (Vt (X19 m)) c _) (hout8 (Vt (X19 m)))

end Cert.KernelIdeal.Gen

end
-- ==== Proof.KI.Reg9.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg9 : Pipeline.RegionSeg (pcfgs (F := F)) adm (pdats m) () defs₀ 𝒱₀ L lv 9 :=
  LibRegion.regionΦA cfgs (pdats m) defs₀ 𝒱₀ L lv 9 launch9 (X21 m) (X22 m) (fun c => (body_obligation9 (Vt (X21 m)) c).loose) 6

end Cert.KernelIdeal.Gen

end
-- ==== Proof.KI.Reg10.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg10 : Pipeline.RegionSeg (pcfgs (F := F)) adm (pdats m) () defs₀ 𝒱₀ L lv 10 :=
  LibRegion.regionΦA cfgs (pdats m) defs₀ 𝒱₀ L lv 10 launch10 (X23 m) (X24 m) (fun c => (body_obligation10 (Vt (X23 m)) c).loose) 3

end Cert.KernelIdeal.Gen

end
-- ==== Proof.KI.Reg11.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg11 : Pipeline.RegionSeg (pcfgs (F := F)) adm (pdats m) () defs₀ 𝒱₀ L lv 11 :=
  LibRegion.regionOfHeld cfgs (pdats m) defs₀ 𝒱₀ L lv 11 launch11 (X25 m) (X26 m) (fun c => (body_obligation11 (Vt (X25 m)) c).loose) 1 2
    (fun c => hin11 (Vt (X25 m)) c _) (hout11 (Vt (X25 m)))

end Cert.KernelIdeal.Gen

end
-- ==== Proof.KI.Reg12.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg12 : Pipeline.RegionSeg (pcfgs (F := F)) adm (pdats m) () defs₀ 𝒱₀ L lv 12 :=
  LibRegion.regionΦA cfgs (pdats m) defs₀ 𝒱₀ L lv 12 launch12 (X27 m) (X28 m) (fun c => (body_obligation12 (Vt (X27 m)) c).loose) 6

end Cert.KernelIdeal.Gen

end
-- ==== Proof.KI.Reg13.lean ====
import proofs.«137587_j59279138619792_1_alg».proof.Proof.KI.Pdats
import proofs.«137587_j59279138619792_1_alg».proof.Proof.LibRegion

noncomputable section

namespace Cert.KernelIdeal.Gen

open Idealize.ShloMosaic

variable {F : FTy → Type} [FloatOps F] [Named F] (m : (ℓ : Loc nD τ sig) → Buf (Elt F) ℓ)

def reg13 : Pipeline.RegionSeg (pcfgs (F := F)) adm (pdats m) () defs₀ 𝒱₀ L lv 13 :=
  LibRegion.regionΦA cfgs (pdats m) defs₀ 𝒱₀ L lv 13 launch13 (X29 m) (X30 m) (fun c => (body_obligation13 (Vt (X29 m)) c).loose) 3

end Cert.KernelIdeal.Gen

end
-- ==== Proof.KI.Run.lean ====
import proofs.«137587_j59279138619792_1_alg».proof.Proof.KI.Reg0
import proofs.«137587_j59279138619792_1_alg».proof.Proof.KI.Reg1
import proofs.«137587_j59279138619792_1_alg».proof.Proof.KI.Reg2
import proofs.«137587_j59279138619792_1_alg».proof.Proof.KI.Reg3
import proofs.«137587_j59279138619792_1_alg».proof.Proof.KI.Reg4
import proofs.«137587_j59279138619792_1_alg».proof.Proof.KI.Reg5
import proofs.«137587_j59279138619792_1_alg».proof.Proof.KI.Reg6
import proofs.«137587_j59279138619792_1_alg».proof.Proof.KI.Reg7
import proofs.«137587_j59279138619792_1_alg».proof.Proof.KI.Reg8
import proofs.«137587_j59279138619792_1_alg».proof.Proof.KI.Reg9
import proofs.«137587_j59279138619792_1_alg».proof.Proof.KI.Reg10
import proofs.«137587_j59279138619792_1_alg».proof.Proof.KI.Reg11
import proofs.«137587_j59279138619792_1_alg».proof.Proof.KI.Reg12
import proofs.«137587_j59279138619792_1_alg».proof.Proof.KI.Reg13

set_option maxRecDepth 1684

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v154) = o_main_v154 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ 𝒱₀ L lv m ρ main
    (segs m (outs m) 𝒱₀ L lv (fun _ c => LibRegion.Beside c) () (pdats m) (reg0 m) (reg1 m) (reg2 m) (reg3 m) (reg4 m) (reg5 m) (reg6 m) (reg7 m) (reg8 m) (reg9 m) (reg10 m) (reg11 m) (reg12 m) (reg13 m))
    (fun c Q => by
      rewrite [main_chain c, Pipeline.Seg.run_eq_chain,
        show (segs m (outs m) 𝒱₀ L lv (fun _ c => LibRegion.Beside c) () (pdats m) (reg0 m) (reg1 m) (reg2 m) (reg3 m) (reg4 m) (reg5 m) (reg6 m) (reg7 m) (reg8 m) (reg9 m) (reg10 m) (reg11 m) (reg12 m) (reg13 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [segs, Pipeline.Seg.pipes_host, Pipeline.Seg.pipes_region, Pipeline.Seg.pipes_nil]; decide) 0 (fun _ _ => rfl) _ _ (LibRegion.own_launch _)
    (T₀ := fun c => iprop(StableHlo.held (c : Thread nD τ) (Pipeline.ucRefs τ sig) (V0 m c) ∗ LibRegion.Beside c))
    (Tₙ := fun c => StableHlo.held (c : Thread nD τ) (Pipeline.ucRefs τ sig) (V30 m (outs m) c))
    (hch := fun c =>
      have hV : ∀ {V V' : Valuation τ sig (Elt F)}, V' = V → iprop(StableHlo.held (c : Thread nD τ) (Pipeline.ucRefs τ sig) V ∗ LibRegion.Beside c)
          ⊢ (iprop(StableHlo.held (c : Thread nD τ) (Pipeline.ucRefs τ sig) V' ∗ LibRegion.Beside c) : sProp 𝕄) := fun h => h ▸ .rfl
      ⟨.rfl, .rfl, .rfl, .rfl, hV (V4_eq m c), hV (V5_eq m c).symm, hV (V6_eq m c), hV (V7_eq m c).symm, hV (V8_eq m c), hV (V9_eq m c).symm, hV (V10_eq m c), hV (V11_eq m c).symm, hV (V12_eq m c), hV (V13_eq m c).symm, hV (V14_eq m c), hV (V15_eq m c).symm, hV (V16_eq m c), hV (V17_eq m c).symm, hV (V18_eq m c), hV (V19_eq m c).symm, hV (V20_eq m c), hV (V21_eq m c).symm, hV (V22_eq m c), hV (V23_eq m c).symm, hV (V24_eq m c), hV (V25_eq m c).symm, hV (V26_eq m c), hV (V27_eq m c).symm, hV (V28_eq m c), hV (V29_eq m c).symm,
        (hV (V30_eq m c)).trans (sep_mono .rfl (by iintro ⟨-, HO⟩; iexact HO))⟩)
    (hinit := Pipeline.initEach L lv fun c => by
      rw [Pipeline.unscopedBufs_held (Ix := Unit) (Name := ℕ) (U := UR sig nD τ) (Lvl := ℕ) c (V0 m c)]
      iintro ⟨⟨Hb, -, HO, -, Hp, -⟩, -⟩
      imodintro
      isplitl [Hb]; · iexact Hb
      isplitl [Hp]; · iexists _; iexact Hp
      iexists ∅; iexact HO)
    (QY := _)
    (hfin := fun c s' => ?_) (hQ := fun _ h => h)
  unfold StableHlo.held
  iintro ⟨Hh, HSI⟩
  ihave Hr := (pointsTo_read_all (Pipeline.ucRefs τ sig) (fun b => ((c : Thread nD τ).1, b)) (V30 m (outs m) c) s') $$ [Hh HSI]
  · isplitl [Hh] <;> iassumption
  icases Hr with ⟨%h, HSI⟩
  imodintro
  isplitr
  · ipureintro
    have rd := fun (r : Ref sig .tc) (hr : ¬ (Proc.devRef (τ := τ) .tc r).isScoped) =>
      h (Proc.devRef .tc r) (Finset.mem_filter.mpr ⟨StableHlo.devRef_mem_tcRefs r, hr⟩)
    exact ⟨(rd main_v154 (by decide)).trans ((congrFun (V30_eq m c) _).trans (Function.update_self _ _ _)),
      (rd main_arg0 (by decide)).trans (V30_main_arg0 m (outs m) c),
      (rd main_arg1 (by decide)).trans (V30_main_arg1 m (outs m) c),
      (rd main_arg2 (by decide)).trans (V30_main_arg2 m (outs m) c),
      (rd main_arg3 (by decide)).trans (V30_main_arg3 m (outs m) c),
      (rd main_arg4 (by decide)).trans (V30_main_arg4 m (outs m) c),
      (rd main_arg5 (by decide)).trans (V30_main_arg5 m (outs m) c),
      (rd main_arg6 (by decide)).trans (V30_main_arg6 m (outs m) c),
      (rd main_arg7 (by decide)).trans (V30_main_arg7 m (outs m) c),
      (rd main_arg8 (by decide)).trans (V30_main_arg8 m (outs m) c),
      (rd main_arg9 (by decide)).trans (V30_main_arg9 m (outs m) c),
      (rd main_arg10 (by decide)).trans (V30_main_arg10 m (outs m) c)⟩
  · iexact HSI

end Cert.KernelIdeal.Gen

end
-- ==== Proof.Spec.Net.lean ====
import Idealize.ShloMosaic.PureOps.Ideal
import Idealize.ShloMosaic.Lib.ValueIdx

noncomputable section

namespace Cert.Spec

open Idealize.ShloMosaic Idealize.ShloMosaic.ValueIdx

abbrev Mat (r c : ℕ) : Type := (⟨2, ![r, c]⟩ : Shape).Idx → EReal

def AllReal {S : Shape} (v : S.Idx → EReal) : Prop := ∀ i, ∃ r : ℝ, v i = (r : EReal)

def AllRealV {n : ℕ} (v : Fin n → EReal) : Prop := ∀ j, ∃ r : ℝ, v j = (r : EReal)

def eps : EReal := Ideal.ofBits .f32 0x3727C5AC#32

def lin (x : Mat 50000 128) (w : Mat 128 128) (b : Fin 128 → EReal) : Mat 50000 128 :=
  fun i => (∑ k : Fin 128, x (ix2 (i 0) k) * w (ix2 k (i 1))) + b (i 1)

def lin0 (x : Mat 50000 128) (w : Mat 128 128) : Mat 50000 128 :=
  fun i => ∑ k : Fin 128, x (ix2 (i 0) k) * w (ix2 k (i 1))

def head (x : Mat 50000 128) (w : Mat 128 10) (b : Fin 10 → EReal) : Mat 50000 10 :=
  fun i => (∑ k : Fin 128, x (ix2 (i 0) k) * w (ix2 k (i 1))) + b (i 1)

def colSum (h : Mat 50000 128) : Fin 128 → EReal := fun j => ∑ r : Fin 50000, h (ix2 r j)

def meanK (h : Mat 50000 128) : Fin 128 → EReal := fun j => colSum h j * ((1 / 50000 : ℝ) : EReal)

def varK (h : Mat 50000 128) : Fin 128 → EReal :=
  fun j => colSum (fun i => h i * h i) j * ((1 / 50000 : ℝ) : EReal) - meanK h j * meanK h j

def meanR (h : Mat 50000 128) : Fin 128 → EReal := fun j => Ideal.div (colSum h j) ((50000 : ℝ) : EReal)

def varR (h : Mat 50000 128) : Fin 128 → EReal :=
  fun j => Ideal.div (colSum (fun i => (h i - meanR h (i 1)) * (h i - meanR h (i 1))) j) ((50000 : ℝ) : EReal)

def bn (h hin : Mat 50000 128) (mean var γ β : Fin 128 → EReal) : Mat 50000 128 :=
  fun i => hin i + max ((((h i - mean (i 1)) * Ideal.rsqrt (var (i 1) + eps)) * γ (i 1)) + β (i 1)) 0

def layerK (agg : Mat 50000 128 → Mat 50000 128) (w : Mat 128 128) (bl γ β : Fin 128 → EReal) (h : Mat 50000 128) : Mat 50000 128 :=
  bn (fun i => agg (lin h w fun _ => 0) i + bl (i 1)) h
    (meanK fun i => agg (lin h w fun _ => 0) i + bl (i 1)) (varK fun i => agg (lin h w fun _ => 0) i + bl (i 1)) γ β

def layerR (agg : Mat 50000 128 → Mat 50000 128) (w : Mat 128 128) (bl γ β : Fin 128 → EReal) (h : Mat 50000 128) : Mat 50000 128 :=
  bn (fun i => agg (lin0 h w) i + bl (i 1)) h
    (meanR fun i => agg (lin0 h w) i + bl (i 1)) (varR fun i => agg (lin0 h w) i + bl (i 1)) γ β

structure Params where
  h0 : Mat 50000 128
  Wemb : Mat 128 128
  bemb : Fin 128 → EReal
  W : Fin 4 → Mat 128 128
  b : Fin 4 → Fin 128 → EReal
  γ : Fin 4 → Fin 128 → EReal
  β : Fin 4 → Fin 128 → EReal
  Wmlp : Mat 128 10
  bmlp : Fin 10 → EReal

structure Params.AllReal (P : Params) : Prop where
  h0 : Spec.AllReal P.h0
  Wemb : Spec.AllReal P.Wemb
  bemb : AllRealV P.bemb
  W : ∀ l, Spec.AllReal (P.W l)
  b : ∀ l, AllRealV (P.b l)
  γ : ∀ l, AllRealV (P.γ l)
  β : ∀ l, AllRealV (P.β l)
  Wmlp : Spec.AllReal P.Wmlp
  bmlp : AllRealV P.bmlp

def mkParams (a0 : Mat 50000 128) (a3 : Mat 128 128) (a4 : (⟨1, ![128]⟩ : Shape).Idx → EReal)
    (a5 : (⟨3, ![4, 128, 128]⟩ : Shape).Idx → EReal) (a6 a7 a8 : Mat 4 128) (a9 : Mat 128 10)
    (a10 : (⟨1, ![10]⟩ : Shape).Idx → EReal) : Params where
  h0 := a0
  Wemb := a3
  bemb := fun j => a4 (ix1 j)
  W := fun l i => a5 (ix3 l (i 0) (i 1))
  b := fun l j => a6 (ix2 l j)
  γ := fun l j => a7 (ix2 l j)
  β := fun l j => a8 (ix2 l j)
  Wmlp := a9
  bmlp := fun j => a10 (ix1 j)

def netK (agg : Mat 50000 128 → Mat 50000 128) (P : Params) : Mat 50000 10 :=
  head (layerK agg (P.W 3) (P.b 3) (P.γ 3) (P.β 3) (layerK agg (P.W 2) (P.b 2) (P.γ 2) (P.β 2)
    (layerK agg (P.W 1) (P.b 1) (P.γ 1) (P.β 1) (layerK agg (P.W 0) (P.b 0) (P.γ 0) (P.β 0) (lin P.h0 P.Wemb P.bemb))))) P.Wmlp P.bmlp

def netR (agg : Mat 50000 128 → Mat 50000 128) (P : Params) : Mat 50000 10 :=
  head (layerR agg (P.W 3) (P.b 3) (P.γ 3) (P.β 3) (layerR agg (P.W 2) (P.b 2) (P.γ 2) (P.β 2)
    (layerR agg (P.W 1) (P.b 1) (P.γ 1) (P.β 1) (layerR agg (P.W 0) (P.b 0) (P.γ 0) (P.β 0) (lin P.h0 P.Wemb P.bemb))))) P.Wmlp P.bmlp

end Cert.Spec

end
-- ==== Proof.Spec.Agg.lean ====
import Idealize.ShloMosaic.PureOps.Ideal
import Idealize.ShloMosaic.Lib.ValueIdx
import proofs.«137587_j59279138619792_1_alg».proof.Proof.Spec.Net

noncomputable section

namespace Cert.Spec

open Idealize.ShloMosaic Idealize.ShloMosaic.ValueIdx

namespace AggDims

abbrev S50000x128 : Shape := ⟨2, ![50000, 128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩

theorem slices_S2x800000_S1x800000_0_0 : S2x800000.Slices ![0, 0] S1x800000 := by decide
theorem slices_S2x800000_S1x800000_1_0 : S2x800000.Slices ![1, 0] S1x800000 := by decide
theorem shapeCasts_S1x800000_S800000 : S1x800000.ShapeCasts S800000 := by decide
theorem concatenates_S800000_S50000_S850000_d0 : Shape.Concatenates [S800000, S50000] S850000 0 := by decide
theorem bcast_S_S850000 : S_.BroadcastsInDim S850000 (![] : Fin 0 → Fin S850000.rank) := by decide
theorem bcast_S_S50000 : S_.BroadcastsInDim S50000 (![] : Fin 0 → Fin S50000.rank) := by decide
theorem bcast_S_S50000x128 : S_.BroadcastsInDim S50000x128 (![] : Fin 0 → Fin S50000x128.rank) := by decide
theorem bcast_S850000_S850000x1_0 : S850000.BroadcastsInDim S850000x1 (![0] : Fin 1 → Fin S850000x1.rank) := by decide
theorem bcast_S850000x1_S850000x128_0_1 :
    S850000x1.BroadcastsInDim S850000x128 (![0, 1] : Fin 2 → Fin S850000x128.rank) := by decide
theorem scatterVec_wf : ScatterDims.WF S50000 S850000x1 S850000 [] [0] [0] 1 := by decide
theorem gatherVec_wf : GatherDims.WF S50000 S850000x1 S850000 [] [0] [] [0] [] 1 ![1] := by decide
theorem gatherRows_wf : GatherDims.WF S50000x128 S850000x1 S850000x128 [1] [0] [] [0] [] 1 ![1, 128] := by decide
theorem scatterRows_wf : ScatterDims.WF S50000x128 S850000x1 S850000x128 [1] [0] [0] 1 := by decide

def scatterVec : ScatterDims S50000 S850000x1 S850000 where
  updateWindowDims := []
  insertedWindowDims := [0]
  scatterDimsToOperandDims := [0]
  indexVectorDim := 1
  wf := scatterVec_wf

def gatherVec : GatherDims S50000 S850000x1 S850000 where
  offsetDims := []
  collapsedSliceDims := [0]
  operandBatchingDims := []
  startIndicesBatchingDims := []
  startIndexMap := [0]
  indexVectorDim := 1
  sliceSizes := ![1]
  wf := gatherVec_wf

def gatherRows : GatherDims S50000x128 S850000x1 S850000x128 where
  offsetDims := [1]
  collapsedSliceDims := [0]
  operandBatchingDims := []
  startIndicesBatchingDims := []
  startIndexMap := [0]
  indexVectorDim := 1
  sliceSizes := ![1, 128]
  wf := gatherRows_wf

def scatterRows : ScatterDims S50000x128 S850000x1 S850000x128 where
  updateWindowDims := [1]
  insertedWindowDims := [0]
  scatterDimsToOperandDims := [0]
  indexVectorDim := 1
  wf := scatterRows_wf

end AggDims

open AggDims

def srcOf (e : S2x800000.Idx → BitVec 32) : IVec S850000 32 :=
  concatenate S850000 0
    [⟨S800000, shapeCast S800000 (extractStridedSlice S1x800000 ![0, 0] e slices_S2x800000_S1x800000_0_0)
        shapeCasts_S1x800000_S800000⟩,
     ⟨S50000, iotaInDim S50000 32 0⟩] concatenates_S800000_S50000_S850000_d0

def dstOf (e : S2x800000.Idx → BitVec 32) : IVec S850000 32 :=
  concatenate S850000 0
    [⟨S800000, shapeCast S800000 (extractStridedSlice S1x800000 ![1, 0] e slices_S2x800000_S1x800000_1_0)
        shapeCasts_S1x800000_S800000⟩,
     ⟨S50000, iotaInDim S50000 32 0⟩] concatenates_S800000_S50000_S850000_d0

def wrapOf (i : IVec S850000 32) : IVec S850000 32 :=
  select (cmpi .slt i (broadcastInDim S850000 ![] bcast_S_S850000 (constantI S_ 32 0#32)))
    (addi i (broadcastInDim S850000 ![] bcast_S_S850000 (constantI S_ 32 50000#32))) i

def degOf (dst : IVec S850000 32) : FVec Ideal S50000 .f32 :=
  Host.scatterAdd (F := Ideal) (φ := .f32) scatterVec
    (broadcastInDim S50000 ![] bcast_S_S50000 (constant (F := Ideal) S_ .f32 0x00000000#32))
    (broadcastInDim S850000x1 ![0] bcast_S850000_S850000x1_0 dst)
    (broadcastInDim S850000 ![] bcast_S_S850000 (constant (F := Ideal) S_ .f32 0x3F800000#32))

def dinvOf (deg : FVec Ideal S50000 .f32) : FVec Ideal S50000 .f32 :=
  select
    (cmpf (F := Ideal) (φ := .f32) .ogt deg
      (broadcastInDim S50000 ![] bcast_S_S50000 (constant (F := Ideal) S_ .f32 0x00000000#32)))
    (Host.rsqrt (F := Ideal) (φ := .f32) deg)
    (broadcastInDim S50000 ![] bcast_S_S50000 (constant (F := Ideal) S_ .f32 0x00000000#32))

def normWith (src dst : IVec S850000 32) (dinv : FVec Ideal S50000 .f32) : FVec Ideal S850000 .f32 :=
  mulf (F := Ideal) (φ := .f32)
    (Host.gather gatherVec dinv (broadcastInDim S850000x1 ![0] bcast_S850000_S850000x1_0 (wrapOf src)))
    (Host.gather gatherVec dinv (broadcastInDim S850000x1 ![0] bcast_S850000_S850000x1_0 (wrapOf dst)))

def normOf (e : S2x800000.Idx → BitVec 32) : FVec Ideal S850000 .f32 :=
  normWith (srcOf e) (dstOf e) (dinvOf (degOf (dstOf e)))

def aggWith (src dst : IVec S850000 32) (norm : FVec Ideal S850000 .f32) (x : Mat 50000 128) : Mat 50000 128 :=
  Host.scatterAdd (F := Ideal) (φ := .f32) scatterRows
    (broadcastInDim S50000x128 ![] bcast_S_S50000x128 (constant (F := Ideal) S_ .f32 0x00000000#32))
    (broadcastInDim S850000x1 ![0] bcast_S850000_S850000x1_0 dst)
    (mulf (F := Ideal) (φ := .f32)
      (Host.gather gatherRows x (broadcastInDim S850000x1 ![0] bcast_S850000_S850000x1_0 (wrapOf src)))
      (broadcastInDim S850000x128 ![0, 1] bcast_S850000x1_S850000x128_0_1
        (broadcastInDim S850000x1 ![0] bcast_S850000_S850000x1_0 norm)))

def agg (e : (⟨2, ![2, 800000]⟩ : Shape).Idx → BitVec 32) : Mat 50000 128 → Mat 50000 128 :=
  aggWith (srcOf e) (dstOf e) (normOf e)

theorem ofBits_zero : Ideal.ofBits .f32 0x00000000#32 = 0 := by simp [Ideal.ofBits, Ideal.ieee]

theorem add_sum_real {ι : Type} (a : EReal) (S : Finset ι) (f : ι → EReal) (ha : ∃ r : ℝ, a = (r : EReal))
    (hf : ∀ j ∈ S, ∃ r : ℝ, f j = (r : EReal)) : ∃ r : ℝ, a + ∑ j ∈ S, f j = (r : EReal) := by
  obtain ⟨ra, rfl⟩ := ha
  have hsum : ∃ r : ℝ, ∑ j ∈ S, f j = (r : EReal) := by
    refine Finset.sum_induction f (fun v => ∃ r : ℝ, v = (r : EReal)) ?_ ⟨0, EReal.coe_zero.symm⟩ hf
    rintro u v ⟨ru, rfl⟩ ⟨rv, rfl⟩
    exact ⟨ru + rv, (EReal.coe_add ru rv).symm⟩
  obtain ⟨rs, hs⟩ := hsum
  exact ⟨ra + rs, by rw [hs, EReal.coe_add]⟩

theorem mul_real {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

theorem weight_real (v : EReal) :
    ∃ r : ℝ, Scalar.select (Ideal.cmp .ogt v 0) (Ideal.rsqrt v) 0 = (r : EReal) := by
  by_cases h : (0 : EReal) < v
  · have hc : Ideal.cmp .ogt v 0 = 1#1 := by
      unfold Ideal.cmp
      simp only [decide_eq_true h]
      rfl
    rw [hc, select_one]
    induction v using EReal.rec with
    | bot => exact absurd h not_lt_bot
    | top => exact ⟨0, by rw [Ideal.rsqrt_top, EReal.coe_zero]⟩
    | coe r =>
      have hr : 0 < r := by exact_mod_cast h
      exact ⟨(Real.sqrt r)⁻¹, by rw [Ideal.rsqrt_coe, if_neg (not_lt.2 hr.le), if_neg hr.ne']⟩
  · have hc : Ideal.cmp .ogt v 0 = 0#1 := by
      unfold Ideal.cmp
      simp only [decide_eq_false h]
      rfl
    rw [hc, select_zero]
    exact ⟨0, EReal.coe_zero.symm⟩

section Shapes
variable {s t si su : Shape}

theorem constant_zero_real : AllReal (constant (F := Ideal) s .f32 0x00000000#32) := fun i =>
  ⟨0, ((constant_apply (s := s) (φ := .f32) 0x00000000#32 i).trans ofBits_zero).trans EReal.coe_zero.symm⟩

theorem broadcastInDim_real (dims : Fin s.rank → Fin t.rank) (h : s.BroadcastsInDim t dims) (x : s.Idx → EReal)
    (hx : AllReal x) : AllReal (broadcastInDim t dims h x) := fun _ => hx _

theorem broadcast_zero_apply (dims : Fin (⟨0, ![]⟩ : Shape).rank → Fin t.rank)
    (h : (⟨0, ![]⟩ : Shape).BroadcastsInDim t dims) (i : t.Idx) :
    broadcastInDim t dims h (constant (F := Ideal) ⟨0, ![]⟩ .f32 0x00000000#32) i = 0 := by
  show constant (F := Ideal) ⟨0, ![]⟩ .f32 0x00000000#32 _ = 0
  rw [constant_apply]
  exact ofBits_zero

theorem gather_real (d : GatherDims s si t) {w : ℕ} (x : s.Idx → EReal) (idx : IVec si w) (hx : AllReal x) :
    AllReal (Host.gather d x idx) := fun j => hx (d.operandIdx j idx)

theorem mulf_real (a b : FVec Ideal s .f32) (ha : AllReal a) (hb : AllReal b) :
    AllReal (mulf (F := Ideal) (φ := .f32) a b) := fun i => mul_real (ha i) (hb i)

theorem scatterAdd_real (d : ScatterDims s si su) {w : ℕ} (x : s.Idx → EReal) (idx : IVec si w)
    (upd : su.Idx → EReal) (hx : AllReal x) (hu : AllReal upd) :
    AllReal (Host.scatterAdd (F := Ideal) (φ := .f32) d x idx upd) := fun i =>
  add_sum_real (x i) _ upd (hx i) fun j _ => hu j

theorem weights_real (deg z : FVec Ideal s .f32) (hz : ∀ i, z i = 0) :
    AllReal (select (cmpf (F := Ideal) (φ := .f32) .ogt deg z) (Host.rsqrt (F := Ideal) (φ := .f32) deg) z) := by
  intro i
  show ∃ r : ℝ, Scalar.select (Ideal.cmp .ogt (deg i) (z i)) (Ideal.rsqrt (deg i)) (z i) = (r : EReal)
  rw [hz i]
  exact weight_real (deg i)

end Shapes

theorem dinvOf_real (deg : FVec Ideal S50000 .f32) : AllReal (dinvOf deg) :=
  weights_real deg _ fun i => broadcast_zero_apply _ _ i

theorem normOf_real (e : S2x800000.Idx → BitVec 32) : AllReal (normOf e) :=
  mulf_real _ _ (gather_real gatherVec _ _ (dinvOf_real _)) (gather_real gatherVec _ _ (dinvOf_real _))

theorem aggWith_real (src dst : IVec S850000 32) (norm : FVec Ideal S850000 .f32) (hn : AllReal norm)
    (x : Mat 50000 128) (hx : AllReal x) : AllReal (aggWith src dst norm x) :=
  scatterAdd_real scatterRows _ _ _ (broadcastInDim_real _ _ _ constant_zero_real)
    (mulf_real _ _ (gather_real gatherRows x _ hx)
      (broadcastInDim_real _ _ _ (broadcastInDim_real _ _ _ hn)))

theorem agg_real (e : (⟨2, ![2, 800000]⟩ : Shape).Idx → BitVec 32) : ∀ x, AllReal x → AllReal (agg e x) :=
  fun x hx => aggWith_real (srcOf e) (dstOf e) (normOf e) (normOf_real e) x hx

end Cert.Spec

end
-- ==== Proof.LibLayoutIx.lean ====
import Idealize.ShloMosaic.Lib.ValueIdx
import Idealize.ShloMosaic.Lib.Pipeline.Value
import Idealize.ShloMosaic.Lib.ValueLayout

namespace Cert.LibLayoutIx

open Idealize.ShloMosaic Idealize.ShloMosaic.ValueIdx

variable {α : Type}

theorem broadcastInDim_scalar (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

theorem broadcastInDim_row {N : Nat} (h : (⟨1, ![N]⟩ : Shape).BroadcastsInDim ⟨2, ![1, N]⟩ (![1] : Fin 1 → Fin 2))
    (x : (⟨1, ![N]⟩ : Shape).Idx → α) (k : Fin 1) (n : Fin N) :
    broadcastInDim ⟨2, ![1, N]⟩ (![1] : Fin 1 → Fin 2) h x (ix2 k n) = x (ix1 n) :=
  broadcastInDim_apply _ h x _ (ix1 n) (fun a => match a with
    | ⟨0, _⟩ => by
      have hn := n.isLt
      show n.val = if N = 1 then 0 else n.val
      split
      · omega
      · rfl)

theorem broadcastInDim_rows {R N : Nat}
    (h : (⟨2, ![1, N]⟩ : Shape).BroadcastsInDim ⟨2, ![R, N]⟩ (![0, 1] : Fin 2 → Fin 2))
    (x : (⟨2, ![1, N]⟩ : Shape).Idx → α) (r : Fin R) (n : Fin N) :
    broadcastInDim ⟨2, ![R, N]⟩ (![0, 1] : Fin 2 → Fin 2) h x (ix2 r n) = x (ix2 0 n) :=
  broadcastInDim_apply _ h x _ (ix2 0 n) (fun a => match a with
    | ⟨0, _⟩ => by
      show (0 : Nat) = if (1 : Nat) = 1 then 0 else r.val
      rfl
    | ⟨1, _⟩ => by
      have hn := n.isLt
      show n.val = if N = 1 then 0 else n.val
      split
      · omega
      · rfl)

theorem slice_row_lt {R N k : Nat} (h : (⟨2, ![R, N]⟩ : Shape).Slices ![k, 0] ⟨2, ![1, N]⟩) : k < R := by
  have h0 := h.2 ⟨0, Nat.two_pos⟩
  change k + 1 ≤ R at h0
  omega

theorem extractStridedSlice_row {R N k : Nat} (x : (⟨2, ![R, N]⟩ : Shape).Idx → α)
    (h : (⟨2, ![R, N]⟩ : Shape).Slices ![k, 0] ⟨2, ![1, N]⟩) (z : Fin 1) (n : Fin N) :
    extractStridedSlice ⟨2, ![1, N]⟩ ![k, 0] x h (ix2 z n) = x (ix2 ⟨k, slice_row_lt h⟩ n) :=
  extractStridedSlice_apply _ x h _ _ (fun a => match a with
    | ⟨0, _⟩ => by have hz := z.isLt; show k = k + z.val; omega
    | ⟨1, _⟩ => by show n.val = 0 + n.val; omega)

theorem ext_ix2 {a b : ℕ} {f g : (⟨2, ![a, b]⟩ : Shape).Idx → α}
    (h : ∀ (r : Fin a) (n : Fin b), f (ix2 r n) = g (ix2 r n)) : f = g :=
  funext fun i => (congrArg f (eq_ix2 i)).trans ((h (i 0) (i 1)).trans (congrArg g (eq_ix2 i).symm))

-- Slab k of an [L, A, B] array, cut out and read as an [A, B] array.
theorem slab_eq {L A B k : ℕ} (x : (⟨3, ![L, A, B]⟩ : Shape).Idx → α)
    (h : (⟨3, ![L, A, B]⟩ : Shape).Slices ![k, 0, 0] ⟨3, ![1, A, B]⟩) (h' : (⟨3, ![1, A, B]⟩ : Shape).ShapeCasts ⟨2, ![A, B]⟩) (hk : k < L) :
    shapeCast ⟨2, ![A, B]⟩ (extractStridedSlice ⟨3, ![1, A, B]⟩ ![k, 0, 0] x h) h' = fun i => x (ix3 ⟨k, hk⟩ (i 0) (i 1)) :=
  ext_ix2 fun r n => (shapeCast_1ab_ab_apply _ _ r n).trans (extractStridedSlice_apply _ _ _ _ _ (fun a => match a with
    | ⟨0, _⟩ => rfl
    | ⟨1, _⟩ => by show r.val = 0 + r.val; omega
    | ⟨2, _⟩ => by show n.val = 0 + n.val; omega))

-- Row k of an [R, N] array, cut out, flattened, and laid down again as a [1, N] row.
theorem stackRow_eq {R N k : ℕ} (x : (⟨2, ![R, N]⟩ : Shape).Idx → α) (h : (⟨2, ![R, N]⟩ : Shape).Slices ![k, 0] ⟨2, ![1, N]⟩)
    (h1 : (⟨2, ![1, N]⟩ : Shape).ShapeCasts ⟨1, ![N]⟩) (h2 : (⟨1, ![N]⟩ : Shape).ShapeCasts ⟨2, ![1, N]⟩) :
    shapeCast ⟨2, ![1, N]⟩ (shapeCast ⟨1, ![N]⟩ (extractStridedSlice ⟨2, ![1, N]⟩ ![k, 0] x h) h1) h2
      = fun i => x (ix2 ⟨k, slice_row_lt h⟩ (i 1)) :=
  ext_ix2 fun r n => (shapeCast_a_1a_apply _ _ r n).trans ((shapeCast_1a_a_apply _ _ n).trans (extractStridedSlice_row _ _ 0 n))

theorem vecRow_eq {N : ℕ} (v : (⟨1, ![N]⟩ : Shape).Idx → α) (h : (⟨1, ![N]⟩ : Shape).ShapeCasts ⟨2, ![1, N]⟩) :
    shapeCast ⟨2, ![1, N]⟩ v h = fun i => v (ix1 (i 1)) :=
  ext_ix2 fun r n => shapeCast_a_1a_apply _ _ r n

theorem host_divf_apply {s : Shape} {φ : FTy} (a b : FVec Ideal s φ) (i : s.Idx) : Host.divf a b i = Ideal.div (a i) (b i) := rfl

end Cert.LibLayoutIx
-- ==== Proof.KI.Host.lean ====
import proofs.«137587_j59279138619792_1_alg».proof.Proof.Gen.KernelIdeal.Regions
import proofs.«137587_j59279138619792_1_alg».proof.Proof.Spec.Agg
import proofs.«137587_j59279138619792_1_alg».proof.Proof.LibLayoutIx
import Idealize.ShloMosaic.PureOps.Ideal.Laws

open scoped BigOperators

noncomputable section

namespace Cert.KernelIdeal.Gen

open Idealize.ShloMosaic Idealize.ShloMosaic.TcCoe Idealize.ShloMosaic.ValueIdx Idealize.SL.Sem

open Cert.LibLayoutIx (ext_ix2 slab_eq stackRow_eq vecRow_eq)

-- An array plus row k of a stacked [4, 128] array spread over the rows.
theorem addRow_eq {k : ℕ} (A : S50000x128.Idx → EReal) (x : S4x128.Idx → EReal) (h : S4x128.Slices ![k, 0] S1x128)
    (h1 : S1x128.ShapeCasts S128) (h2 : S128.BroadcastsInDim S1x128 (![1] : Fin 1 → Fin 2))
    (h3 : S1x128.BroadcastsInDim S50000x128 (![0, 1] : Fin 2 → Fin 2)) :
    addf (F := Ideal) (φ := .f32) A (broadcastInDim S50000x128 ![0, 1] h3 (broadcastInDim S1x128 ![1] h2
        (shapeCast S128 (extractStridedSlice S1x128 ![k, 0] x h) h1)))
      = fun i => A i + x (ix2 ⟨k, LibLayoutIx.slice_row_lt h⟩ (i 1)) :=
  ext_ix2 fun r n => congrArg (A (ix2 r n) + ·) ((LibLayoutIx.broadcastInDim_rows _ _ r n).trans
    ((LibLayoutIx.broadcastInDim_row _ _ 0 n).trans ((shapeCast_1a_a_apply _ _ n).trans (LibLayoutIx.extractStridedSlice_row _ _ 0 n))))

section Host
variable (Y : Valuation τ sig (Elt Ideal))

theorem host0_v3 : StableHlo.after hostOps0 Y (Proc.devRef .tc main_v3) = Spec.srcOf (Y main_arg1) := by
  dsimp only [hostOps0]
  after_results
  rfl

theorem host0_v6 : StableHlo.after hostOps0 Y (Proc.devRef .tc main_v6) = Spec.dstOf (Y main_arg1) := by
  dsimp only [hostOps0]
  after_results
  rfl

theorem host01_where (Z : Valuation τ sig (Elt Ideal)) :
    (StableHlo.after hostOps0_1 Z (Proc.devRef .tc main_v14) : S50000.Idx → EReal)
      = select (Z main_v12 : IVec S50000 1) (Z main_v13 : S50000.Idx → EReal)
          (broadcastInDim S50000 ![] bcast_S_S50000 (Z main_cst_2 : S_.Idx → EReal)) := by
  dsimp only [hostOps0_1]
  after_results
  rfl

theorem host0_v12 : (StableHlo.after hostOps0 Y (Proc.devRef .tc main_v12) : IVec S50000 1)
    = cmpf (F := Ideal) (φ := .f32) .ogt (Spec.degOf (Spec.dstOf (Y main_arg1)))
        (broadcastInDim S50000 ![] bcast_S_S50000 (constant (F := Ideal) S_ .f32 0x00000000#32)) := by
  dsimp only [hostOps0]
  after_results
  rfl

theorem host0_v13 : (StableHlo.after hostOps0 Y (Proc.devRef .tc main_v13) : S50000.Idx → EReal)
    = Host.rsqrt (F := Ideal) (φ := .f32) (Spec.degOf (Spec.dstOf (Y main_arg1))) := by
  dsimp only [hostOps0]
  after_results
  rfl

theorem host0_cst_2 : (StableHlo.after hostOps0 Y (Proc.devRef .tc main_cst_2) : S_.Idx → EReal)
    = constant (F := Ideal) S_ .f32 0x00000000#32 := by
  dsimp only [hostOps0]
  after_results

theorem host01_v14 : StableHlo.after hostOps0_1 (StableHlo.after hostOps0 Y) (Proc.devRef .tc main_v14)
    = Spec.dinvOf (Spec.degOf (Spec.dstOf (Y main_arg1))) := by
  refine (host01_where (StableHlo.after hostOps0 Y)).trans ?_
  rw [show (StableHlo.after hostOps0 Y main_v12 : IVec S50000 1) = _ from host0_v12 Y,
    show (StableHlo.after hostOps0 Y main_v13 : S50000.Idx → EReal) = _ from host0_v13 Y,
    show (StableHlo.after hostOps0 Y main_cst_2 : S_.Idx → EReal) = _ from host0_cst_2 Y]
  rfl

theorem host02_v29 : StableHlo.after hostOps0_2 Y (Proc.devRef .tc main_v29)
    = Spec.normWith (Y main_v3) (Y main_v6) (Y main_v14) := by
  dsimp only [hostOps0_2]
  after_results_simp
  rfl

theorem host02_v30 : (StableHlo.after hostOps0_2 Y (Proc.devRef .tc main_v30) : S1x128.Idx → EReal)
    = fun i => Y main_arg4 (ix1 (i 1)) := by
  dsimp only [hostOps0_2]
  after_results
  exact vecRow_eq _ _

theorem host1_w : (StableHlo.after hostOps1 Y (Proc.devRef .tc main_v34) : S128x128.Idx → EReal)
    = fun i => Y main_arg5 (ix3 0 (i 0) (i 1)) := by
  dsimp only [hostOps1]
  after_results
  exact slab_eq _ _ _ (by decide)

theorem host1_v32 : (StableHlo.after hostOps1 Y (Proc.devRef .tc main_v32) : S128.Idx → EReal) = fun _ => (0 : EReal) := by
  dsimp only [hostOps1]
  after_results
  funext i
  rw [LibLayoutIx.broadcastInDim_scalar, constant_apply, Ideal.ofBits_zero_f32]

theorem host1_zb : (StableHlo.after hostOps1 Y (Proc.devRef .tc main_v35) : S1x128.Idx → EReal) = fun _ => (0 : EReal) := by
  dsimp only [hostOps1]
  after_results
  refine ext_ix2 fun r n => ?_
  refine (shapeCast_a_1a_apply _ _ r n).trans ?_
  rw [LibLayoutIx.broadcastInDim_scalar, constant_apply, Ideal.ofBits_zero_f32]

theorem host2_hraw : (StableHlo.after hostOps2 Y (Proc.devRef .tc main_v54) : S50000x128.Idx → EReal)
    = fun i => Spec.aggWith (Y main_v3) (Y main_v6) (Y main_v29) (Y main_v36) i + Y main_arg6 (ix2 0 (i 1)) := by
  dsimp only [hostOps2]
  after_results_simp
  exact addRow_eq _ _ _ _ _ _

theorem host3_g : (StableHlo.after hostOps3 Y (Proc.devRef .tc main_v58) : S1x128.Idx → EReal) = fun i => Y main_arg7 (ix2 0 (i 1)) := by
  dsimp only [hostOps3]
  after_results
  exact stackRow_eq _ _ _ _

theorem host3_b : (StableHlo.after hostOps3 Y (Proc.devRef .tc main_v61) : S1x128.Idx → EReal) = fun i => Y main_arg8 (ix2 0 (i 1)) := by
  dsimp only [hostOps3]
  after_results
  exact stackRow_eq _ _ _ _

theorem host4_w : (StableHlo.after hostOps4 Y (Proc.devRef .tc main_v64) : S128x128.Idx → EReal)
    = fun i => Y main_arg5 (ix3 1 (i 0) (i 1)) := by
  dsimp only [hostOps4]
  after_results
  exact slab_eq _ _ _ (by decide)

theorem host4_zb : (StableHlo.after hostOps4 Y (Proc.devRef .tc main_v65) : S1x128.Idx → EReal) = fun i => Y main_v32 (ix1 (i 1)) := by
  dsimp only [hostOps4]
  after_results
  exact vecRow_eq _ _

theorem host5_hraw : (StableHlo.after hostOps5 Y (Proc.devRef .tc main_v84) : S50000x128.Idx → EReal)
    = fun i => Spec.aggWith (Y main_v3) (Y main_v6) (Y main_v29) (Y main_v66) i + Y main_arg6 (ix2 1 (i 1)) := by
  dsimp only [hostOps5]
  after_results_simp
  exact addRow_eq _ _ _ _ _ _

theorem host6_g : (StableHlo.after hostOps6 Y (Proc.devRef .tc main_v88) : S1x128.Idx → EReal) = fun i => Y main_arg7 (ix2 1 (i 1)) := by
  dsimp only [hostOps6]
  after_results
  exact stackRow_eq _ _ _ _

theorem host6_b : (StableHlo.after hostOps6 Y (Proc.devRef .tc main_v91) : S1x128.Idx → EReal) = fun i => Y main_arg8 (ix2 1 (i 1)) := by
  dsimp only [hostOps6]
  after_results
  exact stackRow_eq _ _ _ _

theorem host7_w : (StableHlo.after hostOps7 Y (Proc.devRef .tc main_v94) : S128x128.Idx → EReal)
    = fun i => Y main_arg5 (ix3 2 (i 0) (i 1)) := by
  dsimp only [hostOps7]
  after_results
  exact slab_eq _ _ _ (by decide)

theorem host7_zb : (StableHlo.after hostOps7 Y (Proc.devRef .tc main_v95) : S1x128.Idx → EReal) = fun i => Y main_v32 (ix1 (i 1)) := by
  dsimp only [hostOps7]
  after_results
  exact vecRow_eq _ _

theorem host8_hraw : (StableHlo.after hostOps8 Y (Proc.devRef .tc main_v114) : S50000x128.Idx → EReal)
    = fun i => Spec.aggWith (Y main_v3) (Y main_v6) (Y main_v29) (Y main_v96) i + Y main_arg6 (ix2 2 (i 1)) := by
  dsimp only [hostOps8]
  after_results_simp
  exact addRow_eq _ _ _ _ _ _

theorem host9_g : (StableHlo.after hostOps9 Y (Proc.devRef .tc main_v118) : S1x128.Idx → EReal) = fun i => Y main_arg7 (ix2 2 (i 1)) := by
  dsimp only [hostOps9]
  after_results
  exact stackRow_eq _ _ _ _

theorem host9_b : (StableHlo.after hostOps9 Y (Proc.devRef .tc main_v121) : S1x128.Idx → EReal) = fun i => Y main_arg8 (ix2 2 (i 1)) := by
  dsimp only [hostOps9]
  after_results
  exact stackRow_eq _ _ _ _

theorem host10_w : (StableHlo.after hostOps10 Y (Proc.devRef .tc main_v124) : S128x128.Idx → EReal)
    = fun i => Y main_arg5 (ix3 3 (i 0) (i 1)) := by
  dsimp only [hostOps10]
  after_results
  exact slab_eq _ _ _ (by decide)

theorem host10_zb : (StableHlo.after hostOps10 Y (Proc.devRef .tc main_v125) : S1x128.Idx → EReal) = fun i => Y main_v32 (ix1 (i 1)) := by
  dsimp only [hostOps10]
  after_results
  exact vecRow_eq _ _

theorem host11_hraw : (StableHlo.after hostOps11 Y (Proc.devRef .tc main_v144) : S50000x128.Idx → EReal)
    = fun i => Spec.aggWith (Y main_v3) (Y main_v6) (Y main_v29) (Y main_v126) i + Y main_arg6 (ix2 3 (i 1)) := by
  dsimp only [hostOps11]
  after_results_simp
  exact addRow_eq _ _ _ _ _ _

theorem host12_g : (StableHlo.after hostOps12 Y (Proc.devRef .tc main_v148) : S1x128.Idx → EReal) = fun i => Y main_arg7 (ix2 3 (i 1)) := by
  dsimp only [hostOps12]
  after_results
  exact stackRow_eq _ _ _ _

theorem host12_b : (StableHlo.after hostOps12 Y (Proc.devRef .tc main_v151) : S1x128.Idx → EReal) = fun i => Y main_arg8 (ix2 3 (i 1)) := by
  dsimp only [hostOps12]
  after_results
  exact stackRow_eq _ _ _ _

theorem host13_v153 : (StableHlo.after hostOps13 Y (Proc.devRef .tc main_v153) : S1x10.Idx → EReal)
    = fun i => Y main_arg10 (ix1 (i 1)) := by
  dsimp only [hostOps13]
  after_results
  exact vecRow_eq _ _

end Host

end Cert.KernelIdeal.Gen

end
-- ==== Proof.KI.R1Val.lean ====
import proofs.«137587_j59279138619792_1_alg».proof.Proof.KI.R1
import Idealize.ShloMosaic.PureOps.Ideal.Laws
import Idealize.ShloMosaic.Lib.ValueIdx
import Idealize.ShloMosaic.Lib.Pipeline.Value

noncomputable section

namespace Cert.KernelIdeal.Gen

open Idealize.ShloMosaic Idealize.ShloMosaic.TcCoe Idealize.ShloMosaic.ValueIdx Idealize.SL.Sem

theorem k1_pay1_apply (x0 : Vec Ideal S2000x128 .f32) (x1 : Vec Ideal S128x128 .f32) (x2 : Vec Ideal S1x128 .f32)
    (p : Fin 2000) (q : Fin 128) :
    k1_pay1 (F := Ideal) x0 x1 x2 (ix2 p q) = (∑ k : Fin 128, x0 (ix2 p k) * x1 (ix2 k q)) + x2 (ix2 0 q) := by
  dsimp only [k1_pay1]
  rw [addf_apply]
  simp only [matmul]
  rw [Ideal.matmul_constant_zero_apply]
  simp only [shapeCast_self]
  rw [broadcastTo_apply x2 broadcasts_S1x128_S2000x128 (ix2 p q) (ix2 0 q)
      (fun a => by match a with | ⟨0, _⟩ => rfl | ⟨1, _⟩ => rfl),
    ← Equiv.sum_comp (contrEquiv1 dot_S2000x128_S128x128_S2000x128_1_0_0_1_n_n 128 rfl rfl).symm]
  have e := contrEquiv1_symm_val dot_S2000x128_S128x128_S2000x128_1_0_0_1_n_n 128 rfl rfl
  exact congrArg (· + x2 (ix2 0 q)) (Finset.sum_congr rfl fun k _ => congrArg₂ (· * ·)
    (congrArg x0 (Shape.idx_ext₂ rfl (e k))) (congrArg x1 (Shape.idx_ext₂ (e k) rfl)))

theorem hz : (![0, 0] : Fin 2 → Nat) = fun _ => 0 := funext fun a => by fin_cases a <;> rfl

theorem out1_3_eq (x0 : Vec Ideal S2000x128 .f32) (x1 : Vec Ideal S128x128 .f32) (x2 : Vec Ideal S1x128 .f32) :
    out1_3 (F := Ideal) x0 x1 x2 = k1_pay1 x0 x1 x2 := by
  unfold out1_3
  rw [View.canon_unit_zero hz]
  simp only [View.ld_unit_zero (S := S2000x128) hz, View.ld_unit_zero (S := S128x128) hz, View.ld_unit_zero (S := S1x128) hz]

theorem cut1_3 (t : Fin cfg1.N) (X : Vec Ideal S2000x128 .f32) : (cfg1.win 3).cut (grid1.coords t) X = X := rfl

def G1 (a0 : Vec Ideal S50000x128 .f32) (a1 : Vec Ideal S128x128 .f32) (a2 : Vec Ideal S1x128 .f32) : Vec Ideal S50000x128 .f32 :=
  fun i => (∑ k : Fin 128, a0 (ix2 (i 0) k) * a1 (ix2 k (i 1))) + a2 (ix2 0 (i 1))

theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The payload of row tile t of the first array and the other two whole is block t of G1. -/
theorem mm_blk1 (A0 : Vec Ideal S50000x128 .f32) (A1 : Vec Ideal S128x128 .f32) (A2 : Vec Ideal S1x128 .f32) (t : Fin cfg1.N) :
    k1_pay1 (F := Ideal) (((cfg1.win 0).blk t).view.read (Elt Ideal) A0)
      (((cfg1.win 1).blk t).view.read (Elt Ideal) A1) (((cfg1.win 2).blk t).view.read (Elt Ideal) A2)
    = ((cfg1.win 3).blk t).view.read (Elt Ideal) (G1 A0 A1 A2) := by
  obtain ⟨e0, e1, e2, e3, e4, e5, e6, e7⟩ := idx_facts1 t
  funext j
  obtain ⟨p, q, rfl⟩ : ∃ (p : Fin 2000) (q : Fin 128), j = ix2 p q := ⟨j 0, j 1, eq_ix2 j⟩
  have h0 : ∀ k : Fin 128, ((cfg1.win 0).blk t).view.emb (ix2 p k) = ix2 ((((cfg1.win 3).blk t).view.emb (ix2 p q)) 0) k :=
    fun k => Shape.idx_ext₂
      (by show win1_0.index t (0 : Fin 2) * 2000 + 1 * p.val = win1_3.index t (0 : Fin 2) * 2000 + 1 * p.val; omega)
      (by show win1_0.index t (1 : Fin 2) * 128 + 1 * k.val = k.val; omega)
  have h1 : ∀ k : Fin 128, ((cfg1.win 1).blk t).view.emb (ix2 k q) = ix2 k ((((cfg1.win 3).blk t).view.emb (ix2 p q)) 1) :=
    fun k => Shape.idx_ext₂
      (by show win1_1.index t (0 : Fin 2) * 128 + 1 * k.val = k.val; omega)
      (by show win1_1.index t (1 : Fin 2) * 128 + 1 * q.val = win1_3.index t (1 : Fin 2) * 128 + 1 * q.val; omega)
  have h2 : ((cfg1.win 2).blk t).view.emb (ix2 (0 : Fin 1) q) = ix2 (0 : Fin 1) ((((cfg1.win 3).blk t).view.emb (ix2 p q)) 1) :=
    Shape.idx_ext₂
      (by show win1_2.index t (0 : Fin 2) * 1 + 1 * 0 = 0; omega)
      (by show win1_2.index t (1 : Fin 2) * 128 + 1 * q.val = win1_3.index t (1 : Fin 2) * 128 + 1 * q.val; omega)
  rw [k1_pay1_apply]
  show (∑ k : Fin 128, A0 (((cfg1.win 0).blk t).view.emb (ix2 p k)) * A1 (((cfg1.win 1).blk t).view.emb (ix2 k q)))
      + A2 (((cfg1.win 2).blk t).view.emb (ix2 (0 : Fin 1) q)) = G1 A0 A1 A2 (((cfg1.win 3).blk t).view.emb (ix2 p q))
  exact congrArg₂ (· + ·) (Finset.sum_congr rfl fun k _ => congrArg₂ (· * ·) (congrArg A0 (h0 k)) (congrArg A1 (h1 k)))
    (congrArg A2 h2)

/-- Row r lies in row tile r / 2000, and a tile has every column. -/
theorem row_tile_mem {n : ℕ} (i : (⟨2, ![50000, n]⟩ : Shape).Idx) (idx : Fin 2 → ℕ)
    (h0 : idx 0 = (i 0).val / 2000) (h1 : idx 1 = 0) (a : Fin 2) :
    idx a * (![2000, n] : Fin 2 → ℕ) a ≤ (i a).val ∧ (i a).val < idx a * (![2000, n] : Fin 2 → ℕ) a + (![2000, n] : Fin 2 → ℕ) a := by
  have hi1 : (i 1).val < n := idx2_lt1 i
  match a with
  | ⟨0, _⟩ => show idx 0 * 2000 ≤ (i 0).val ∧ (i 0).val < idx 0 * 2000 + 2000; omega
  | ⟨1, _⟩ => show idx 1 * n ≤ (i 1).val ∧ (i 1).val < idx 1 * n + n; rw [h1]; omega

theorem cover1 (i : S50000x128.Idx) :
    ∃ t : Fin cfg1.N, (cfg1.win 3).flush t = true ∧ i ∈ ((cfg1.win 3).blk t).view.set := by
  have ht : (i 0).val / 2000 < 25 := by have := idx2_lt0 i; omega
  obtain ⟨-, -, -, -, -, -, e6, e7⟩ := idx_facts1 ⟨_, ht⟩
  refine ⟨⟨_, ht⟩, flush1_3 _, ?_⟩
  show i ∈ ((View.whole main_v36).slice (win1_3.rect ⟨_, ht⟩)).set
  rw [View.set_slice_whole]
  exact Rect.mem_set_unit.mpr (row_tile_mem i _ e6 e7)

section Region1

variable (V : (c : Dev nD) → (b : Ref sig .tc) → Buf (Elt Ideal) ((c : Thread nD τ).loc b))

abbrev inArr1_0 (c : Dev nD) : S50000x128.Idx → EReal := V c main_v31
abbrev inArr1_1 (c : Dev nD) : S128x128.Idx → EReal := V c main_v34
abbrev inArr1_2 (c : Dev nD) : S1x128.Idx → EReal := V c main_v35

theorem out1_eq (c : Dev nD) :
    (dat1 (F := Ideal) V c).arrAt 3 cfg1.N
      = fun i : S50000x128.Idx => (∑ k : Fin 128, inArr1_0 V c (ix2 (i 0) k) * inArr1_1 V c (ix2 k (i 1))) + inArr1_2 V c (ix2 0 (i 1)) :=
  (dat1 V c).arrAt_eq_of_cover 3 (G1 (V c main_v31) (V c main_v34) (V c main_v35))
    (fun t _ => (congrArg ((cfg1.win 3).cut (grid1.coords t)) ((after1_3 V c t).trans (out1_3_eq _ _ _))).trans ((cut1_3 t _).trans (mm_blk1 _ _ _ t)))
    cover1

end Region1

end Cert.KernelIdeal.Gen

end
-- ==== Proof.KI.R0Val.lean ====
import proofs.«137587_j59279138619792_1_alg».proof.Proof.KI.R0
import proofs.«137587_j59279138619792_1_alg».proof.Proof.KI.R1Val

namespace Cert.KernelIdeal.Gen

open Idealize.ShloMosaic Idealize.ShloMosaic.TcCoe Idealize.ShloMosaic.ValueIdx Idealize.SL.Sem

theorem out0_3_eq (x0 : Vec Ideal S2000x128 .f32) (x1 : Vec Ideal S128x128 .f32) (x2 : Vec Ideal S1x128 .f32) :
    out0_3 (F := Ideal) x0 x1 x2 = k1_pay1 x0 x1 x2 := by
  unfold out0_3
  rw [View.canon_unit_zero hz]
  simp only [View.ld_unit_zero (S := S2000x128) hz, View.ld_unit_zero (S := S128x128) hz, View.ld_unit_zero (S := S1x128) hz,
    k0_pay1, k1_pay1, shapeCast_self]

section Region0

variable (V : (c : Dev nD) → (b : Ref sig .tc) → Buf (Elt Ideal) ((c : Thread nD τ).loc b))

abbrev inArr0_0 (c : Dev nD) : S50000x128.Idx → EReal := V c main_arg0
abbrev inArr0_1 (c : Dev nD) : S128x128.Idx → EReal := V c main_arg3
abbrev inArr0_2 (c : Dev nD) : S1x128.Idx → EReal := V c main_v30

theorem out0_eq (c : Dev nD) :
    (dat0 (F := Ideal) V c).arrAt 3 cfg0.N
      = fun i : S50000x128.Idx => (∑ k : Fin 128, inArr0_0 V c (ix2 (i 0) k) * inArr0_1 V c (ix2 k (i 1))) + inArr0_2 V c (ix2 0 (i 1)) :=
  (dat0 V c).arrAt_eq_of_cover 3 (G1 (V c main_arg0) (V c main_arg3) (V c main_v30))
    (fun t _ => (congrArg ((cfg0.win 3).cut (grid0.coords t)) ((after0_3 V c t).trans (out0_3_eq _ _ _))).trans ((cut1_3 t _).trans (mm_blk1 _ _ _ t)))
    cover1

end Region0

end Cert.KernelIdeal.Gen
-- ==== Proof.KI.R2Val.lean ====
import proofs.«137587_j59279138619792_1_alg».proof.Proof.KI.R2
import Idealize.ShloMosaic.Lib.Pipeline.Value
import Idealize.ShloMosaic.Lib.ValueIdx
import Idealize.ShloMosaic.PureOps.Ideal.Laws
import Idealize.ShloMosaic.PureOps.IdealRules
import Mathlib.Algebra.BigOperators.Intervals

noncomputable section

namespace Cert.KernelIdeal.Gen

open Idealize.ShloMosaic Idealize.ShloMosaic.TcCoe Idealize.ShloMosaic.ValueIdx Idealize.SL.Sem
open Finset (range)

/-- Entry (r, j) for a natural number r, and 0 once r is past the last row, so that sums over ranges of rows make sense. -/
def colAt (M : S50000x128.Idx → EReal) (j : Fin 128) (r : ℕ) : EReal :=
  if h : r < 50000 then M (ix2 ⟨r, h⟩ j) else 0

theorem sum_colAt (M : S50000x128.Idx → EReal) (j : Fin 128) :
    ∑ r ∈ range 50000, colAt M j r = ∑ r : Fin 50000, M (ix2 r j) := by
  rw [Finset.sum_range]
  exact Finset.sum_congr rfl fun r _ => dif_pos r.isLt

theorem row_lt (t : ℕ) (ht : t < 25) (y : S2000x128.Idx) : 2000 * t + (y 0).val < 50000 := by
  have : (y 0).val < 2000 := (y 0).isLt
  omega

abbrev rowIx (j : Fin 128) : S1x128.Idx := ix2 (0 : Fin 1) j

theorem eq_rowIx (i : S1x128.Idx) : i = rowIx (i 1) :=
  Shape.idx_ext₂ (by have : (i 0).val < 1 := (i 0).isLt; show (i 0).val = 0; omega) rfl

theorem k2_pay1_apply (i : S1x128.Idx) : k2_pay1 (F := Ideal) i = 0 := by
  unfold k2_pay1
  simp only [shapeCast_self]
  exact Ideal.ofBits_zero_f32

theorem k2_pay2_eq : k2_pay2 (F := Ideal) = k2_pay1 := rfl

/-- One step of the column sums: the accumulator row plus the tile's column sums. -/
theorem k2_pay4_apply (x : Vec Ideal S2000x128 .f32) (a : Vec Ideal S1x128 .f32) (j : Fin 128) :
    k2_pay4 x a (rowIx j) = a (rowIx j) + ∑ y : Fin 2000, x (ix2 y j) := by
  unfold k2_pay4 k2_pay3
  simp only [shapeCast_self]
  show a (rowIx j) + shapeCast S1x128 _ shapeCasts_S128_S1x128 (rowIx j) = _
  rw [shapeCast_addUnit_apply]
  congr 1
  exact (Ideal.multiReduction_add_single (s := S2000x128) (t := S128) (a := 0) x _ reduces_S2000x128_S128 _ _ _).trans
    (Finset.sum_congr rfl fun k _ => congrArg x (Shape.idx_ext₂ rfl rfl))

theorem k2_pay5_eq (x : Vec Ideal S2000x128 .f32) (a : Vec Ideal S1x128 .f32) : k2_pay5 x a = k2_pay4 (mulf x x) a := by
  simp only [k2_pay5, k2_pay4, k2_pay3, shapeCast_self]

theorem k2_pay6_apply (s : Vec Ideal S1x128 .f32) (i : S1x128.Idx) :
    k2_pay6 s i = s i * ((1 / 50000 : ℝ) : EReal) :=
  congrArg (s i * ·) (IdealRules.named_const.ideal_named_scalar _ _ _ _ rfl)

theorem k2_pay7_apply (s q : Vec Ideal S1x128 .f32) (i : S1x128.Idx) :
    k2_pay7 s q i = q i * ((1 / 50000 : ℝ) : EReal)
      - (s i * ((1 / 50000 : ℝ) : EReal)) * (s i * ((1 / 50000 : ℝ) : EReal)) := by
  show q i * Named.named (F := Ideal) κ "inv_50000" (φ := .f32) 0x37A7C5AC#32 - k2_pay6 s i * k2_pay6 s i = _
  rw [k2_pay6_apply, IdealRules.named_const.ideal_named_scalar _ _ _ _ rfl]

theorem tile_sum (M : S50000x128.Idx → EReal) (x : S2000x128.Idx → EReal) (t : ℕ) (ht : t < 25)
    (hx : ∀ y : S2000x128.Idx, x y = M (ix2 ⟨2000 * t + (y 0).val, row_lt t ht y⟩ (y 1))) (j : Fin 128) :
    ∑ y : Fin 2000, x (ix2 y j) = ∑ y ∈ range 2000, colAt M j (2000 * t + y) := by
  rw [Finset.sum_range]
  refine Finset.sum_congr rfl fun y _ => ?_
  rw [hx, colAt, dif_pos]

/-- Adding tile t's column sums to the sums over the rows before it gives the sums over the rows through it. -/
theorem pay4_step (M : S50000x128.Idx → EReal) (x : Vec Ideal S2000x128 .f32) (t : ℕ) (ht : t < 25)
    (hx : ∀ y : S2000x128.Idx, x y = M (ix2 ⟨2000 * t + (y 0).val, row_lt t ht y⟩ (y 1)))
    (s : Vec Ideal S1x128 .f32) (j : Fin 128) (hs : s (rowIx j) = ∑ r ∈ range (2000 * t), colAt M j r) :
    k2_pay4 x s (rowIx j) = ∑ r ∈ range (2000 * (t + 1)), colAt M j r := by
  rw [k2_pay4_apply, hs, tile_sum M x t ht hx, show 2000 * (t + 1) = 2000 * t + 2000 from by ring, Finset.sum_range_add]

section Acc

variable (M : S50000x128.Idx → EReal) (x : (n : ℕ) → n < 25 → Vec Ideal S2000x128 .f32)
  (hx : ∀ (n : ℕ) (h : n < 25) (y : S2000x128.Idx), x n h y = M (ix2 ⟨2000 * n + (y 0).val, row_lt n h y⟩ (y 1)))
  (acc : (n : ℕ) → n < 25 → Vec Ideal S1x128 .f32 × Vec Ideal S1x128 .f32)
  (h0 : ∀ h : 0 < 25, acc 0 h = (k2_pay4 (x 0 h) (k2_pay1 (F := Ideal)), k2_pay5 (x 0 h) (k2_pay2 (F := Ideal))))
  (hs : ∀ (n : ℕ) (h : n + 1 < 25), acc (n + 1) h
    = (k2_pay4 (x (n + 1) h) (acc n (Nat.lt_of_succ_lt h)).1, k2_pay5 (x (n + 1) h) (acc n (Nat.lt_of_succ_lt h)).2))
include hx h0 hs

/-- After tile n the two accumulator rows hold the column sums, and the column sums of squares, over rows below 2000 (n + 1). -/
theorem acc_eq (j : Fin 128) : ∀ (n : ℕ) (h : n < 25),
    (acc n h).1 (rowIx j) = ∑ r ∈ range (2000 * (n + 1)), colAt M j r
    ∧ (acc n h).2 (rowIx j) = ∑ r ∈ range (2000 * (n + 1)), colAt (fun k => M k * M k) j r
  | 0, h => by
    rw [h0, k2_pay5_eq]
    exact ⟨pay4_step M _ 0 h (hx 0 h) _ j (by rw [k2_pay1_apply, Nat.mul_zero, Finset.range_zero, Finset.sum_empty]),
      pay4_step _ _ 0 h (fun y => by rw [mulf_apply, hx]) _ j
        (by rw [k2_pay2_eq, k2_pay1_apply, Nat.mul_zero, Finset.range_zero, Finset.sum_empty])⟩
  | n + 1, h => by
    obtain ⟨ih1, ih2⟩ := acc_eq j n (Nat.lt_of_succ_lt h)
    rw [hs, k2_pay5_eq]
    exact ⟨pay4_step M _ (n + 1) h (hx _ h) _ j ih1, pay4_step _ _ (n + 1) h (fun y => by rw [mulf_apply, hx]) _ j ih2⟩

theorem acc_last (j : Fin 128) :
    (acc 24 (by decide)).1 (rowIx j) = ∑ r : Fin 50000, M (ix2 r j)
    ∧ (acc 24 (by decide)).2 (rowIx j) = ∑ r : Fin 50000, M (ix2 r j) * M (ix2 r j) := by
  obtain ⟨h1, h2⟩ := acc_eq M x hx acc h0 hs j 24 (by decide)
  exact ⟨h1.trans (sum_colAt M j), h2.trans (sum_colAt (fun k => M k * M k) j)⟩

theorem mean_eq (i : S1x128.Idx) :
    k2_pay6 (acc 24 (by decide)).1 i = (∑ r : Fin 50000, M (ix2 r (i 1))) * ((1 / 50000 : ℝ) : EReal) :=
  (congrArg (k2_pay6 (acc 24 (by decide)).1) (eq_rowIx i)).trans
    (by rw [k2_pay6_apply, (acc_last M x hx acc h0 hs (i 1)).1])

theorem var_eq (i : S1x128.Idx) :
    k2_pay7 (acc 24 (by decide)).1 (acc 24 (by decide)).2 i
      = (∑ r : Fin 50000, M (ix2 r (i 1)) * M (ix2 r (i 1))) * ((1 / 50000 : ℝ) : EReal)
        - ((∑ r : Fin 50000, M (ix2 r (i 1))) * ((1 / 50000 : ℝ) : EReal))
          * ((∑ r : Fin 50000, M (ix2 r (i 1))) * ((1 / 50000 : ℝ) : EReal)) :=
  (congrArg (k2_pay7 (acc 24 (by decide)).1 (acc 24 (by decide)).2) (eq_rowIx i)).trans
    (by rw [k2_pay7_apply, (acc_last M x hx acc h0 hs (i 1)).1, (acc_last M x hx acc h0 hs (i 1)).2])

end Acc

theorem tile_index2 : ∀ t : Fin cfg2.N, win2_0.index t (0 : Fin 2) = t.val ∧ win2_0.index t (1 : Fin 2) = 0 :=
  (by decide +kernel : ∀ t : Fin grid2.N, _)

/-- Block n of the array is its rows 2000 n .. 2000 n + 1999, with every column. -/
theorem tile2_apply (A : Vec Ideal S50000x128 .f32) (n : ℕ) (h : n < 25) (y : S2000x128.Idx) :
    ((cfg2.win 0).blk ⟨n, h⟩).view.read (Elt Ideal) A y = A (ix2 ⟨2000 * n + (y 0).val, row_lt n h y⟩ (y 1)) := by
  obtain ⟨(e0 : win2_0.index ⟨n, h⟩ 0 = n), e1⟩ := tile_index2 ⟨n, h⟩
  rw [View.read_apply]
  exact congrArg A (Shape.idx_ext₂
    (by show win2_0.index ⟨n, h⟩ 0 * 2000 + 1 * (y 0).val = 2000 * n + (y 0).val; omega)
    (by show win2_0.index ⟨n, h⟩ 1 * 128 + 1 * (y 1).val = (y 1).val; omega))

abbrev last2 : Fin cfg2.N := ⟨24, by decide⟩

theorem hz_last2 : (fun a => win2_1.index last2 a * main_v55_0.ty.shape.size a) = fun _ => 0 :=
  funext fun a => by fin_cases a <;> decide +kernel

/-- At the last point the block index is 0 on both axes, so the block is the whole row. -/
theorem last_blk2 (R : Fin cfg2.N → Vec Ideal S1x128 .f32) (t : Fin cfg2.N) (hf : (cfg2.win 1).flush t = true) :
    (cfg2.win 1).cut (grid2.coords t) (R t) = ((cfg2.win 1).blk t).view.read (Elt Ideal) (R last2) := by
  obtain rfl : t = last2 :=
    Fin.ext (by have := (flush2_1 t).mp hf; have : t.val < 25 := t.isLt; show t.val = 24; omega)
  exact (Memref.read_access_unit_zero (Elt Ideal) main_v55_0 hz_last2 (fun a => by rw [congrFun hz_last2 a]; simp) _).symm

theorem cover_row2 (i : S1x128.Idx) :
    ∃ t : Fin cfg2.N, (cfg2.win 1).flush t = true ∧ i ∈ ((cfg2.win 1).blk t).view.set := by
  refine ⟨last2, (flush2_1 _).mpr rfl, ?_⟩
  show i ∈ ((View.whole main_v55_0).slice (win2_1.rect last2)).set
  rw [View.set_slice_whole]
  exact View.mem_set_unit_zero hz_last2 (fun a => by rw [congrFun hz_last2 a]; simp) i

section Value2

variable (V : (c : Dev nD) → (b : Ref sig .tc) → Buf (Elt Ideal) ((c : Thread nD τ).loc b))

abbrev inArr2 (c : Dev nD) : S50000x128.Idx → EReal := V c main_v54

theorem mean2_eq (c : Dev nD) : (dat2 V c).arrAt 1 cfg2.N
    = fun i : S1x128.Idx => (∑ r : Fin 50000, inArr2 V c (ix2 r (i 1))) * ((1 / 50000 : ℝ) : EReal) :=
  ((dat2 V c).arrAt_eq_of_cover 1 _ (fun t hf => (congrArg ((cfg2.win 1).cut (grid2.coords t)) (after2_1 V c t)).trans
    (last_blk2 (fun t => k2_pay6 (accAt2 V c t t.isLt).1) t hf)) cover_row2).trans
  (funext fun i => mean_eq (inArr2 V c) _ (fun n h y => tile2_apply _ n h y) _ (accAt2_zero V c) (accAt2_succ V c) i)

theorem var2_eq (c : Dev nD) : (dat2 V c).arrAt 2 cfg2.N
    = fun i : S1x128.Idx => (∑ r : Fin 50000, inArr2 V c (ix2 r (i 1)) * inArr2 V c (ix2 r (i 1))) * ((1 / 50000 : ℝ) : EReal)
        - ((∑ r : Fin 50000, inArr2 V c (ix2 r (i 1))) * ((1 / 50000 : ℝ) : EReal))
          * ((∑ r : Fin 50000, inArr2 V c (ix2 r (i 1))) * ((1 / 50000 : ℝ) : EReal)) :=
  ((dat2 V c).arrAt_eq_of_cover 2 _ (fun t hf => (congrArg ((cfg2.win 2).cut (grid2.coords t)) (after2_2 V c t)).trans
    (last_blk2 (fun t => k2_pay7 (accAt2 V c t t.isLt).1 (accAt2 V c t t.isLt).2) t hf)) cover_row2).trans
  (funext fun i => var_eq (inArr2 V c) _ (fun n h y => tile2_apply _ n h y) _ (accAt2_zero V c) (accAt2_succ V c) i)

end Value2

end Cert.KernelIdeal.Gen

end
-- ==== Proof.KI.R3Val.lean ====
import proofs.«137587_j59279138619792_1_alg».proof.Proof.KI.R3
import proofs.«137587_j59279138619792_1_alg».proof.Proof.Spec.Net
import proofs.«137587_j59279138619792_1_alg».proof.Proof.KI.R1Val

noncomputable section

namespace Cert.KernelIdeal.Gen

open Idealize.ShloMosaic Idealize.ShloMosaic.TcCoe Idealize.ShloMosaic.ValueIdx Idealize.SL.Sem

theorem rowBroadcast_apply (x : Vec Ideal S1x128 .f32) (p : Fin 2000) (q : Fin 128) :
    broadcastTo S2000x128 x broadcasts_S1x128_S2000x128 (ix2 p q) = x (ix2 0 q) :=
  broadcastTo_apply x _ (ix2 p q) (ix2 0 q) (fun a => by match a with | ⟨0, _⟩ => rfl | ⟨1, _⟩ => rfl)

theorem k3_pay1_apply (v0 v21 : Vec Ideal S2000x128 .f32) (v2 v4 v6 v8 : Vec Ideal S1x128 .f32) (j : S2000x128.Idx) :
    k3_pay1 v0 v2 v4 v6 v8 v21 j
      = v21 j + max ((((v0 j - v2 (ix2 0 (j 1))) * Ideal.rsqrt (v4 (ix2 0 (j 1)) + Cert.Spec.eps)) * v6 (ix2 0 (j 1))) + v8 (ix2 0 (j 1))) 0 := by
  obtain ⟨p, q, rfl⟩ : ∃ (p : Fin 2000) (q : Fin 128), j = ix2 p q := ⟨j 0, j 1, eq_ix2 j⟩
  unfold k3_pay1
  simp only [shapeCast_self]
  rw [addf_apply, maximumf_apply, addf_apply, mulf_apply, mulf_apply, subf_apply,
    rowBroadcast_apply, rowBroadcast_apply, rowBroadcast_apply, rowBroadcast_apply, broadcast_apply]
  show _ + max ((((_ - _) * Ideal.rsqrt (v4 (ix2 0 q) + Ideal.ofBits .f32 0x3727C5AC#32)) * _) + _) (Ideal.ofBits .f32 0x00000000#32) = _
  rw [Ideal.ofBits_zero_f32]
  rfl

theorem out3_6_eq (x0 x1 : Vec Ideal S2000x128 .f32) (x2 x3 x4 x5 : Vec Ideal S1x128 .f32) :
    out3_6 (F := Ideal) x0 x1 x2 x3 x4 x5 = k3_pay1 x0 x2 x3 x4 x5 x1 := by
  unfold out3_6
  rw [View.canon_unit_zero hz]
  simp only [View.ld_unit_zero (S := S2000x128) hz, View.ld_unit_zero (S := S1x128) hz]

theorem cut3_6 (t : Fin cfg3.N) (X : Vec Ideal S2000x128 .f32) : (cfg3.win 6).cut (grid3.coords t) X = X := rfl

abbrev G3 (h hin : S50000x128.Idx → EReal) (mean var γ β : S1x128.Idx → EReal) : S50000x128.Idx → EReal := fun i =>
  hin i + max ((((h i - mean (ix2 0 (i 1))) * Ideal.rsqrt (var (ix2 0 (i 1)) + Cert.Spec.eps)) * γ (ix2 0 (i 1))) + β (ix2 0 (i 1))) 0

theorem idx_facts3 : ∀ t : Fin cfg3.N,
    win3_0.index t (0 : Fin 2) = win3_6.index t (0 : Fin 2) ∧ win3_0.index t (1 : Fin 2) = win3_6.index t (1 : Fin 2)
    ∧ win3_1.index t (0 : Fin 2) = win3_6.index t (0 : Fin 2) ∧ win3_1.index t (1 : Fin 2) = win3_6.index t (1 : Fin 2)
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The payload of row tile t of the two arrays and the four rows whole is block t of G3. -/
theorem bn_blk3 (h hin : Vec Ideal S50000x128 .f32) (mean var γ β : Vec Ideal S1x128 .f32) (t : Fin cfg3.N) :
    k3_pay1 (F := Ideal) (((cfg3.win 0).blk t).view.read (Elt Ideal) h) (((cfg3.win 2).blk t).view.read (Elt Ideal) mean) (((cfg3.win 3).blk t).view.read (Elt Ideal) var)
      (((cfg3.win 4).blk t).view.read (Elt Ideal) γ) (((cfg3.win 5).blk t).view.read (Elt Ideal) β) (((cfg3.win 1).blk t).view.read (Elt Ideal) hin)
    = ((cfg3.win 6).blk t).view.read (Elt Ideal) (G3 h hin mean var γ β) := by
  obtain ⟨e00, e01, e10, e11, e20, e21, e30, e31, e40, e41, e50, e51, e60, e61⟩ := idx_facts3 t
  funext j
  have h0 : ((cfg3.win 0).blk t).view.emb j = ((cfg3.win 6).blk t).view.emb j := Shape.idx_ext₂
    (by show win3_0.index t (0 : Fin 2) * 2000 + 1 * (j 0).val = win3_6.index t (0 : Fin 2) * 2000 + 1 * (j 0).val; omega)
    (by show win3_0.index t (1 : Fin 2) * 128 + 1 * (j 1).val = win3_6.index t (1 : Fin 2) * 128 + 1 * (j 1).val; omega)
  have h1 : ((cfg3.win 1).blk t).view.emb j = ((cfg3.win 6).blk t).view.emb j := Shape.idx_ext₂
    (by show win3_1.index t (0 : Fin 2) * 2000 + 1 * (j 0).val = win3_6.index t (0 : Fin 2) * 2000 + 1 * (j 0).val; omega)
    (by show win3_1.index t (1 : Fin 2) * 128 + 1 * (j 1).val = win3_6.index t (1 : Fin 2) * 128 + 1 * (j 1).val; omega)
  have hr : ∀ {i0 i1 : ℕ} (e : S1x128.Idx), i0 = 0 → i1 = 0 → (e 0).val = i0 * 1 + 1 * 0 → (e 1).val = i1 * 128 + 1 * (j 1).val →
      e = ix2 0 ((((cfg3.win 6).blk t).view.emb j) 1) := fun e _ _ a0 a1 => Shape.idx_ext₂
    (by show (e 0).val = 0; omega)
    (by show (e 1).val = win3_6.index t (1 : Fin 2) * 128 + 1 * (j 1).val; omega)
  have h2 := hr (((cfg3.win 2).blk t).view.emb (ix2 0 (j 1))) e20 e21 rfl rfl
  have h3 := hr (((cfg3.win 3).blk t).view.emb (ix2 0 (j 1))) e30 e31 rfl rfl
  have h4 := hr (((cfg3.win 4).blk t).view.emb (ix2 0 (j 1))) e40 e41 rfl rfl
  have h5 := hr (((cfg3.win 5).blk t).view.emb (ix2 0 (j 1))) e50 e51 rfl rfl
  rw [k3_pay1_apply]
  show hin (((cfg3.win 1).blk t).view.emb j)
      + max ((((h (((cfg3.win 0).blk t).view.emb j) - mean (((cfg3.win 2).blk t).view.emb (ix2 0 (j 1))))
          * Ideal.rsqrt (var (((cfg3.win 3).blk t).view.emb (ix2 0 (j 1))) + Cert.Spec.eps))
          * γ (((cfg3.win 4).blk t).view.emb (ix2 0 (j 1))))
          + β (((cfg3.win 5).blk t).view.emb (ix2 0 (j 1)))) 0 = _
  rw [h0, h1, h2, h3, h4, h5]
  rfl

section Region3

variable (V : (c : Dev nD) → (b : Ref sig .tc) → Buf (Elt Ideal) ((c : Thread nD τ).loc b))

theorem out3_eq (c : Dev nD) : (dat3 (F := Ideal) V c).arrAt 6 cfg3.N
    = G3 (V c main_v54) (V c main_v31) (V c main_v55_0) (V c main_v55_1) (V c main_v58) (V c main_v61) :=
  (dat3 V c).arrAt_eq_of_cover 6 _
    (fun t _ => (congrArg ((cfg3.win 6).cut (grid3.coords t)) ((after3_6 V c t).trans (out3_6_eq _ _ _ _ _ _))).trans
      ((cut3_6 t _).trans (bn_blk3 _ _ _ _ _ _ t))) cover1

end Region3

end Cert.KernelIdeal.Gen

end
-- ==== Proof.KI.R4Val.lean ====
import proofs.«137587_j59279138619792_1_alg».proof.Proof.KI.R4
import proofs.«137587_j59279138619792_1_alg».proof.Proof.KI.R1Val

namespace Cert.KernelIdeal.Gen

open Idealize.ShloMosaic Idealize.ShloMosaic.TcCoe Idealize.ShloMosaic.ValueIdx Idealize.SL.Sem

section Region4

variable (V : (c : Dev nD) → (b : Ref sig .tc) → Buf (Elt Ideal) ((c : Thread nD τ).loc b))

abbrev inArr4_0 (c : Dev nD) : S50000x128.Idx → EReal := V c main_v62
abbrev inArr4_1 (c : Dev nD) : S128x128.Idx → EReal := V c main_v64
abbrev inArr4_2 (c : Dev nD) : S1x128.Idx → EReal := V c main_v65

theorem out4_eq (c : Dev nD) :
    (dat4 (F := Ideal) V c).arrAt 3 cfg4.N
      = fun i : S50000x128.Idx => (∑ k : Fin 128, inArr4_0 V c (ix2 (i 0) k) * inArr4_1 V c (ix2 k (i 1))) + inArr4_2 V c (ix2 0 (i 1)) :=
  (dat4 V c).arrAt_eq_of_cover 3 (G1 (V c main_v62) (V c main_v64) (V c main_v65))
    (fun t _ => (congrArg ((cfg4.win 3).cut (grid4.coords t)) ((after4_3 V c t).trans (out1_3_eq _ _ _))).trans ((cut1_3 t _).trans (mm_blk1 _ _ _ t)))
    cover1

end Region4

end Cert.KernelIdeal.Gen
-- ==== Proof.KI.R5Val.lean ====
import proofs.«137587_j59279138619792_1_alg».proof.Proof.KI.R5
import proofs.«137587_j59279138619792_1_alg».proof.Proof.KI.R2Val

namespace Cert.KernelIdeal.Gen

open Idealize.ShloMosaic Idealize.ShloMosaic.TcCoe Idealize.ShloMosaic.ValueIdx Idealize.SL.Sem

section Value5

variable (V : (c : Dev nD) → (b : Ref sig .tc) → Buf (Elt Ideal) ((c : Thread nD τ).loc b))

abbrev inArr5 (c : Dev nD) : S50000x128.Idx → EReal := V c main_v84

theorem mean5_eq (c : Dev nD) : (dat5 V c).arrAt 1 cfg5.N
    = fun i : S1x128.Idx => (∑ r : Fin 50000, inArr5 V c (ix2 r (i 1))) * ((1 / 50000 : ℝ) : EReal) :=
  ((dat5 V c).arrAt_eq_of_cover 1 _ (fun t hf => (congrArg ((cfg5.win 1).cut (grid5.coords t)) (after5_1 V c t)).trans
    (last_blk2 (fun t => k2_pay6 (accAt5 V c t t.isLt).1) t hf)) cover_row2).trans
  (funext fun i => mean_eq (inArr5 V c) _ (fun n h y => tile2_apply _ n h y) _ (accAt5_zero V c) (accAt5_succ V c) i)

theorem var5_eq (c : Dev nD) : (dat5 V c).arrAt 2 cfg5.N
    = fun i : S1x128.Idx => (∑ r : Fin 50000, inArr5 V c (ix2 r (i 1)) * inArr5 V c (ix2 r (i 1))) * ((1 / 50000 : ℝ) : EReal)
        - ((∑ r : Fin 50000, inArr5 V c (ix2 r (i 1))) * ((1 / 50000 : ℝ) : EReal))
          * ((∑ r : Fin 50000, inArr5 V c (ix2 r (i 1))) * ((1 / 50000 : ℝ) : EReal)) :=
  ((dat5 V c).arrAt_eq_of_cover 2 _ (fun t hf => (congrArg ((cfg5.win 2).cut (grid5.coords t)) (after5_2 V c t)).trans
    (last_blk2 (fun t => k2_pay7 (accAt5 V c t t.isLt).1 (accAt5 V c t t.isLt).2) t hf)) cover_row2).trans
  (funext fun i => var_eq (inArr5 V c) _ (fun n h y => tile2_apply _ n h y) _ (accAt5_zero V c) (accAt5_succ V c) i)

end Value5

end Cert.KernelIdeal.Gen
-- ==== Proof.KI.R6Val.lean ====
import proofs.«137587_j59279138619792_1_alg».proof.Proof.KI.R6
import proofs.«137587_j59279138619792_1_alg».proof.Proof.KI.R3Val

noncomputable section

namespace Cert.KernelIdeal.Gen

open Idealize.ShloMosaic Idealize.ShloMosaic.TcCoe Idealize.ShloMosaic.ValueIdx Idealize.SL.Sem

abbrev G6 := G3

section Region6

variable (V : (c : Dev nD) → (b : Ref sig .tc) → Buf (Elt Ideal) ((c : Thread nD τ).loc b))

theorem out6_eq (c : Dev nD) : (dat6 (F := Ideal) V c).arrAt 6 cfg6.N
    = G6 (V c main_v84) (V c main_v62) (V c main_v85_0) (V c main_v85_1) (V c main_v88) (V c main_v91) :=
  (dat6 V c).arrAt_eq_of_cover 6 _
    (fun t _ => (congrArg ((cfg6.win 6).cut (grid6.coords t)) ((after6_6 V c t).trans (out3_6_eq _ _ _ _ _ _))).trans
      ((cut3_6 t _).trans (bn_blk3 _ _ _ _ _ _ t))) cover1

end Region6

end Cert.KernelIdeal.Gen

end
-- ==== Proof.KI.R7Val.lean ====
import proofs.«137587_j59279138619792_1_alg».proof.Proof.KI.R7
import proofs.«137587_j59279138619792_1_alg».proof.Proof.KI.R1Val

namespace Cert.KernelIdeal.Gen

open Idealize.ShloMosaic Idealize.ShloMosaic.TcCoe Idealize.ShloMosaic.ValueIdx Idealize.SL.Sem

section Region7

variable (V : (c : Dev nD) → (b : Ref sig .tc) → Buf (Elt Ideal) ((c : Thread nD τ).loc b))

abbrev inArr7_0 (c : Dev nD) : S50000x128.Idx → EReal := V c main_v92
abbrev inArr7_1 (c : Dev nD) : S128x128.Idx → EReal := V c main_v94
abbrev inArr7_2 (c : Dev nD) : S1x128.Idx → EReal := V c main_v95

theorem out7_eq (c : Dev nD) :
    (dat7 (F := Ideal) V c).arrAt 3 cfg7.N
      = fun i : S50000x128.Idx => (∑ k : Fin 128, inArr7_0 V c (ix2 (i 0) k) * inArr7_1 V c (ix2 k (i 1))) + inArr7_2 V c (ix2 0 (i 1)) :=
  (dat7 V c).arrAt_eq_of_cover 3 (G1 (V c main_v92) (V c main_v94) (V c main_v95))
    (fun t _ => (congrArg ((cfg7.win 3).cut (grid7.coords t)) ((after7_3 V c t).trans (out1_3_eq _ _ _))).trans ((cut1_3 t _).trans (mm_blk1 _ _ _ t)))
    cover1

end Region7

end Cert.KernelIdeal.Gen
-- ==== Proof.KI.R8Val.lean ====
import proofs.«137587_j59279138619792_1_alg».proof.Proof.KI.R8
import proofs.«137587_j59279138619792_1_alg».proof.Proof.KI.R2Val

namespace Cert.KernelIdeal.Gen

open Idealize.ShloMosaic Idealize.ShloMosaic.TcCoe Idealize.ShloMosaic.ValueIdx Idealize.SL.Sem

section Value8

variable (V : (c : Dev nD) → (b : Ref sig .tc) → Buf (Elt Ideal) ((c : Thread nD τ).loc b))

abbrev inArr8 (c : Dev nD) : S50000x128.Idx → EReal := V c main_v114

theorem mean8_eq (c : Dev nD) : (dat8 V c).arrAt 1 cfg8.N
    = fun i : S1x128.Idx => (∑ r : Fin 50000, inArr8 V c (ix2 r (i 1))) * ((1 / 50000 : ℝ) : EReal) :=
  ((dat8 V c).arrAt_eq_of_cover 1 _ (fun t hf => (congrArg ((cfg8.win 1).cut (grid8.coords t)) (after8_1 V c t)).trans
    (last_blk2 (fun t => k2_pay6 (accAt8 V c t t.isLt).1) t hf)) cover_row2).trans
  (funext fun i => mean_eq (inArr8 V c) _ (fun n h y => tile2_apply _ n h y) _ (accAt8_zero V c) (accAt8_succ V c) i)

theorem var8_eq (c : Dev nD) : (dat8 V c).arrAt 2 cfg8.N
    = fun i : S1x128.Idx => (∑ r : Fin 50000, inArr8 V c (ix2 r (i 1)) * inArr8 V c (ix2 r (i 1))) * ((1 / 50000 : ℝ) : EReal)
        - ((∑ r : Fin 50000, inArr8 V c (ix2 r (i 1))) * ((1 / 50000 : ℝ) : EReal))
          * ((∑ r : Fin 50000, inArr8 V c (ix2 r (i 1))) * ((1 / 50000 : ℝ) : EReal)) :=
  ((dat8 V c).arrAt_eq_of_cover 2 _ (fun t hf => (congrArg ((cfg8.win 2).cut (grid8.coords t)) (after8_2 V c t)).trans
    (last_blk2 (fun t => k2_pay7 (accAt8 V c t t.isLt).1 (accAt8 V c t t.isLt).2) t hf)) cover_row2).trans
  (funext fun i => var_eq (inArr8 V c) _ (fun n h y => tile2_apply _ n h y) _ (accAt8_zero V c) (accAt8_succ V c) i)

end Value8

end Cert.KernelIdeal.Gen
-- ==== Proof.KI.R9Val.lean ====
import proofs.«137587_j59279138619792_1_alg».proof.Proof.KI.R9
import proofs.«137587_j59279138619792_1_alg».proof.Proof.KI.R3Val

noncomputable section

namespace Cert.KernelIdeal.Gen

open Idealize.ShloMosaic Idealize.ShloMosaic.TcCoe Idealize.ShloMosaic.ValueIdx Idealize.SL.Sem

abbrev G9 := G3

section Region9

variable (V : (c : Dev nD) → (b : Ref sig .tc) → Buf (Elt Ideal) ((c : Thread nD τ).loc b))

theorem out9_eq (c : Dev nD) : (dat9 (F := Ideal) V c).arrAt 6 cfg9.N
    = G9 (V c main_v114) (V c main_v92) (V c main_v115_0) (V c main_v115_1) (V c main_v118) (V c main_v121) :=
  (dat9 V c).arrAt_eq_of_cover 6 _
    (fun t _ => (congrArg ((cfg9.win 6).cut (grid9.coords t)) ((after9_6 V c t).trans (out3_6_eq _ _ _ _ _ _))).trans
      ((cut3_6 t _).trans (bn_blk3 _ _ _ _ _ _ t))) cover1

end Region9

end Cert.KernelIdeal.Gen

end
-- ==== Proof.KI.R10Val.lean ====
import proofs.«137587_j59279138619792_1_alg».proof.Proof.KI.R10
import proofs.«137587_j59279138619792_1_alg».proof.Proof.KI.R1Val

namespace Cert.KernelIdeal.Gen

open Idealize.ShloMosaic Idealize.ShloMosaic.TcCoe Idealize.ShloMosaic.ValueIdx Idealize.SL.Sem

section Region10

variable (V : (c : Dev nD) → (b : Ref sig .tc) → Buf (Elt Ideal) ((c : Thread nD τ).loc b))

abbrev inArr10_0 (c : Dev nD) : S50000x128.Idx → EReal := V c main_v122
abbrev inArr10_1 (c : Dev nD) : S128x128.Idx → EReal := V c main_v124
abbrev inArr10_2 (c : Dev nD) : S1x128.Idx → EReal := V c main_v125

theorem out10_eq (c : Dev nD) :
    (dat10 (F := Ideal) V c).arrAt 3 cfg10.N
      = fun i : S50000x128.Idx => (∑ k : Fin 128, inArr10_0 V c (ix2 (i 0) k) * inArr10_1 V c (ix2 k (i 1))) + inArr10_2 V c (ix2 0 (i 1)) :=
  (dat10 V c).arrAt_eq_of_cover 3 (G1 (V c main_v122) (V c main_v124) (V c main_v125))
    (fun t _ => (congrArg ((cfg10.win 3).cut (grid10.coords t)) ((after10_3 V c t).trans (out1_3_eq _ _ _))).trans ((cut1_3 t _).trans (mm_blk1 _ _ _ t)))
    cover1

end Region10

end Cert.KernelIdeal.Gen
-- ==== Proof.KI.R11Val.lean ====
import proofs.«137587_j59279138619792_1_alg».proof.Proof.KI.R11
import proofs.«137587_j59279138619792_1_alg».proof.Proof.KI.R2Val

namespace Cert.KernelIdeal.Gen

open Idealize.ShloMosaic Idealize.ShloMosaic.TcCoe Idealize.ShloMosaic.ValueIdx Idealize.SL.Sem

section Value11

variable (V : (c : Dev nD) → (b : Ref sig .tc) → Buf (Elt Ideal) ((c : Thread nD τ).loc b))

abbrev inArr11 (c : Dev nD) : S50000x128.Idx → EReal := V c main_v144

theorem mean11_eq (c : Dev nD) : (dat11 V c).arrAt 1 cfg11.N
    = fun i : S1x128.Idx => (∑ r : Fin 50000, inArr11 V c (ix2 r (i 1))) * ((1 / 50000 : ℝ) : EReal) :=
  ((dat11 V c).arrAt_eq_of_cover 1 _ (fun t hf => (congrArg ((cfg11.win 1).cut (grid11.coords t)) (after11_1 V c t)).trans
    (last_blk2 (fun t => k2_pay6 (accAt11 V c t t.isLt).1) t hf)) cover_row2).trans
  (funext fun i => mean_eq (inArr11 V c) _ (fun n h y => tile2_apply _ n h y) _ (accAt11_zero V c) (accAt11_succ V c) i)

theorem var11_eq (c : Dev nD) : (dat11 V c).arrAt 2 cfg11.N
    = fun i : S1x128.Idx => (∑ r : Fin 50000, inArr11 V c (ix2 r (i 1)) * inArr11 V c (ix2 r (i 1))) * ((1 / 50000 : ℝ) : EReal)
        - ((∑ r : Fin 50000, inArr11 V c (ix2 r (i 1))) * ((1 / 50000 : ℝ) : EReal))
          * ((∑ r : Fin 50000, inArr11 V c (ix2 r (i 1))) * ((1 / 50000 : ℝ) : EReal)) :=
  ((dat11 V c).arrAt_eq_of_cover 2 _ (fun t hf => (congrArg ((cfg11.win 2).cut (grid11.coords t)) (after11_2 V c t)).trans
    (last_blk2 (fun t => k2_pay7 (accAt11 V c t t.isLt).1 (accAt11 V c t t.isLt).2) t hf)) cover_row2).trans
  (funext fun i => var_eq (inArr11 V c) _ (fun n h y => tile2_apply _ n h y) _ (accAt11_zero V c) (accAt11_succ V c) i)

end Value11

end Cert.KernelIdeal.Gen
-- ==== Proof.KI.R12Val.lean ====
import proofs.«137587_j59279138619792_1_alg».proof.Proof.KI.R12
import proofs.«137587_j59279138619792_1_alg».proof.Proof.KI.R3Val

noncomputable section

namespace Cert.KernelIdeal.Gen

open Idealize.ShloMosaic Idealize.ShloMosaic.TcCoe Idealize.ShloMosaic.ValueIdx Idealize.SL.Sem

abbrev G12 := G3

section Region12

variable (V : (c : Dev nD) → (b : Ref sig .tc) → Buf (Elt Ideal) ((c : Thread nD τ).loc b))

theorem out12_eq (c : Dev nD) : (dat12 (F := Ideal) V c).arrAt 6 cfg12.N
    = G12 (V c main_v144) (V c main_v122) (V c main_v145_0) (V c main_v145_1) (V c main_v148) (V c main_v151) :=
  (dat12 V c).arrAt_eq_of_cover 6 _
    (fun t _ => (congrArg ((cfg12.win 6).cut (grid12.coords t)) ((after12_6 V c t).trans (out3_6_eq _ _ _ _ _ _))).trans
      ((cut3_6 t _).trans (bn_blk3 _ _ _ _ _ _ t))) cover1

end Region12

end Cert.KernelIdeal.Gen

end
-- ==== Proof.KI.R13Val.lean ====
import proofs.«137587_j59279138619792_1_alg».proof.Proof.KI.R13
import proofs.«137587_j59279138619792_1_alg».proof.Proof.KI.R1Val

noncomputable section

namespace Cert.KernelIdeal.Gen

open Idealize.ShloMosaic Idealize.ShloMosaic.TcCoe Idealize.ShloMosaic.ValueIdx Idealize.SL.Sem

theorem k13_pay1_apply (x0 : Vec Ideal S2000x128 .f32) (x1 : Vec Ideal S128x10 .f32) (x2 : Vec Ideal S1x10 .f32)
    (p : Fin 2000) (q : Fin 10) :
    k13_pay1 (F := Ideal) x0 x1 x2 (ix2 p q) = (∑ k : Fin 128, x0 (ix2 p k) * x1 (ix2 k q)) + x2 (ix2 0 q) := by
  dsimp only [k13_pay1]
  rw [addf_apply]
  simp only [matmul]
  rw [Ideal.matmul_constant_zero_apply]
  simp only [shapeCast_self]
  rw [broadcastTo_apply x2 broadcasts_S1x10_S2000x10 (ix2 p q) (ix2 0 q)
      (fun a => by match a with | ⟨0, _⟩ => rfl | ⟨1, _⟩ => rfl),
    ← Equiv.sum_comp (contrEquiv1 dot_S2000x128_S128x10_S2000x10_1_0_0_1_n_n 128 rfl rfl).symm]
  have e := contrEquiv1_symm_val dot_S2000x128_S128x10_S2000x10_1_0_0_1_n_n 128 rfl rfl
  exact congrArg (· + x2 (ix2 0 q)) (Finset.sum_congr rfl fun k _ => congrArg₂ (· * ·)
    (congrArg x0 (Shape.idx_ext₂ rfl (e k))) (congrArg x1 (Shape.idx_ext₂ (e k) rfl)))

theorem out13_3_eq (x0 : Vec Ideal S2000x128 .f32) (x1 : Vec Ideal S128x10 .f32) (x2 : Vec Ideal S1x10 .f32) :
    out13_3 (F := Ideal) x0 x1 x2 = k13_pay1 x0 x1 x2 := by
  unfold out13_3
  rw [View.canon_unit_zero hz]
  simp only [View.ld_unit_zero (S := S2000x128) hz, View.ld_unit_zero (S := S128x10) hz, View.ld_unit_zero (S := S1x10) hz]

theorem cut13_3 (t : Fin cfg13.N) (X : Vec Ideal S2000x10 .f32) : (cfg13.win 3).cut (grid13.coords t) X = X := rfl

def G13 (a0 : Vec Ideal S50000x128 .f32) (a1 : Vec Ideal S128x10 .f32) (a2 : Vec Ideal S1x10 .f32) : Vec Ideal S50000x10 .f32 :=
  fun i => (∑ k : Fin 128, a0 (ix2 (i 0) k) * a1 (ix2 k (i 1))) + a2 (ix2 0 (i 1))

/-- The payload of row tile t of the first array and the other two whole is block t of G13. -/
theorem mm_blk13 (A0 : Vec Ideal S50000x128 .f32) (A1 : Vec Ideal S128x10 .f32) (A2 : Vec Ideal S1x10 .f32) (t : Fin cfg13.N) :
    k13_pay1 (F := Ideal) (((cfg13.win 0).blk t).view.read (Elt Ideal) A0)
      (((cfg13.win 1).blk t).view.read (Elt Ideal) A1) (((cfg13.win 2).blk t).view.read (Elt Ideal) A2)
    = ((cfg13.win 3).blk t).view.read (Elt Ideal) (G13 A0 A1 A2) := by
  obtain ⟨e0, e1, e2, e3, e4, e5, e6, e7⟩ := idx_facts1 t
  funext j
  obtain ⟨p, q, rfl⟩ : ∃ (p : Fin 2000) (q : Fin 10), j = ix2 p q := ⟨j 0, j 1, eq_ix2 j⟩
  have h0 : ∀ k : Fin 128, ((cfg13.win 0).blk t).view.emb (ix2 p k) = ix2 ((((cfg13.win 3).blk t).view.emb (ix2 p q)) 0) k :=
    fun k => Shape.idx_ext₂
      (by show win1_0.index t (0 : Fin 2) * 2000 + 1 * p.val = win1_3.index t (0 : Fin 2) * 2000 + 1 * p.val; omega)
      (by show win1_0.index t (1 : Fin 2) * 128 + 1 * k.val = k.val; omega)
  have h1 : ∀ k : Fin 128, ((cfg13.win 1).blk t).view.emb (ix2 k q) = ix2 k ((((cfg13.win 3).blk t).view.emb (ix2 p q)) 1) :=
    fun k => Shape.idx_ext₂
      (by show win1_1.index t (0 : Fin 2) * 128 + 1 * k.val = k.val; omega)
      (by show win1_1.index t (1 : Fin 2) * 10 + 1 * q.val = win1_3.index t (1 : Fin 2) * 10 + 1 * q.val; omega)
  have h2 : ((cfg13.win 2).blk t).view.emb (ix2 (0 : Fin 1) q) = ix2 (0 : Fin 1) ((((cfg13.win 3).blk t).view.emb (ix2 p q)) 1) :=
    Shape.idx_ext₂
      (by show win1_2.index t (0 : Fin 2) * 1 + 1 * 0 = 0; omega)
      (by show win1_2.index t (1 : Fin 2) * 10 + 1 * q.val = win1_3.index t (1 : Fin 2) * 10 + 1 * q.val; omega)
  rw [k13_pay1_apply]
  show (∑ k : Fin 128, A0 (((cfg13.win 0).blk t).view.emb (ix2 p k)) * A1 (((cfg13.win 1).blk t).view.emb (ix2 k q)))
      + A2 (((cfg13.win 2).blk t).view.emb (ix2 (0 : Fin 1) q)) = G13 A0 A1 A2 (((cfg13.win 3).blk t).view.emb (ix2 p q))
  exact congrArg₂ (· + ·) (Finset.sum_congr rfl fun k _ => congrArg₂ (· * ·) (congrArg A0 (h0 k)) (congrArg A1 (h1 k)))
    (congrArg A2 h2)

theorem cover13 (i : S50000x10.Idx) :
    ∃ t : Fin cfg13.N, (cfg13.win 3).flush t = true ∧ i ∈ ((cfg13.win 3).blk t).view.set := by
  have ht : (i 0).val / 2000 < 25 := by have := idx2_lt0 i; omega
  obtain ⟨-, -, -, -, -, -, e6, e7⟩ := idx_facts1 ⟨_, ht⟩
  refine ⟨⟨_, ht⟩, flush13_3 _, ?_⟩
  show i ∈ ((View.whole main_v154).slice (win13_3.rect ⟨_, ht⟩)).set
  rw [View.set_slice_whole]
  exact Rect.mem_set_unit.mpr (row_tile_mem i _ e6 e7)

section Region13

variable (V : (c : Dev nD) → (b : Ref sig .tc) → Buf (Elt Ideal) ((c : Thread nD τ).loc b))

abbrev inArr13_0 (c : Dev nD) : S50000x128.Idx → EReal := V c main_v152
abbrev inArr13_1 (c : Dev nD) : S128x10.Idx → EReal := V c main_arg9
abbrev inArr13_2 (c : Dev nD) : S1x10.Idx → EReal := V c main_v153

theorem out13_eq (c : Dev nD) :
    (dat13 (F := Ideal) V c).arrAt 3 cfg13.N
      = fun i : S50000x10.Idx => (∑ k : Fin 128, inArr13_0 V c (ix2 (i 0) k) * inArr13_1 V c (ix2 k (i 1))) + inArr13_2 V c (ix2 0 (i 1)) :=
  (dat13 V c).arrAt_eq_of_cover 3 (G13 (V c main_v152) (V c main_arg9) (V c main_v153))
    (fun t _ => (congrArg ((cfg13.win 3).cut (grid13.coords t)) ((after13_3 V c t).trans (out13_3_eq _ _ _))).trans ((cut13_3 t _).trans (mm_blk13 _ _ _ t)))
    cover13

end Region13

end Cert.KernelIdeal.Gen

end
-- ==== Proof.KI.Val.lean ====
import proofs.«137587_j59279138619792_1_alg».proof.Proof.KI.Chain
import proofs.«137587_j59279138619792_1_alg».proof.Proof.KI.Host
import proofs.«137587_j59279138619792_1_alg».proof.Proof.KI.R0Val
import proofs.«137587_j59279138619792_1_alg».proof.Proof.KI.R1Val
import proofs.«137587_j59279138619792_1_alg».proof.Proof.KI.R2Val
import proofs.«137587_j59279138619792_1_alg».proof.Proof.KI.R3Val
import proofs.«137587_j59279138619792_1_alg».proof.Proof.KI.R4Val
import proofs.«137587_j59279138619792_1_alg».proof.Proof.KI.R5Val
import proofs.«137587_j59279138619792_1_alg».proof.Proof.KI.R6Val
import proofs.«137587_j59279138619792_1_alg».proof.Proof.KI.R7Val
import proofs.«137587_j59279138619792_1_alg».proof.Proof.KI.R8Val
import proofs.«137587_j59279138619792_1_alg».proof.Proof.KI.R9Val
import proofs.«137587_j59279138619792_1_alg».proof.Proof.KI.R10Val
import proofs.«137587_j59279138619792_1_alg».proof.Proof.KI.R11Val
import proofs.«137587_j59279138619792_1_alg».proof.Proof.KI.R12Val
import proofs.«137587_j59279138619792_1_alg».proof.Proof.KI.R13Val

open scoped BigOperators

noncomputable section

namespace Cert.KernelIdeal.Gen

open Idealize.ShloMosaic Idealize.ShloMosaic.TcCoe Idealize.ShloMosaic.ValueIdx Idealize.SL.Sem
open Cert.Spec (Mat)

abbrev asArr (S : Shape) (x : S.Idx → EReal) : S.Idx → EReal := x

variable (m : (ℓ : Loc nD τ sig) → Buf (Elt Ideal) ℓ)

abbrev launchParams (c : Dev nD) : Spec.Params :=
  Spec.mkParams (m ((c : Thread nD τ).loc main_arg0)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10))
abbrev launchAgg (c : Dev nD) : Mat 50000 128 → Mat 50000 128 := Spec.agg (m ((c : Thread nD τ).loc main_arg1))

-- A valuation updated at one reference, read at another.
theorem upd_ne {V : Valuation τ sig (Elt Ideal)} {y r : Ref sig .tc} {v : (Proc.devRef .tc y : DevRef τ sig).ty.Contents (Elt Ideal)}
    (h : r ∉ [y]) : Function.update V (Proc.devRef .tc y) v (Proc.devRef .tc r) = V (Proc.devRef .tc r) :=
  Function.update_of_ne (StableHlo.devRef_ne_of_ne (List.ne_of_not_mem_cons h)) _ _

theorem X4_of (c : Dev nD) (r : Ref sig .tc) (h : r ∉ ([main_v31] : List (Ref sig .tc))) : X4 m c r = X3 m c r :=
  upd_ne h
theorem X5_of (c : Dev nD) (r : Ref sig .tc) (h : r ∉ hostOps1_W) : X5 m c r = X4 m c r :=
  StableHlo.after_of_writes_sub hostOps1 _ hostOps1_writes h
theorem X6_of (c : Dev nD) (r : Ref sig .tc) (h : r ∉ ([main_v36] : List (Ref sig .tc))) : X6 m c r = X5 m c r :=
  upd_ne h
theorem X7_of (c : Dev nD) (r : Ref sig .tc) (h : r ∉ hostOps2_W) : X7 m c r = X6 m c r :=
  StableHlo.after_of_writes_sub hostOps2 _ hostOps2_writes h
theorem X8_of (c : Dev nD) (r : Ref sig .tc) (h : r ∉ ([main_v55_0, main_v55_1] : List (Ref sig .tc))) : X8 m c r = X7 m c r :=
  (upd_ne fun h' => h (List.mem_cons_of_mem _ h')).trans (upd_ne fun h' => h (List.mem_cons.mpr (.inl (List.mem_singleton.mp h'))))
theorem X9_of (c : Dev nD) (r : Ref sig .tc) (h : r ∉ hostOps3_W) : X9 m c r = X8 m c r :=
  StableHlo.after_of_writes_sub hostOps3 _ hostOps3_writes h
theorem X10_of (c : Dev nD) (r : Ref sig .tc) (h : r ∉ ([main_v62] : List (Ref sig .tc))) : X10 m c r = X9 m c r :=
  upd_ne h
theorem X11_of (c : Dev nD) (r : Ref sig .tc) (h : r ∉ hostOps4_W) : X11 m c r = X10 m c r :=
  StableHlo.after_of_writes_sub hostOps4 _ hostOps4_writes h
theorem X12_of (c : Dev nD) (r : Ref sig .tc) (h : r ∉ ([main_v66] : List (Ref sig .tc))) : X12 m c r = X11 m c r :=
  upd_ne h
theorem X13_of (c : Dev nD) (r : Ref sig .tc) (h : r ∉ hostOps5_W) : X13 m c r = X12 m c r :=
  StableHlo.after_of_writes_sub hostOps5 _ hostOps5_writes h
theorem X14_of (c : Dev nD) (r : Ref sig .tc) (h : r ∉ ([main_v85_0, main_v85_1] : List (Ref sig .tc))) : X14 m c r = X13 m c r :=
  (upd_ne fun h' => h (List.mem_cons_of_mem _ h')).trans (upd_ne fun h' => h (List.mem_cons.mpr (.inl (List.mem_singleton.mp h'))))
theorem X15_of (c : Dev nD) (r : Ref sig .tc) (h : r ∉ hostOps6_W) : X15 m c r = X14 m c r :=
  StableHlo.after_of_writes_sub hostOps6 _ hostOps6_writes h
theorem X16_of (c : Dev nD) (r : Ref sig .tc) (h : r ∉ ([main_v92] : List (Ref sig .tc))) : X16 m c r = X15 m c r :=
  upd_ne h
theorem X17_of (c : Dev nD) (r : Ref sig .tc) (h : r ∉ hostOps7_W) : X17 m c r = X16 m c r :=
  StableHlo.after_of_writes_sub hostOps7 _ hostOps7_writes h
theorem X18_of (c : Dev nD) (r : Ref sig .tc) (h : r ∉ ([main_v96] : List (Ref sig .tc))) : X18 m c r = X17 m c r :=
  upd_ne h
theorem X19_of (c : Dev nD) (r : Ref sig .tc) (h : r ∉ hostOps8_W) : X19 m c r = X18 m c r :=
  StableHlo.after_of_writes_sub hostOps8 _ hostOps8_writes h
theorem X20_of (c : Dev nD) (r : Ref sig .tc) (h : r ∉ ([main_v115_0, main_v115_1] : List (Ref sig .tc))) : X20 m c r = X19 m c r :=
  (upd_ne fun h' => h (List.mem_cons_of_mem _ h')).trans (upd_ne fun h' => h (List.mem_cons.mpr (.inl (List.mem_singleton.mp h'))))
theorem X21_of (c : Dev nD) (r : Ref sig .tc) (h : r ∉ hostOps9_W) : X21 m c r = X20 m c r :=
  StableHlo.after_of_writes_sub hostOps9 _ hostOps9_writes h
theorem X22_of (c : Dev nD) (r : Ref sig .tc) (h : r ∉ ([main_v122] : List (Ref sig .tc))) : X22 m c r = X21 m c r :=
  upd_ne h
theorem X23_of (c : Dev nD) (r : Ref sig .tc) (h : r ∉ hostOps10_W) : X23 m c r = X22 m c r :=
  StableHlo.after_of_writes_sub hostOps10 _ hostOps10_writes h
theorem X24_of (c : Dev nD) (r : Ref sig .tc) (h : r ∉ ([main_v126] : List (Ref sig .tc))) : X24 m c r = X23 m c r :=
  upd_ne h
theorem X25_of (c : Dev nD) (r : Ref sig .tc) (h : r ∉ hostOps11_W) : X25 m c r = X24 m c r :=
  StableHlo.after_of_writes_sub hostOps11 _ hostOps11_writes h
theorem X26_of (c : Dev nD) (r : Ref sig .tc) (h : r ∉ ([main_v145_0, main_v145_1] : List (Ref sig .tc))) : X26 m c r = X25 m c r :=
  (upd_ne fun h' => h (List.mem_cons_of_mem _ h')).trans (upd_ne fun h' => h (List.mem_cons.mpr (.inl (List.mem_singleton.mp h'))))
theorem X27_of (c : Dev nD) (r : Ref sig .tc) (h : r ∉ hostOps12_W) : X27 m c r = X26 m c r :=
  StableHlo.after_of_writes_sub hostOps12 _ hostOps12_writes h
theorem X28_of (c : Dev nD) (r : Ref sig .tc) (h : r ∉ ([main_v152] : List (Ref sig .tc))) : X28 m c r = X27 m c r :=
  upd_ne h
theorem X29_of (c : Dev nD) (r : Ref sig .tc) (h : r ∉ hostOps13_W) : X29 m c r = X28 m c r :=
  StableHlo.after_of_writes_sub hostOps13 _ hostOps13_writes h

theorem keep_step {α ρ : Type} {a b d : α} {W W' : List ρ} {r : ρ} (f : r ∉ W → a = b) (g : r ∉ W' → b = d) (h : r ∉ W ++ W') : a = d :=
  (f fun h' => h (List.mem_append_left _ h')).trans (g fun h' => h (List.mem_append_right _ h'))

abbrev W3 : List (Ref sig .tc) := hostOps0_2_W ++ (hostOps0_1_W ++ hostOps0_W)
theorem X3_base (c : Dev nD) (r : Ref sig .tc) : r ∉ W3 → X3 m c r = m ((c : Thread nD τ).loc r) :=
  keep_step (V3_of m c r) (keep_step (V2_of m c r) (V1_of m c r))
theorem X3_v3 (c : Dev nD) : X3 m c main_v3 = Spec.srcOf (m ((c : Thread nD τ).loc main_arg1)) :=
  (V3_of m c main_v3 (by decide)).trans <| (V2_of m c main_v3 (by decide)).trans <| host0_v3 (V0 m c)
theorem X3_v6 (c : Dev nD) : X3 m c main_v6 = Spec.dstOf (m ((c : Thread nD τ).loc main_arg1)) :=
  (V3_of m c main_v6 (by decide)).trans <| (V2_of m c main_v6 (by decide)).trans <| host0_v6 (V0 m c)
theorem X3_v29 (c : Dev nD) : X3 m c main_v29 = Spec.normOf (m ((c : Thread nD τ).loc main_arg1)) := by
  show StableHlo.after hostOps0_2 (V2 m c) (Proc.devRef .tc main_v29) = _
  rw [host02_v29, V2_of m c main_v3 (by decide), V2_of m c main_v6 (by decide)]
  show Spec.normWith (StableHlo.after hostOps0 (V0 m c) (Proc.devRef .tc main_v3)) (StableHlo.after hostOps0 (V0 m c) (Proc.devRef .tc main_v6))
    (StableHlo.after hostOps0_1 (StableHlo.after hostOps0 (V0 m c)) (Proc.devRef .tc main_v14)) = _
  rw [host0_v3, host0_v6, host01_v14]
  rfl
theorem X3_v30 (c : Dev nD) : X3 m c main_v30 = fun (i : S1x128.Idx) => m ((c : Thread nD τ).loc main_arg4) (ix1 (i 1)) := by
  show StableHlo.after hostOps0_2 (V2 m c) (Proc.devRef .tc main_v30) = _
  rw [host02_v30, V2_of m c main_arg4 (by decide), V1_of m c main_arg4 (by decide)]
  rfl

theorem lin_of {A : S50000x128.Idx → EReal} {Wm : S128x128.Idx → EReal} {bz : S1x128.Idx → EReal}
    {h : Mat 50000 128} {W : Mat 128 128} {b : Fin 128 → EReal} (hA : A = h) (hW : Wm = W) (hb : bz = fun i => b (i 1)) :
    (fun i : S50000x128.Idx => (∑ k : Fin 128, A (ix2 (i 0) k) * Wm (ix2 k (i 1))) + bz (ix2 0 (i 1))) = Spec.lin h W b := by
  subst hA hW hb; rfl

theorem mean_of {A : S50000x128.Idx → EReal} {y : Mat 50000 128} (hA : A = y) :
    (fun i : S1x128.Idx => (∑ r : Fin 50000, A (ix2 r (i 1))) * ((1 / 50000 : ℝ) : EReal)) = fun i => Spec.meanK y (i 1) := by
  subst hA; rfl

theorem var_of {A : S50000x128.Idx → EReal} {y : Mat 50000 128} (hA : A = y) :
    (fun i : S1x128.Idx => (∑ r : Fin 50000, A (ix2 r (i 1)) * A (ix2 r (i 1))) * ((1 / 50000 : ℝ) : EReal)
      - ((∑ r : Fin 50000, A (ix2 r (i 1))) * ((1 / 50000 : ℝ) : EReal)) * ((∑ r : Fin 50000, A (ix2 r (i 1))) * ((1 / 50000 : ℝ) : EReal)))
      = fun i => Spec.varK y (i 1) := by
  subst hA; rfl

theorem bn_of {Y H : S50000x128.Idx → EReal} {Mn Vr G B : S1x128.Idx → EReal} {y h : Mat 50000 128} {μ σ γ β : Fin 128 → EReal}
    (hY : Y = y) (hH : H = h) (hM : Mn = fun i => μ (i 1)) (hV : Vr = fun i => σ (i 1)) (hG : G = fun i => γ (i 1)) (hB : B = fun i => β (i 1)) :
    (fun i : S50000x128.Idx => H i + max ((((Y i - Mn (ix2 0 (i 1))) * Ideal.rsqrt (Vr (ix2 0 (i 1)) + Cert.Spec.eps)) * G (ix2 0 (i 1))) + B (ix2 0 (i 1))) 0)
      = Spec.bn y h μ σ γ β := by
  subst hY hH hM hV hG hB; rfl

theorem head_of {A : S50000x128.Idx → EReal} {Wm : S128x10.Idx → EReal} {bz : S1x10.Idx → EReal}
    {h : Mat 50000 128} {W : Mat 128 10} {b : Fin 10 → EReal} (hA : A = h) (hW : Wm = W) (hb : bz = fun i => b (i 1)) :
    (fun i : S50000x10.Idx => (∑ k : Fin 128, A (ix2 (i 0) k) * Wm (ix2 k (i 1))) + bz (ix2 0 (i 1))) = Spec.head h W b := by
  subst hA hW hb; rfl

theorem embed_eq (c : Dev nD) : o_main_v31 m c = Spec.lin (launchParams m c).h0 (launchParams m c).Wemb (launchParams m c).bemb :=
  (out0_eq (Vt (X3 m)) c).trans (lin_of (X3_base m c main_arg0 (by decide)) (X3_base m c main_arg3 (by decide)) (X3_v30 m c))

abbrev W5 : List (Ref sig .tc) := hostOps1_W ++ [main_v31]
theorem X5_since3 (c : Dev nD) (r : Ref sig .tc) : r ∉ W5 → X5 m c r = X3 m c r := keep_step (X5_of m c r) (X4_of m c r)
theorem X5_arg (c : Dev nD) (r : Ref sig .tc) : r ∉ W5 ++ W3 → X5 m c r = m ((c : Thread nD τ).loc r) := keep_step (X5_since3 m c r) (X3_base m c r)
theorem X5_v3 (c : Dev nD) : X5 m c main_v3 = Spec.srcOf (m ((c : Thread nD τ).loc main_arg1)) := (X5_since3 m c _ (by decide)).trans (X3_v3 m c)
theorem X5_v6 (c : Dev nD) : X5 m c main_v6 = Spec.dstOf (m ((c : Thread nD τ).loc main_arg1)) := (X5_since3 m c _ (by decide)).trans (X3_v6 m c)
theorem X5_v29 (c : Dev nD) : X5 m c main_v29 = Spec.normOf (m ((c : Thread nD τ).loc main_arg1)) := (X5_since3 m c _ (by decide)).trans (X3_v29 m c)
abbrev W6 : List (Ref sig .tc) := [main_v36]
abbrev W8 : List (Ref sig .tc) := [main_v55_0, main_v55_1] ++ (hostOps2_W ++ W6)
theorem X8_keep (c : Dev nD) (r : Ref sig .tc) : r ∉ W8 → X8 m c r = X5 m c r :=
  keep_step (X8_of m c r) (keep_step (X7_of m c r) (X6_of m c r))
abbrev W10 : List (Ref sig .tc) := [main_v62] ++ (hostOps3_W ++ W8)
theorem X10_keep (c : Dev nD) (r : Ref sig .tc) : r ∉ W10 → X10 m c r = X5 m c r :=
  keep_step (X10_of m c r) (keep_step (X9_of m c r) (X8_keep m c r))
abbrev W12 : List (Ref sig .tc) := [main_v66] ++ (hostOps4_W ++ W10)
theorem X12_keep (c : Dev nD) (r : Ref sig .tc) : r ∉ W12 → X12 m c r = X5 m c r :=
  keep_step (X12_of m c r) (keep_step (X11_of m c r) (X10_keep m c r))
abbrev W14 : List (Ref sig .tc) := [main_v85_0, main_v85_1] ++ (hostOps5_W ++ W12)
theorem X14_keep (c : Dev nD) (r : Ref sig .tc) : r ∉ W14 → X14 m c r = X5 m c r :=
  keep_step (X14_of m c r) (keep_step (X13_of m c r) (X12_keep m c r))
abbrev W16 : List (Ref sig .tc) := [main_v92] ++ (hostOps6_W ++ W14)
theorem X16_keep (c : Dev nD) (r : Ref sig .tc) : r ∉ W16 → X16 m c r = X5 m c r :=
  keep_step (X16_of m c r) (keep_step (X15_of m c r) (X14_keep m c r))
abbrev W18 : List (Ref sig .tc) := [main_v96] ++ (hostOps7_W ++ W16)
theorem X18_keep (c : Dev nD) (r : Ref sig .tc) : r ∉ W18 → X18 m c r = X5 m c r :=
  keep_step (X18_of m c r) (keep_step (X17_of m c r) (X16_keep m c r))
abbrev W20 : List (Ref sig .tc) := [main_v115_0, main_v115_1] ++ (hostOps8_W ++ W18)
theorem X20_keep (c : Dev nD) (r : Ref sig .tc) : r ∉ W20 → X20 m c r = X5 m c r :=
  keep_step (X20_of m c r) (keep_step (X19_of m c r) (X18_keep m c r))
abbrev W22 : List (Ref sig .tc) := [main_v122] ++ (hostOps9_W ++ W20)
theorem X22_keep (c : Dev nD) (r : Ref sig .tc) : r ∉ W22 → X22 m c r = X5 m c r :=
  keep_step (X22_of m c r) (keep_step (X21_of m c r) (X20_keep m c r))
abbrev W24 : List (Ref sig .tc) := [main_v126] ++ (hostOps10_W ++ W22)
theorem X24_keep (c : Dev nD) (r : Ref sig .tc) : r ∉ W24 → X24 m c r = X5 m c r :=
  keep_step (X24_of m c r) (keep_step (X23_of m c r) (X22_keep m c r))
abbrev W26 : List (Ref sig .tc) := [main_v145_0, main_v145_1] ++ (hostOps11_W ++ W24)
theorem X26_keep (c : Dev nD) (r : Ref sig .tc) : r ∉ W26 → X26 m c r = X5 m c r :=
  keep_step (X26_of m c r) (keep_step (X25_of m c r) (X24_keep m c r))
abbrev W28 : List (Ref sig .tc) := [main_v152] ++ (hostOps12_W ++ W26)
theorem X28_keep (c : Dev nD) (r : Ref sig .tc) : r ∉ W28 → X28 m c r = X5 m c r :=
  keep_step (X28_of m c r) (keep_step (X27_of m c r) (X26_keep m c r))
abbrev W29 : List (Ref sig .tc) := hostOps13_W ++ W28
theorem X29_keep (c : Dev nD) (r : Ref sig .tc) : r ∉ W29 → X29 m c r = X5 m c r := keep_step (X29_of m c r) (X28_keep m c r)

theorem X5_hin (c : Dev nD) : X5 m c main_v31 = o_main_v31 m c :=
  (X5_of m c main_v31 (by decide)).trans (Function.update_self _ _ _)
theorem X5_w (c : Dev nD) : X5 m c main_v34 = fun (i : S128x128.Idx) => m ((c : Thread nD τ).loc main_arg5) (ix3 0 (i 0) (i 1)) := by
  show StableHlo.after hostOps1 (X4 m c) (Proc.devRef .tc main_v34) = _
  rw [host1_w, X4_of m c main_arg5 (by decide), X3_base m c main_arg5 (by decide)]
  rfl
theorem X5_v32 (c : Dev nD) : X5 m c main_v32 = fun (_ : S128.Idx) => (0 : EReal) :=
  host1_v32 (X4 m c)
theorem X5_zb (c : Dev nD) : X5 m c main_v35 = fun (_ : S1x128.Idx) => (0 : EReal) :=
  host1_zb (X4 m c)
theorem roundLin0_eq (c : Dev nD) : o_main_v36 m c = Spec.lin (o_main_v31 m c) ((launchParams m c).W 0) (fun _ => 0) :=
  (out1_eq (Vt (X5 m)) c).trans (lin_of (X5_hin m c) (X5_w m c) (X5_zb m c))
def roundPre0 (c : Dev nD) : Mat 50000 128 :=
  fun i => launchAgg m c (Spec.lin (o_main_v31 m c) ((launchParams m c).W 0) fun _ => 0) i + (launchParams m c).b 0 (i 1)
theorem X6_x (c : Dev nD) : X6 m c main_v36 = o_main_v36 m c := Function.update_self _ _ _
theorem X7_hraw (c : Dev nD) : X7 m c main_v54 = roundPre0 m c := by
  show StableHlo.after hostOps2 (X6 m c) (Proc.devRef .tc main_v54) = _
  rw [host2_hraw, X6_of m c main_v3 (by decide), X5_v3, X6_of m c main_v6 (by decide), X5_v6, X6_of m c main_v29 (by decide), X5_v29, X6_of m c main_arg6 (by decide), X5_arg m c main_arg6 (by decide), X6_x, roundLin0_eq]
  rfl
theorem colMean0_eq (c : Dev nD) : o_main_v55_0 m c = fun (i : S1x128.Idx) => Spec.meanK (roundPre0 m c) (i 1) :=
  (mean2_eq (Vt (X7 m)) c).trans (mean_of (X7_hraw m c))
theorem colVar0_eq (c : Dev nD) : o_main_v55_1 m c = fun (i : S1x128.Idx) => Spec.varK (roundPre0 m c) (i 1) :=
  (var2_eq (Vt (X7 m)) c).trans (var_of (X7_hraw m c))
theorem X9_hin (c : Dev nD) : X9 m c main_v31 = o_main_v31 m c :=
  (X9_of m c main_v31 (by decide)).trans <| (X8_of m c main_v31 (by decide)).trans <| (X7_of m c main_v31 (by decide)).trans <|
    (X6_of m c main_v31 (by decide)).trans <| X5_hin m c
theorem X9_hraw (c : Dev nD) : X9 m c main_v54 = roundPre0 m c :=
  (X9_of m c main_v54 (by decide)).trans <| (X8_of m c main_v54 (by decide)).trans <| X7_hraw m c
theorem X9_mean (c : Dev nD) : X9 m c main_v55_0 = o_main_v55_0 m c :=
  (X9_of m c main_v55_0 (by decide)).trans <|
    (Function.update_of_ne (StableHlo.devRef_ne_of_ne (by decide)) _ _).trans (Function.update_self _ _ _)
theorem X9_var (c : Dev nD) : X9 m c main_v55_1 = o_main_v55_1 m c :=
  (X9_of m c main_v55_1 (by decide)).trans (Function.update_self _ _ _)
theorem X9_g (c : Dev nD) : X9 m c main_v58 = fun (i : S1x128.Idx) => m ((c : Thread nD τ).loc main_arg7) (ix2 0 (i 1)) := by
  show StableHlo.after hostOps3 (X8 m c) (Proc.devRef .tc main_v58) = _
  rw [host3_g, X8_keep m c main_arg7 (by decide), X5_arg m c main_arg7 (by decide)]
  rfl
theorem X9_b (c : Dev nD) : X9 m c main_v61 = fun (i : S1x128.Idx) => m ((c : Thread nD τ).loc main_arg8) (ix2 0 (i 1)) := by
  show StableHlo.after hostOps3 (X8 m c) (Proc.devRef .tc main_v61) = _
  rw [host3_b, X8_keep m c main_arg8 (by decide), X5_arg m c main_arg8 (by decide)]
  rfl
theorem round0_eq (c : Dev nD) : o_main_v62 m c
    = Spec.layerK (launchAgg m c) ((launchParams m c).W 0) ((launchParams m c).b 0) ((launchParams m c).γ 0) ((launchParams m c).β 0) (o_main_v31 m c) :=
  (out3_eq (Vt (X9 m)) c).trans (bn_of (X9_hraw m c) (X9_hin m c) ((X9_mean m c).trans (colMean0_eq m c))
    ((X9_var m c).trans (colVar0_eq m c)) (X9_g m c) (X9_b m c))

theorem X11_hin (c : Dev nD) : X11 m c main_v62 = o_main_v62 m c :=
  (X11_of m c main_v62 (by decide)).trans (Function.update_self _ _ _)
theorem X11_w (c : Dev nD) : X11 m c main_v64 = fun (i : S128x128.Idx) => m ((c : Thread nD τ).loc main_arg5) (ix3 1 (i 0) (i 1)) := by
  show StableHlo.after hostOps4 (X10 m c) (Proc.devRef .tc main_v64) = _
  rw [host4_w, X10_keep m c main_arg5 (by decide), X5_arg m c main_arg5 (by decide)]
  rfl
theorem X11_zb (c : Dev nD) : X11 m c main_v65 = fun (_ : S1x128.Idx) => (0 : EReal) := by
  show StableHlo.after hostOps4 (X10 m c) (Proc.devRef .tc main_v65) = _
  rw [host4_zb, X10_keep m c main_v32 (by decide), X5_v32]
  rfl
theorem roundLin1_eq (c : Dev nD) : o_main_v66 m c = Spec.lin (o_main_v62 m c) ((launchParams m c).W 1) (fun _ => 0) :=
  (out4_eq (Vt (X11 m)) c).trans (lin_of (X11_hin m c) (X11_w m c) (X11_zb m c))
def roundPre1 (c : Dev nD) : Mat 50000 128 :=
  fun i => launchAgg m c (Spec.lin (o_main_v62 m c) ((launchParams m c).W 1) fun _ => 0) i + (launchParams m c).b 1 (i 1)
theorem X12_x (c : Dev nD) : X12 m c main_v66 = o_main_v66 m c := Function.update_self _ _ _
theorem X13_hraw (c : Dev nD) : X13 m c main_v84 = roundPre1 m c := by
  show StableHlo.after hostOps5 (X12 m c) (Proc.devRef .tc main_v84) = _
  rw [host5_hraw, X12_keep m c main_v3 (by decide), X5_v3, X12_keep m c main_v6 (by decide), X5_v6, X12_keep m c main_v29 (by decide), X5_v29, X12_keep m c main_arg6 (by decide), X5_arg m c main_arg6 (by decide), X12_x, roundLin1_eq]
  rfl
theorem colMean1_eq (c : Dev nD) : o_main_v85_0 m c = fun (i : S1x128.Idx) => Spec.meanK (roundPre1 m c) (i 1) :=
  (mean5_eq (Vt (X13 m)) c).trans (mean_of (X13_hraw m c))
theorem colVar1_eq (c : Dev nD) : o_main_v85_1 m c = fun (i : S1x128.Idx) => Spec.varK (roundPre1 m c) (i 1) :=
  (var5_eq (Vt (X13 m)) c).trans (var_of (X13_hraw m c))
theorem X15_hin (c : Dev nD) : X15 m c main_v62 = o_main_v62 m c :=
  (X15_of m c main_v62 (by decide)).trans <| (X14_of m c main_v62 (by decide)).trans <| (X13_of m c main_v62 (by decide)).trans <|
    (X12_of m c main_v62 (by decide)).trans <| X11_hin m c
theorem X15_hraw (c : Dev nD) : X15 m c main_v84 = roundPre1 m c :=
  (X15_of m c main_v84 (by decide)).trans <| (X14_of m c main_v84 (by decide)).trans <| X13_hraw m c
theorem X15_mean (c : Dev nD) : X15 m c main_v85_0 = o_main_v85_0 m c :=
  (X15_of m c main_v85_0 (by decide)).trans <|
    (Function.update_of_ne (StableHlo.devRef_ne_of_ne (by decide)) _ _).trans (Function.update_self _ _ _)
theorem X15_var (c : Dev nD) : X15 m c main_v85_1 = o_main_v85_1 m c :=
  (X15_of m c main_v85_1 (by decide)).trans (Function.update_self _ _ _)
theorem X15_g (c : Dev nD) : X15 m c main_v88 = fun (i : S1x128.Idx) => m ((c : Thread nD τ).loc main_arg7) (ix2 1 (i 1)) := by
  show StableHlo.after hostOps6 (X14 m c) (Proc.devRef .tc main_v88) = _
  rw [host6_g, X14_keep m c main_arg7 (by decide), X5_arg m c main_arg7 (by decide)]
  rfl
theorem X15_b (c : Dev nD) : X15 m c main_v91 = fun (i : S1x128.Idx) => m ((c : Thread nD τ).loc main_arg8) (ix2 1 (i 1)) := by
  show StableHlo.after hostOps6 (X14 m c) (Proc.devRef .tc main_v91) = _
  rw [host6_b, X14_keep m c main_arg8 (by decide), X5_arg m c main_arg8 (by decide)]
  rfl
theorem round1_eq (c : Dev nD) : o_main_v92 m c
    = Spec.layerK (launchAgg m c) ((launchParams m c).W 1) ((launchParams m c).b 1) ((launchParams m c).γ 1) ((launchParams m c).β 1) (o_main_v62 m c) :=
  (out6_eq (Vt (X15 m)) c).trans (bn_of (X15_hraw m c) (X15_hin m c) ((X15_mean m c).trans (colMean1_eq m c))
    ((X15_var m c).trans (colVar1_eq m c)) (X15_g m c) (X15_b m c))

theorem X17_hin (c : Dev nD) : X17 m c main_v92 = o_main_v92 m c :=
  (X17_of m c main_v92 (by decide)).trans (Function.update_self _ _ _)
theorem X17_w (c : Dev nD) : X17 m c main_v94 = fun (i : S128x128.Idx) => m ((c : Thread nD τ).loc main_arg5) (ix3 2 (i 0) (i 1)) := by
  show StableHlo.after hostOps7 (X16 m c) (Proc.devRef .tc main_v94) = _
  rw [host7_w, X16_keep m c main_arg5 (by decide), X5_arg m c main_arg5 (by decide)]
  rfl
theorem X17_zb (c : Dev nD) : X17 m c main_v95 = fun (_ : S1x128.Idx) => (0 : EReal) := by
  show StableHlo.after hostOps7 (X16 m c) (Proc.devRef .tc main_v95) = _
  rw [host7_zb, X16_keep m c main_v32 (by decide), X5_v32]
  rfl
theorem roundLin2_eq (c : Dev nD) : o_main_v96 m c = Spec.lin (o_main_v92 m c) ((launchParams m c).W 2) (fun _ => 0) :=
  (out7_eq (Vt (X17 m)) c).trans (lin_of (X17_hin m c) (X17_w m c) (X17_zb m c))
def roundPre2 (c : Dev nD) : Mat 50000 128 :=
  fun i => launchAgg m c (Spec.lin (o_main_v92 m c) ((launchParams m c).W 2) fun _ => 0) i + (launchParams m c).b 2 (i 1)
theorem X18_x (c : Dev nD) : X18 m c main_v96 = o_main_v96 m c := Function.update_self _ _ _
theorem X19_hraw (c : Dev nD) : X19 m c main_v114 = roundPre2 m c := by
  show StableHlo.after hostOps8 (X18 m c) (Proc.devRef .tc main_v114) = _
  rw [host8_hraw, X18_keep m c main_v3 (by decide), X5_v3, X18_keep m c main_v6 (by decide), X5_v6, X18_keep m c main_v29 (by decide), X5_v29, X18_keep m c main_arg6 (by decide), X5_arg m c main_arg6 (by decide), X18_x, roundLin2_eq]
  rfl
theorem colMean2_eq (c : Dev nD) : o_main_v115_0 m c = fun (i : S1x128.Idx) => Spec.meanK (roundPre2 m c) (i 1) :=
  (mean8_eq (Vt (X19 m)) c).trans (mean_of (X19_hraw m c))
theorem colVar2_eq (c : Dev nD) : o_main_v115_1 m c = fun (i : S1x128.Idx) => Spec.varK (roundPre2 m c) (i 1) :=
  (var8_eq (Vt (X19 m)) c).trans (var_of (X19_hraw m c))
theorem X21_hin (c : Dev nD) : X21 m c main_v92 = o_main_v92 m c :=
  (X21_of m c main_v92 (by decide)).trans <| (X20_of m c main_v92 (by decide)).trans <| (X19_of m c main_v92 (by decide)).trans <|
    (X18_of m c main_v92 (by decide)).trans <| X17_hin m c
theorem X21_hraw (c : Dev nD) : X21 m c main_v114 = roundPre2 m c :=
  (X21_of m c main_v114 (by decide)).trans <| (X20_of m c main_v114 (by decide)).trans <| X19_hraw m c
theorem X21_mean (c : Dev nD) : X21 m c main_v115_0 = o_main_v115_0 m c :=
  (X21_of m c main_v115_0 (by decide)).trans <|
    (Function.update_of_ne (StableHlo.devRef_ne_of_ne (by decide)) _ _).trans (Function.update_self _ _ _)
theorem X21_var (c : Dev nD) : X21 m c main_v115_1 = o_main_v115_1 m c :=
  (X21_of m c main_v115_1 (by decide)).trans (Function.update_self _ _ _)
theorem X21_g (c : Dev nD) : X21 m c main_v118 = fun (i : S1x128.Idx) => m ((c : Thread nD τ).loc main_arg7) (ix2 2 (i 1)) := by
  show StableHlo.after hostOps9 (X20 m c) (Proc.devRef .tc main_v118) = _
  rw [host9_g, X20_keep m c main_arg7 (by decide), X5_arg m c main_arg7 (by decide)]
  rfl
theorem X21_b (c : Dev nD) : X21 m c main_v121 = fun (i : S1x128.Idx) => m ((c : Thread nD τ).loc main_arg8) (ix2 2 (i 1)) := by
  show StableHlo.after hostOps9 (X20 m c) (Proc.devRef .tc main_v121) = _
  rw [host9_b, X20_keep m c main_arg8 (by decide), X5_arg m c main_arg8 (by decide)]
  rfl
theorem round2_eq (c : Dev nD) : o_main_v122 m c
    = Spec.layerK (launchAgg m c) ((launchParams m c).W 2) ((launchParams m c).b 2) ((launchParams m c).γ 2) ((launchParams m c).β 2) (o_main_v92 m c) :=
  (out9_eq (Vt (X21 m)) c).trans (bn_of (X21_hraw m c) (X21_hin m c) ((X21_mean m c).trans (colMean2_eq m c))
    ((X21_var m c).trans (colVar2_eq m c)) (X21_g m c) (X21_b m c))

theorem X23_hin (c : Dev nD) : X23 m c main_v122 = o_main_v122 m c :=
  (X23_of m c main_v122 (by decide)).trans (Function.update_self _ _ _)
theorem X23_w (c : Dev nD) : X23 m c main_v124 = fun (i : S128x128.Idx) => m ((c : Thread nD τ).loc main_arg5) (ix3 3 (i 0) (i 1)) := by
  show StableHlo.after hostOps10 (X22 m c) (Proc.devRef .tc main_v124) = _
  rw [host10_w, X22_keep m c main_arg5 (by decide), X5_arg m c main_arg5 (by decide)]
  rfl
theorem X23_zb (c : Dev nD) : X23 m c main_v125 = fun (_ : S1x128.Idx) => (0 : EReal) := by
  show StableHlo.after hostOps10 (X22 m c) (Proc.devRef .tc main_v125) = _
  rw [host10_zb, X22_keep m c main_v32 (by decide), X5_v32]
  rfl
theorem roundLin3_eq (c : Dev nD) : o_main_v126 m c = Spec.lin (o_main_v122 m c) ((launchParams m c).W 3) (fun _ => 0) :=
  (out10_eq (Vt (X23 m)) c).trans (lin_of (X23_hin m c) (X23_w m c) (X23_zb m c))
def roundPre3 (c : Dev nD) : Mat 50000 128 :=
  fun i => launchAgg m c (Spec.lin (o_main_v122 m c) ((launchParams m c).W 3) fun _ => 0) i + (launchParams m c).b 3 (i 1)
theorem X24_x (c : Dev nD) : X24 m c main_v126 = o_main_v126 m c := Function.update_self _ _ _
theorem X25_hraw (c : Dev nD) : X25 m c main_v144 = roundPre3 m c := by
  show StableHlo.after hostOps11 (X24 m c) (Proc.devRef .tc main_v144) = _
  rw [host11_hraw, X24_keep m c main_v3 (by decide), X5_v3, X24_keep m c main_v6 (by decide), X5_v6, X24_keep m c main_v29 (by decide), X5_v29, X24_keep m c main_arg6 (by decide), X5_arg m c main_arg6 (by decide), X24_x, roundLin3_eq]
  rfl
theorem colMean3_eq (c : Dev nD) : o_main_v145_0 m c = fun (i : S1x128.Idx) => Spec.meanK (roundPre3 m c) (i 1) :=
  (mean11_eq (Vt (X25 m)) c).trans (mean_of (X25_hraw m c))
theorem colVar3_eq (c : Dev nD) : o_main_v145_1 m c = fun (i : S1x128.Idx) => Spec.varK (roundPre3 m c) (i 1) :=
  (var11_eq (Vt (X25 m)) c).trans (var_of (X25_hraw m c))
theorem X27_hin (c : Dev nD) : X27 m c main_v122 = o_main_v122 m c :=
  (X27_of m c main_v122 (by decide)).trans <| (X26_of m c main_v122 (by decide)).trans <| (X25_of m c main_v122 (by decide)).trans <|
    (X24_of m c main_v122 (by decide)).trans <| X23_hin m c
theorem X27_hraw (c : Dev nD) : X27 m c main_v144 = roundPre3 m c :=
  (X27_of m c main_v144 (by decide)).trans <| (X26_of m c main_v144 (by decide)).trans <| X25_hraw m c
theorem X27_mean (c : Dev nD) : X27 m c main_v145_0 = o_main_v145_0 m c :=
  (X27_of m c main_v145_0 (by decide)).trans <|
    (Function.update_of_ne (StableHlo.devRef_ne_of_ne (by decide)) _ _).trans (Function.update_self _ _ _)
theorem X27_var (c : Dev nD) : X27 m c main_v145_1 = o_main_v145_1 m c :=
  (X27_of m c main_v145_1 (by decide)).trans (Function.update_self _ _ _)
theorem X27_g (c : Dev nD) : X27 m c main_v148 = fun (i : S1x128.Idx) => m ((c : Thread nD τ).loc main_arg7) (ix2 3 (i 1)) := by
  show StableHlo.after hostOps12 (X26 m c) (Proc.devRef .tc main_v148) = _
  rw [host12_g, X26_keep m c main_arg7 (by decide), X5_arg m c main_arg7 (by decide)]
  rfl
theorem X27_b (c : Dev nD) : X27 m c main_v151 = fun (i : S1x128.Idx) => m ((c : Thread nD τ).loc main_arg8) (ix2 3 (i 1)) := by
  show StableHlo.after hostOps12 (X26 m c) (Proc.devRef .tc main_v151) = _
  rw [host12_b, X26_keep m c main_arg8 (by decide), X5_arg m c main_arg8 (by decide)]
  rfl
theorem round3_eq (c : Dev nD) : o_main_v152 m c
    = Spec.layerK (launchAgg m c) ((launchParams m c).W 3) ((launchParams m c).b 3) ((launchParams m c).γ 3) ((launchParams m c).β 3) (o_main_v122 m c) :=
  (out12_eq (Vt (X27 m)) c).trans (bn_of (X27_hraw m c) (X27_hin m c) ((X27_mean m c).trans (colMean3_eq m c))
    ((X27_var m c).trans (colVar3_eq m c)) (X27_g m c) (X27_b m c))

theorem X29_h4 (c : Dev nD) : X29 m c main_v152 = o_main_v152 m c :=
  (X29_of m c main_v152 (by decide)).trans (Function.update_self _ _ _)
theorem X29_v153 (c : Dev nD) : X29 m c main_v153 = fun (i : S1x10.Idx) => m ((c : Thread nD τ).loc main_arg10) (ix1 (i 1)) := by
  show StableHlo.after hostOps13 (X28 m c) (Proc.devRef .tc main_v153) = _
  rw [host13_v153, X28_keep m c main_arg10 (by decide), X5_arg m c main_arg10 (by decide)]
  rfl
theorem head_eq (c : Dev nD) : o_main_v154 m c = Spec.head (o_main_v152 m c) (launchParams m c).Wmlp (launchParams m c).bmlp :=
  (out13_eq (Vt (X29 m)) c).trans (head_of (X29_h4 m c) (X29_keep m c main_arg9 (by decide) |>.trans (X5_arg m c main_arg9 (by decide))) (X29_v153 m c))

theorem final_eq (c : Dev nD) : (o_main_v154 (F := Ideal) m c : S50000x10.Idx → EReal)
    = Cert.Spec.netK (Cert.Spec.agg (m ((c : Thread nD τ).loc main_arg1)))
        (Cert.Spec.mkParams (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))) := by
  rw [head_eq, round3_eq, round2_eq, round1_eq, round0_eq, embed_eq]
  rfl

end Cert.KernelIdeal.Gen

end
-- ==== Proof.Ref.Ops.lean ====
import proofs.«137587_j59279138619792_1_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- What the straight-line run asks of a list of operations, with a list holding every reference they write.
structure Line (ops : List (HloOp τ sig (Elt F))) (W : List (Ref sig .tc)) : Prop where
  sub : ops.Forall fun op => op.bufs ⊆ tcRefs τ sig
  fresh : ∀ op ∈ ops, op.fresh = ∅
  writes : ops.Forall fun op => op.writes ⊆ (W.map (Proc.devRef (τ := τ) .tc)).toFinset

theorem writes_mono {W W' : List (Ref sig .tc)} (h : W ⊆ W') {ops : List (HloOp τ sig (Elt F))}
    (hw : ops.Forall fun op => op.writes ⊆ (W.map (Proc.devRef (τ := τ) .tc)).toFinset) :
    ops.Forall fun op => op.writes ⊆ (W'.map (Proc.devRef (τ := τ) .tc)).toFinset :=
  hw.imp fun _ hs _ hb => List.mem_toFinset.mpr (List.map_subset _ h (List.mem_toFinset.mp (hs hb)))

-- Operations that each write exactly the reference listed at their place.
theorem Line.of {ops : List (HloOp τ sig (Elt F))} {W : List (Ref sig .tc)}
    (h : List.Forall₂ (fun op y => op.writes = {Proc.devRef (τ := τ) .tc y} ∧ op.fresh = ∅ ∧ op.bufs ⊆ tcRefs τ sig) ops W) : Line ops W := by
  induction h with
  | nil => exact ⟨trivial, (fun _ h => nomatch h), trivial⟩
  | @cons op y ops W hab _ ih =>
    refine ⟨(List.forall_cons _ _ _).mpr ⟨hab.2.2, ih.sub⟩, fun o ho => ?_,
      (List.forall_cons _ _ _).mpr ⟨?_, writes_mono (List.subset_cons_self _ _) ih.writes⟩⟩
    · rcases List.mem_cons.mp ho with rfl | ho
      exacts [hab.2.1, ih.fresh o ho]
    · rw [hab.1, Finset.singleton_subset_iff, List.mem_toFinset]
      exact List.mem_map_of_mem List.mem_cons_self

theorem Line.append {l₁ l₂ : List (HloOp τ sig (Elt F))} {W₁ W₂ : List (Ref sig .tc)} (h₁ : Line l₁ W₁) (h₂ : Line l₂ W₂) :
    Line (l₁ ++ l₂) (W₁ ++ W₂) :=
  ⟨List.forall_append.mpr ⟨h₁.sub, h₂.sub⟩, fun o ho => (List.mem_append.mp ho).elim (h₁.fresh o) (h₂.fresh o),
    List.forall_append.mpr ⟨writes_mono (List.subset_append_left _ _) h₁.writes, writes_mono (List.subset_append_right _ _) h₂.writes⟩⟩

-- A reference outside the list keeps its contents.
theorem Line.keep {l : List (HloOp τ sig (Elt F))} {W : List (Ref sig .tc)} (h : Line l W) (V : Valuation τ sig (Elt F)) {r : Ref sig .tc}
    (hr : r ∉ W) : after l V (no_index (Proc.devRef .tc r)) = V (Proc.devRef .tc r) :=
  after_of_writes_sub l V h.writes hr

def cat_main_v3 : (⟨S800000, .i32⟩ : BufTy).Contents (Elt F) → (⟨S50000, .i32⟩ : BufTy).Contents (Elt F) → (⟨S850000, .i32⟩ : BufTy).Contents (Elt F) :=
  (fun a b => concatenate S850000 0 [⟨S800000, a⟩, ⟨S50000, b⟩] concatenates_S800000_S50000_S850000_d0)
def cat_main_v6 : (⟨S800000, .i32⟩ : BufTy).Contents (Elt F) → (⟨S50000, .i32⟩ : BufTy).Contents (Elt F) → (⟨S850000, .i32⟩ : BufTy).Contents (Elt F) :=
  (fun a b => concatenate S850000 0 [⟨S800000, a⟩, ⟨S50000, b⟩] concatenates_S800000_S50000_S850000_d0)

abbrev pc0 : List (HloOp τ sig (Elt F)) :=
  [ nullary main_v0 (iotaInDim S50000 32 0),
    unary main_arg1 main_v1 (extractStridedSlice S1x800000 ![0, 0] · slices_S2x800000_S1x800000_0_0),
    reshape main_v1 main_v2 rfl shapeCasts_S1x800000_S800000,
    binary main_v2 main_v0 main_v3 (cat_main_v3 (F := F)),
    unary main_arg1 main_v4 (extractStridedSlice S1x800000 ![1, 0] · slices_S2x800000_S1x800000_1_0),
    reshape main_v4 main_v5 rfl shapeCasts_S1x800000_S800000,
    binary main_v5 main_v0 main_v6 (cat_main_v6 (F := F)),
    nullary main_cst (constant S_ .f32 0x3F800000#32),
    unary main_cst main_v7 (broadcastInDim S850000 ![] bcast_S_S850000),
    nullary main_cst_0 (constant S_ .f32 0x00000000#32),
    unary main_cst_0 main_v8 (broadcastInDim S50000 ![] bcast_S_S50000),
    unary main_v6 main_v9 (broadcastInDim S850000x1 ![0] bcast_S850000_S850000x1_0),
    ternary main_v8 main_v9 main_v7 main_v10 (fun x i u => Host.scatterAdd scatter_S50000_S850000x1_S850000_n_0_0_1 x i u),
    nullary main_cst_1 (constant S_ .f32 0x00000000#32),
    unary main_cst_1 main_v11 (broadcastInDim S50000 ![] bcast_S_S50000),
    binary main_v10 main_v11 main_v12 (cmpf .ogt),
    unary main_v10 main_v13 Host.rsqrt,
    nullary main_cst_2 (constant S_ .f32 0x00000000#32),
    unary main_cst_2 main_call0_v0 id,
    unary main_call0_v0 main_call0_v1 (broadcastInDim S50000 ![] bcast_S_S50000),
    ternary main_v12 main_v13 main_call0_v1 main_v14 select,
    nullary main_c (constantI S_ 32 0#32),
    unary main_c main_v15 (broadcastInDim S850000 ![] bcast_S_S850000),
    binary main_v3 main_v15 main_v16 (cmpi .slt),
    nullary main_c_3 (constantI S_ 32 50000#32),
    unary main_c_3 main_v17 (broadcastInDim S850000 ![] bcast_S_S850000),
    binary main_v3 main_v17 main_v18 addi,
    ternary main_v16 main_v18 main_v3 main_v19 select,
    unary main_v19 main_v20 (broadcastInDim S850000x1 ![0] bcast_S850000_S850000x1_0),
    binary main_v14 main_v20 main_v21 (fun x i => Host.gather gather_S50000_S850000x1_S850000_n_0_n_n_0_1_1 x i),
    nullary main_c_4 (constantI S_ 32 0#32),
    unary main_c_4 main_v22 (broadcastInDim S850000 ![] bcast_S_S850000),
    binary main_v6 main_v22 main_v23 (cmpi .slt),
    nullary main_c_5 (constantI S_ 32 50000#32),
    unary main_c_5 main_v24 (broadcastInDim S850000 ![] bcast_S_S850000),
    binary main_v6 main_v24 main_v25 addi,
    ternary main_v23 main_v25 main_v6 main_v26 select,
    unary main_v26 main_v27 (broadcastInDim S850000x1 ![0] bcast_S850000_S850000x1_0),
    binary main_v14 main_v27 main_v28 (fun x i => Host.gather gather_S50000_S850000x1_S850000_n_0_n_n_0_1_1 x i),
    binary main_v21 main_v28 main_v29 mulf ]

abbrev pc0_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
theorem pc0_line : Line (pc0 (F := F)) pc0_W := .of (by repeat first | exact .nil | refine .cons ⟨rfl, rfl, by simp⟩ ?_)

abbrev pc1 : List (HloOp τ sig (Elt F)) :=
  [ binary main_arg0 main_arg3 main_v30 (fun l r => Host.dotGeneral dot_S50000x128_S128x128_S50000x128_1_0_0_1_n_n none l r),
    unary main_arg4 main_v31 (broadcastInDim S1x128 ![1] bcast_S128_S1x128_1),
    unary main_v31 main_v32 (broadcastInDim S50000x128 ![0, 1] bcast_S1x128_S50000x128_0_1),
    binary main_v30 main_v32 main_v33 addf ]

abbrev pc1_W : List (Ref sig .tc) := [main_v30, main_v31, main_v32, main_v33]
theorem pc1_line : Line (pc1 (F := F)) pc1_W := .of (by repeat first | exact .nil | refine .cons ⟨rfl, rfl, by simp⟩ ?_)

abbrev pc2 : List (HloOp τ sig (Elt F)) :=
  [ unary main_arg5 main_v34 (extractStridedSlice S1x128x128 ![0, 0, 0] · slices_S4x128x128_S1x128x128_0_0_0),
    reshape main_v34 main_v35 rfl shapeCasts_S1x128x128_S128x128,
    binary main_v33 main_v35 main_v36 (fun l r => Host.dotGeneral dot_S50000x128_S128x128_S50000x128_1_0_0_1_n_n none l r),
    nullary main_c_6 (constantI S_ 32 0#32),
    unary main_c_6 main_v37 (broadcastInDim S850000 ![] bcast_S_S850000),
    binary main_v3 main_v37 main_v38 (cmpi .slt),
    nullary main_c_7 (constantI S_ 32 50000#32),
    unary main_c_7 main_v39 (broadcastInDim S850000 ![] bcast_S_S850000),
    binary main_v3 main_v39 main_v40 addi,
    ternary main_v38 main_v40 main_v3 main_v41 select,
    unary main_v41 main_v42 (broadcastInDim S850000x1 ![0] bcast_S850000_S850000x1_0),
    binary main_v36 main_v42 main_v43 (fun x i => Host.gather gather_S50000x128_S850000x1_S850000x128_1_0_n_n_0_1_1128 x i),
    unary main_v29 main_v44 (broadcastInDim S850000x1 ![0] bcast_S850000_S850000x1_0),
    unary main_v44 main_v45 (broadcastInDim S850000x128 ![0, 1] bcast_S850000x1_S850000x128_0_1),
    binary main_v43 main_v45 main_v46 mulf,
    nullary main_cst_8 (constant S_ .f32 0x00000000#32),
    unary main_cst_8 main_v47 (broadcastInDim S50000x128 ![] bcast_S_S50000x128),
    unary main_v6 main_v48 (broadcastInDim S850000x1 ![0] bcast_S850000_S850000x1_0) ]

abbrev pc2_W : List (Ref sig .tc) := [main_v34, main_v35, main_v36, main_c_6, main_v37, main_v38, main_c_7, main_v39, main_v40, main_v41, main_v42, main_v43, main_v44, main_v45, main_v46, main_cst_8, main_v47, main_v48]
theorem pc2_line : Line (pc2 (F := F)) pc2_W := .of (by repeat first | exact .nil | refine .cons ⟨rfl, rfl, by simp⟩ ?_)

abbrev pc3 : List (HloOp τ sig (Elt F)) :=
  [ ternary main_v47 main_v48 main_v46 main_v49 (fun x i u => Host.scatterAdd scatter_S50000x128_S850000x1_S850000x128_1_0_0_1 x i u),
    unary main_arg6 main_v50 (extractStridedSlice S1x128 ![0, 0] · slices_S4x128_S1x128_0_0),
    reshape main_v50 main_v51 rfl shapeCasts_S1x128_S128,
    unary main_v51 main_v52 (broadcastInDim S1x128 ![1] bcast_S128_S1x128_1),
    unary main_v52 main_v53 (broadcastInDim S50000x128 ![0, 1] bcast_S1x128_S50000x128_0_1),
    binary main_v49 main_v53 main_v54 addf ]

abbrev pc3_W : List (Ref sig .tc) := [main_v49, main_v50, main_v51, main_v52, main_v53, main_v54]
theorem pc3_line : Line (pc3 (F := F)) pc3_W := .of (by repeat first | exact .nil | refine .cons ⟨rfl, rfl, by simp⟩ ?_)

abbrev pc4 : List (HloOp τ sig (Elt F)) :=
  [ nullary main_cst_9 (constant S_ .f32 0x00000000#32),
    binary main_v54 main_cst_9 main_v55 (fun x v => Host.reduceAdd x v reducesTo_S50000x128_S128_d0 h_S_),
    nullary main_cst_10 (constant S_ .f32 0x47435000#32),
    unary main_cst_10 main_v56 (broadcastInDim S128 ![] bcast_S_S128),
    binary main_v55 main_v56 main_v57 Host.divf,
    nullary main_c_11 (constantI S_ 32 0#32),
    nullary main_call1_cst (constant S_ .f32 0x00000000#32),
    binary main_v54 main_call1_cst main_call1_v0 (fun x v => Host.reduceAdd x v reducesTo_S50000x128_S128_d0 h_S_),
    unary main_call1_v0 main_call1_v1 (broadcastInDim S1x128 ![1] bcast_S128_S1x128_1),
    nullary main_call1_cst_0 (constant S_ .f32 0x47435000#32),
    unary main_call1_cst_0 main_call1_v2 (broadcastInDim S1x128 ![] bcast_S_S1x128),
    binary main_call1_v1 main_call1_v2 main_call1_v3 Host.divf,
    unary main_call1_v3 main_call1_v4 (broadcastInDim S50000x128 ![0, 1] bcast_S1x128_S50000x128_0_1),
    binary main_v54 main_call1_v4 main_call1_v5 subf,
    binary main_call1_v5 main_call1_v5 main_call1_v6 mulf,
    unary main_c_11 main_call1_v7 (sitofp .f32),
    nullary main_call1_cst_1 (constant S_ .f32 0x47435000#32),
    binary main_call1_cst_1 main_call1_v7 main_call1_v8 subf,
    nullary main_call1_cst_2 (constant S_ .f32 0x00000000#32),
    binary main_call1_v6 main_call1_cst_2 main_call1_v9 (fun x v => Host.reduceAdd x v reducesTo_S50000x128_S128_d0 h_S_),
    unary main_call1_v8 main_call1_v10 (broadcastInDim S128 ![] bcast_S_S128),
    binary main_call1_v9 main_call1_v10 main_call1_v11 Host.divf,
    nullary main_call1_cst_3 (constant S_ .f32 0x00000000#32),
    binary main_call1_v8 main_call1_cst_3 main_call1_v12 (cmpf .ogt),
    nullary main_call1_cst_4 (constant S_ .f32 0x7FC00000#32),
    unary main_call1_cst_4 main_call1_call0_v0 id,
    unary main_call1_call0_v0 main_call1_call0_v1 (broadcastInDim S128 ![] bcast_S_S128),
    ternary main_call1_v12 main_call1_v11 main_call1_call0_v1 main_v58 (fun p a b => select (broadcastInDim S128 ![] bcast_S_S128 p) a b),
    unary main_v57 main_v59 (broadcastInDim S1x128 ![1] bcast_S128_S1x128_1),
    unary main_v59 main_v60 (broadcastInDim S50000x128 ![0, 1] bcast_S1x128_S50000x128_0_1),
    binary main_v54 main_v60 main_v61 subf,
    nullary main_cst_12 (constant S_ .f32 0x3727C5AC#32),
    unary main_cst_12 main_v62 (broadcastInDim S128 ![] bcast_S_S128),
    binary main_v58 main_v62 main_v63 addf,
    unary main_v63 main_v64 Host.rsqrt,
    unary main_v64 main_v65 (broadcastInDim S1x128 ![1] bcast_S128_S1x128_1),
    unary main_v65 main_v66 (broadcastInDim S50000x128 ![0, 1] bcast_S1x128_S50000x128_0_1),
    binary main_v61 main_v66 main_v67 mulf,
    unary main_arg7 main_v68 (extractStridedSlice S1x128 ![0, 0] · slices_S4x128_S1x128_0_0),
    reshape main_v68 main_v69 rfl shapeCasts_S1x128_S128,
    unary main_v69 main_v70 (broadcastInDim S1x128 ![1] bcast_S128_S1x128_1),
    unary main_v70 main_v71 (broadcastInDim S50000x128 ![0, 1] bcast_S1x128_S50000x128_0_1),
    binary main_v67 main_v71 main_v72 mulf,
    unary main_arg8 main_v73 (extractStridedSlice S1x128 ![0, 0] · slices_S4x128_S1x128_0_0),
    reshape main_v73 main_v74 rfl shapeCasts_S1x128_S128,
    unary main_v74 main_v75 (broadcastInDim S1x128 ![1] bcast_S128_S1x128_1),
    unary main_v75 main_v76 (broadcastInDim S50000x128 ![0, 1] bcast_S1x128_S50000x128_0_1),
    binary main_v72 main_v76 main_v77 addf,
    nullary main_call2_cst (constant S_ .f32 0x00000000#32),
    unary main_call2_cst main_call2_v0 (broadcastInDim S50000x128 ![] bcast_S_S50000x128),
    binary main_v77 main_call2_v0 main_v78 maximumf,
    binary main_v33 main_v78 main_v79 addf ]

abbrev pc4_W : List (Ref sig .tc) := [main_cst_9, main_v55, main_cst_10, main_v56, main_v57, main_c_11, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v58, main_v59, main_v60, main_v61, main_cst_12, main_v62, main_v63, main_v64, main_v65, main_v66, main_v67, main_v68, main_v69, main_v70, main_v71, main_v72, main_v73, main_v74, main_v75, main_v76, main_v77, main_call2_cst, main_call2_v0, main_v78, main_v79]
theorem pc4_line : Line (pc4 (F := F)) pc4_W := .of (by repeat first | exact .nil | refine .cons ⟨rfl, rfl, by simp⟩ ?_)

abbrev pc5 : List (HloOp τ sig (Elt F)) :=
  [ unary main_arg5 main_v80 (extractStridedSlice S1x128x128 ![1, 0, 0] · slices_S4x128x128_S1x128x128_1_0_0),
    reshape main_v80 main_v81 rfl shapeCasts_S1x128x128_S128x128,
    binary main_v79 main_v81 main_v82 (fun l r => Host.dotGeneral dot_S50000x128_S128x128_S50000x128_1_0_0_1_n_n none l r),
    nullary main_c_13 (constantI S_ 32 0#32),
    unary main_c_13 main_v83 (broadcastInDim S850000 ![] bcast_S_S850000),
    binary main_v3 main_v83 main_v84 (cmpi .slt),
    nullary main_c_14 (constantI S_ 32 50000#32),
    unary main_c_14 main_v85 (broadcastInDim S850000 ![] bcast_S_S850000),
    binary main_v3 main_v85 main_v86 addi,
    ternary main_v84 main_v86 main_v3 main_v87 select,
    unary main_v87 main_v88 (broadcastInDim S850000x1 ![0] bcast_S850000_S850000x1_0),
    binary main_v82 main_v88 main_v89 (fun x i => Host.gather gather_S50000x128_S850000x1_S850000x128_1_0_n_n_0_1_1128 x i),
    unary main_v29 main_v90 (broadcastInDim S850000x1 ![0] bcast_S850000_S850000x1_0),
    unary main_v90 main_v91 (broadcastInDim S850000x128 ![0, 1] bcast_S850000x1_S850000x128_0_1),
    binary main_v89 main_v91 main_v92 mulf,
    nullary main_cst_15 (constant S_ .f32 0x00000000#32),
    unary main_cst_15 main_v93 (broadcastInDim S50000x128 ![] bcast_S_S50000x128),
    unary main_v6 main_v94 (broadcastInDim S850000x1 ![0] bcast_S850000_S850000x1_0),
    ternary main_v93 main_v94 main_v92 main_v95 (fun x i u => Host.scatterAdd scatter_S50000x128_S850000x1_S850000x128_1_0_0_1 x i u),
    unary main_arg6 main_v96 (extractStridedSlice S1x128 ![1, 0] · slices_S4x128_S1x128_1_0),
    reshape main_v96 main_v97 rfl shapeCasts_S1x128_S128,
    unary main_v97 main_v98 (broadcastInDim S1x128 ![1] bcast_S128_S1x128_1),
    unary main_v98 main_v99 (broadcastInDim S50000x128 ![0, 1] bcast_S1x128_S50000x128_0_1),
    binary main_v95 main_v99 main_v100 addf ]

abbrev pc5_W : List (Ref sig .tc) := [main_v80, main_v81, main_v82, main_c_13, main_v83, main_v84, main_c_14, main_v85, main_v86, main_v87, main_v88, main_v89, main_v90, main_v91, main_v92, main_cst_15, main_v93, main_v94, main_v95, main_v96, main_v97, main_v98, main_v99, main_v100]
theorem pc5_line : Line (pc5 (F := F)) pc5_W := .of (by repeat first | exact .nil | refine .cons ⟨rfl, rfl, by simp⟩ ?_)

abbrev pc6 : List (HloOp τ sig (Elt F)) :=
  [ nullary main_cst_16 (constant S_ .f32 0x00000000#32) ]

abbrev pc6_W : List (Ref sig .tc) := [main_cst_16]
theorem pc6_line : Line (pc6 (F := F)) pc6_W := .of (by repeat first | exact .nil | refine .cons ⟨rfl, rfl, by simp⟩ ?_)

abbrev pc7 : List (HloOp τ sig (Elt F)) :=
  [ binary main_v100 main_cst_16 main_v101 (fun x v => Host.reduceAdd x v reducesTo_S50000x128_S128_d0 h_S_),
    nullary main_cst_17 (constant S_ .f32 0x47435000#32),
    unary main_cst_17 main_v102 (broadcastInDim S128 ![] bcast_S_S128),
    binary main_v101 main_v102 main_v103 Host.divf,
    nullary main_c_18 (constantI S_ 32 0#32),
    nullary main_call3_cst (constant S_ .f32 0x00000000#32),
    binary main_v100 main_call3_cst main_call3_v0 (fun x v => Host.reduceAdd x v reducesTo_S50000x128_S128_d0 h_S_),
    unary main_call3_v0 main_call3_v1 (broadcastInDim S1x128 ![1] bcast_S128_S1x128_1),
    nullary main_call3_cst_0 (constant S_ .f32 0x47435000#32),
    unary main_call3_cst_0 main_call3_v2 (broadcastInDim S1x128 ![] bcast_S_S1x128),
    binary main_call3_v1 main_call3_v2 main_call3_v3 Host.divf,
    unary main_call3_v3 main_call3_v4 (broadcastInDim S50000x128 ![0, 1] bcast_S1x128_S50000x128_0_1),
    binary main_v100 main_call3_v4 main_call3_v5 subf,
    binary main_call3_v5 main_call3_v5 main_call3_v6 mulf,
    unary main_c_18 main_call3_v7 (sitofp .f32),
    nullary main_call3_cst_1 (constant S_ .f32 0x47435000#32),
    binary main_call3_cst_1 main_call3_v7 main_call3_v8 subf,
    nullary main_call3_cst_2 (constant S_ .f32 0x00000000#32),
    binary main_call3_v6 main_call3_cst_2 main_call3_v9 (fun x v => Host.reduceAdd x v reducesTo_S50000x128_S128_d0 h_S_),
    unary main_call3_v8 main_call3_v10 (broadcastInDim S128 ![] bcast_S_S128),
    binary main_call3_v9 main_call3_v10 main_call3_v11 Host.divf,
    nullary main_call3_cst_3 (constant S_ .f32 0x00000000#32),
    binary main_call3_v8 main_call3_cst_3 main_call3_v12 (cmpf .ogt),
    nullary main_call3_cst_4 (constant S_ .f32 0x7FC00000#32),
    unary main_call3_cst_4 main_call3_call0_v0 id,
    unary main_call3_call0_v0 main_call3_call0_v1 (broadcastInDim S128 ![] bcast_S_S128),
    ternary main_call3_v12 main_call3_v11 main_call3_call0_v1 main_v104 (fun p a b => select (broadcastInDim S128 ![] bcast_S_S128 p) a b),
    unary main_v103 main_v105 (broadcastInDim S1x128 ![1] bcast_S128_S1x128_1),
    unary main_v105 main_v106 (broadcastInDim S50000x128 ![0, 1] bcast_S1x128_S50000x128_0_1),
    binary main_v100 main_v106 main_v107 subf,
    nullary main_cst_19 (constant S_ .f32 0x3727C5AC#32),
    unary main_cst_19 main_v108 (broadcastInDim S128 ![] bcast_S_S128),
    binary main_v104 main_v108 main_v109 addf,
    unary main_v109 main_v110 Host.rsqrt,
    unary main_v110 main_v111 (broadcastInDim S1x128 ![1] bcast_S128_S1x128_1),
    unary main_v111 main_v112 (broadcastInDim S50000x128 ![0, 1] bcast_S1x128_S50000x128_0_1),
    binary main_v107 main_v112 main_v113 mulf,
    unary main_arg7 main_v114 (extractStridedSlice S1x128 ![1, 0] · slices_S4x128_S1x128_1_0),
    reshape main_v114 main_v115 rfl shapeCasts_S1x128_S128,
    unary main_v115 main_v116 (broadcastInDim S1x128 ![1] bcast_S128_S1x128_1),
    unary main_v116 main_v117 (broadcastInDim S50000x128 ![0, 1] bcast_S1x128_S50000x128_0_1),
    binary main_v113 main_v117 main_v118 mulf,
    unary main_arg8 main_v119 (extractStridedSlice S1x128 ![1, 0] · slices_S4x128_S1x128_1_0),
    reshape main_v119 main_v120 rfl shapeCasts_S1x128_S128,
    unary main_v120 main_v121 (broadcastInDim S1x128 ![1] bcast_S128_S1x128_1),
    unary main_v121 main_v122 (broadcastInDim S50000x128 ![0, 1] bcast_S1x128_S50000x128_0_1),
    binary main_v118 main_v122 main_v123 addf,
    nullary main_call4_cst (constant S_ .f32 0x00000000#32),
    unary main_call4_cst main_call4_v0 (broadcastInDim S50000x128 ![] bcast_S_S50000x128),
    binary main_v123 main_call4_v0 main_v124 maximumf,
    binary main_v79 main_v124 main_v125 addf ]

abbrev pc7_W : List (Ref sig .tc) := [main_v101, main_cst_17, main_v102, main_v103, main_c_18, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v104, main_v105, main_v106, main_v107, main_cst_19, main_v108, main_v109, main_v110, main_v111, main_v112, main_v113, main_v114, main_v115, main_v116, main_v117, main_v118, main_v119, main_v120, main_v121, main_v122, main_v123, main_call4_cst, main_call4_v0, main_v124, main_v125]
theorem pc7_line : Line (pc7 (F := F)) pc7_W := .of (by repeat first | exact .nil | refine .cons ⟨rfl, rfl, by simp⟩ ?_)

abbrev pc8 : List (HloOp τ sig (Elt F)) :=
  [ unary main_arg5 main_v126 (extractStridedSlice S1x128x128 ![2, 0, 0] · slices_S4x128x128_S1x128x128_2_0_0),
    reshape main_v126 main_v127 rfl shapeCasts_S1x128x128_S128x128,
    binary main_v125 main_v127 main_v128 (fun l r => Host.dotGeneral dot_S50000x128_S128x128_S50000x128_1_0_0_1_n_n none l r),
    nullary main_c_20 (constantI S_ 32 0#32),
    unary main_c_20 main_v129 (broadcastInDim S850000 ![] bcast_S_S850000),
    binary main_v3 main_v129 main_v130 (cmpi .slt),
    nullary main_c_21 (constantI S_ 32 50000#32),
    unary main_c_21 main_v131 (broadcastInDim S850000 ![] bcast_S_S850000),
    binary main_v3 main_v131 main_v132 addi,
    ternary main_v130 main_v132 main_v3 main_v133 select,
    unary main_v133 main_v134 (broadcastInDim S850000x1 ![0] bcast_S850000_S850000x1_0),
    binary main_v128 main_v134 main_v135 (fun x i => Host.gather gather_S50000x128_S850000x1_S850000x128_1_0_n_n_0_1_1128 x i),
    unary main_v29 main_v136 (broadcastInDim S850000x1 ![0] bcast_S850000_S850000x1_0),
    unary main_v136 main_v137 (broadcastInDim S850000x128 ![0, 1] bcast_S850000x1_S850000x128_0_1),
    binary main_v135 main_v137 main_v138 mulf,
    nullary main_cst_22 (constant S_ .f32 0x00000000#32),
    unary main_cst_22 main_v139 (broadcastInDim S50000x128 ![] bcast_S_S50000x128),
    unary main_v6 main_v140 (broadcastInDim S850000x1 ![0] bcast_S850000_S850000x1_0),
    ternary main_v139 main_v140 main_v138 main_v141 (fun x i u => Host.scatterAdd scatter_S50000x128_S850000x1_S850000x128_1_0_0_1 x i u),
    unary main_arg6 main_v142 (extractStridedSlice S1x128 ![2, 0] · slices_S4x128_S1x128_2_0),
    reshape main_v142 main_v143 rfl shapeCasts_S1x128_S128,
    unary main_v143 main_v144 (broadcastInDim S1x128 ![1] bcast_S128_S1x128_1),
    unary main_v144 main_v145 (broadcastInDim S50000x128 ![0, 1] bcast_S1x128_S50000x128_0_1),
    binary main_v141 main_v145 main_v146 addf ]

abbrev pc8_W : List (Ref sig .tc) := [main_v126, main_v127, main_v128, main_c_20, main_v129, main_v130, main_c_21, main_v131, main_v132, main_v133, main_v134, main_v135, main_v136, main_v137, main_v138, main_cst_22, main_v139, main_v140, main_v141, main_v142, main_v143, main_v144, main_v145, main_v146]
theorem pc8_line : Line (pc8 (F := F)) pc8_W := .of (by repeat first | exact .nil | refine .cons ⟨rfl, rfl, by simp⟩ ?_)

abbrev pc9 : List (HloOp τ sig (Elt F)) :=
  [ nullary main_cst_23 (constant S_ .f32 0x00000000#32),
    binary main_v146 main_cst_23 main_v147 (fun x v => Host.reduceAdd x v reducesTo_S50000x128_S128_d0 h_S_),
    nullary main_cst_24 (constant S_ .f32 0x47435000#32),
    unary main_cst_24 main_v148 (broadcastInDim S128 ![] bcast_S_S128),
    binary main_v147 main_v148 main_v149 Host.divf,
    nullary main_c_25 (constantI S_ 32 0#32),
    nullary main_call5_cst (constant S_ .f32 0x00000000#32),
    binary main_v146 main_call5_cst main_call5_v0 (fun x v => Host.reduceAdd x v reducesTo_S50000x128_S128_d0 h_S_),
    unary main_call5_v0 main_call5_v1 (broadcastInDim S1x128 ![1] bcast_S128_S1x128_1),
    nullary main_call5_cst_0 (constant S_ .f32 0x47435000#32),
    unary main_call5_cst_0 main_call5_v2 (broadcastInDim S1x128 ![] bcast_S_S1x128),
    binary main_call5_v1 main_call5_v2 main_call5_v3 Host.divf,
    unary main_call5_v3 main_call5_v4 (broadcastInDim S50000x128 ![0, 1] bcast_S1x128_S50000x128_0_1),
    binary main_v146 main_call5_v4 main_call5_v5 subf,
    binary main_call5_v5 main_call5_v5 main_call5_v6 mulf,
    unary main_c_25 main_call5_v7 (sitofp .f32),
    nullary main_call5_cst_1 (constant S_ .f32 0x47435000#32),
    binary main_call5_cst_1 main_call5_v7 main_call5_v8 subf,
    nullary main_call5_cst_2 (constant S_ .f32 0x00000000#32),
    binary main_call5_v6 main_call5_cst_2 main_call5_v9 (fun x v => Host.reduceAdd x v reducesTo_S50000x128_S128_d0 h_S_),
    unary main_call5_v8 main_call5_v10 (broadcastInDim S128 ![] bcast_S_S128),
    binary main_call5_v9 main_call5_v10 main_call5_v11 Host.divf,
    nullary main_call5_cst_3 (constant S_ .f32 0x00000000#32),
    binary main_call5_v8 main_call5_cst_3 main_call5_v12 (cmpf .ogt),
    nullary main_call5_cst_4 (constant S_ .f32 0x7FC00000#32),
    unary main_call5_cst_4 main_call5_call0_v0 id,
    unary main_call5_call0_v0 main_call5_call0_v1 (broadcastInDim S128 ![] bcast_S_S128),
    ternary main_call5_v12 main_call5_v11 main_call5_call0_v1 main_v150 (fun p a b => select (broadcastInDim S128 ![] bcast_S_S128 p) a b),
    unary main_v149 main_v151 (broadcastInDim S1x128 ![1] bcast_S128_S1x128_1) ]

abbrev pc9_W : List (Ref sig .tc) := [main_cst_23, main_v147, main_cst_24, main_v148, main_v149, main_c_25, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v150, main_v151]
theorem pc9_line : Line (pc9 (F := F)) pc9_W := .of (by repeat first | exact .nil | refine .cons ⟨rfl, rfl, by simp⟩ ?_)

abbrev pc10 : List (HloOp τ sig (Elt F)) :=
  [ unary main_v151 main_v152 (broadcastInDim S50000x128 ![0, 1] bcast_S1x128_S50000x128_0_1),
    binary main_v146 main_v152 main_v153 subf,
    nullary main_cst_26 (constant S_ .f32 0x3727C5AC#32),
    unary main_cst_26 main_v154 (broadcastInDim S128 ![] bcast_S_S128),
    binary main_v150 main_v154 main_v155 addf,
    unary main_v155 main_v156 Host.rsqrt,
    unary main_v156 main_v157 (broadcastInDim S1x128 ![1] bcast_S128_S1x128_1),
    unary main_v157 main_v158 (broadcastInDim S50000x128 ![0, 1] bcast_S1x128_S50000x128_0_1),
    binary main_v153 main_v158 main_v159 mulf,
    unary main_arg7 main_v160 (extractStridedSlice S1x128 ![2, 0] · slices_S4x128_S1x128_2_0),
    reshape main_v160 main_v161 rfl shapeCasts_S1x128_S128,
    unary main_v161 main_v162 (broadcastInDim S1x128 ![1] bcast_S128_S1x128_1),
    unary main_v162 main_v163 (broadcastInDim S50000x128 ![0, 1] bcast_S1x128_S50000x128_0_1),
    binary main_v159 main_v163 main_v164 mulf,
    unary main_arg8 main_v165 (extractStridedSlice S1x128 ![2, 0] · slices_S4x128_S1x128_2_0),
    reshape main_v165 main_v166 rfl shapeCasts_S1x128_S128,
    unary main_v166 main_v167 (broadcastInDim S1x128 ![1] bcast_S128_S1x128_1),
    unary main_v167 main_v168 (broadcastInDim S50000x128 ![0, 1] bcast_S1x128_S50000x128_0_1),
    binary main_v164 main_v168 main_v169 addf,
    nullary main_call6_cst (constant S_ .f32 0x00000000#32),
    unary main_call6_cst main_call6_v0 (broadcastInDim S50000x128 ![] bcast_S_S50000x128),
    binary main_v169 main_call6_v0 main_v170 maximumf,
    binary main_v125 main_v170 main_v171 addf ]

abbrev pc10_W : List (Ref sig .tc) := [main_v152, main_v153, main_cst_26, main_v154, main_v155, main_v156, main_v157, main_v158, main_v159, main_v160, main_v161, main_v162, main_v163, main_v164, main_v165, main_v166, main_v167, main_v168, main_v169, main_call6_cst, main_call6_v0, main_v170, main_v171]
theorem pc10_line : Line (pc10 (F := F)) pc10_W := .of (by repeat first | exact .nil | refine .cons ⟨rfl, rfl, by simp⟩ ?_)

abbrev pc11 : List (HloOp τ sig (Elt F)) :=
  [ unary main_arg5 main_v172 (extractStridedSlice S1x128x128 ![3, 0, 0] · slices_S4x128x128_S1x128x128_3_0_0),
    reshape main_v172 main_v173 rfl shapeCasts_S1x128x128_S128x128,
    binary main_v171 main_v173 main_v174 (fun l r => Host.dotGeneral dot_S50000x128_S128x128_S50000x128_1_0_0_1_n_n none l r),
    nullary main_c_27 (constantI S_ 32 0#32),
    unary main_c_27 main_v175 (broadcastInDim S850000 ![] bcast_S_S850000),
    binary main_v3 main_v175 main_v176 (cmpi .slt),
    nullary main_c_28 (constantI S_ 32 50000#32),
    unary main_c_28 main_v177 (broadcastInDim S850000 ![] bcast_S_S850000),
    binary main_v3 main_v177 main_v178 addi,
    ternary main_v176 main_v178 main_v3 main_v179 select,
    unary main_v179 main_v180 (broadcastInDim S850000x1 ![0] bcast_S850000_S850000x1_0),
    binary main_v174 main_v180 main_v181 (fun x i => Host.gather gather_S50000x128_S850000x1_S850000x128_1_0_n_n_0_1_1128 x i),
    unary main_v29 main_v182 (broadcastInDim S850000x1 ![0] bcast_S850000_S850000x1_0),
    unary main_v182 main_v183 (broadcastInDim S850000x128 ![0, 1] bcast_S850000x1_S850000x128_0_1),
    binary main_v181 main_v183 main_v184 mulf,
    nullary main_cst_29 (constant S_ .f32 0x00000000#32),
    unary main_cst_29 main_v185 (broadcastInDim S50000x128 ![] bcast_S_S50000x128),
    unary main_v6 main_v186 (broadcastInDim S850000x1 ![0] bcast_S850000_S850000x1_0),
    ternary main_v185 main_v186 main_v184 main_v187 (fun x i u => Host.scatterAdd scatter_S50000x128_S850000x1_S850000x128_1_0_0_1 x i u),
    unary main_arg6 main_v188 (extractStridedSlice S1x128 ![3, 0] · slices_S4x128_S1x128_3_0),
    reshape main_v188 main_v189 rfl shapeCasts_S1x128_S128,
    unary main_v189 main_v190 (broadcastInDim S1x128 ![1] bcast_S128_S1x128_1),
    unary main_v190 main_v191 (broadcastInDim S50000x128 ![0, 1] bcast_S1x128_S50000x128_0_1),
    binary main_v187 main_v191 main_v192 addf ]

abbrev pc11_W : List (Ref sig .tc) := [main_v172, main_v173, main_v174, main_c_27, main_v175, main_v176, main_c_28, main_v177, main_v178, main_v179, main_v180, main_v181, main_v182, main_v183, main_v184, main_cst_29, main_v185, main_v186, main_v187, main_v188, main_v189, main_v190, main_v191, main_v192]
theorem pc11_line : Line (pc11 (F := F)) pc11_W := .of (by repeat first | exact .nil | refine .cons ⟨rfl, rfl, by simp⟩ ?_)

abbrev pc12 : List (HloOp τ sig (Elt F)) :=
  [ nullary main_cst_30 (constant S_ .f32 0x00000000#32),
    binary main_v192 main_cst_30 main_v193 (fun x v => Host.reduceAdd x v reducesTo_S50000x128_S128_d0 h_S_),
    nullary main_cst_31 (constant S_ .f32 0x47435000#32),
    unary main_cst_31 main_v194 (broadcastInDim S128 ![] bcast_S_S128),
    binary main_v193 main_v194 main_v195 Host.divf,
    nullary main_c_32 (constantI S_ 32 0#32),
    nullary main_call7_cst (constant S_ .f32 0x00000000#32),
    binary main_v192 main_call7_cst main_call7_v0 (fun x v => Host.reduceAdd x v reducesTo_S50000x128_S128_d0 h_S_),
    unary main_call7_v0 main_call7_v1 (broadcastInDim S1x128 ![1] bcast_S128_S1x128_1),
    nullary main_call7_cst_0 (constant S_ .f32 0x47435000#32),
    unary main_call7_cst_0 main_call7_v2 (broadcastInDim S1x128 ![] bcast_S_S1x128),
    binary main_call7_v1 main_call7_v2 main_call7_v3 Host.divf,
    unary main_call7_v3 main_call7_v4 (broadcastInDim S50000x128 ![0, 1] bcast_S1x128_S50000x128_0_1),
    binary main_v192 main_call7_v4 main_call7_v5 subf,
    binary main_call7_v5 main_call7_v5 main_call7_v6 mulf,
    unary main_c_32 main_call7_v7 (sitofp .f32),
    nullary main_call7_cst_1 (constant S_ .f32 0x47435000#32),
    binary main_call7_cst_1 main_call7_v7 main_call7_v8 subf,
    nullary main_call7_cst_2 (constant S_ .f32 0x00000000#32),
    binary main_call7_v6 main_call7_cst_2 main_call7_v9 (fun x v => Host.reduceAdd x v reducesTo_S50000x128_S128_d0 h_S_),
    unary main_call7_v8 main_call7_v10 (broadcastInDim S128 ![] bcast_S_S128),
    binary main_call7_v9 main_call7_v10 main_call7_v11 Host.divf,
    nullary main_call7_cst_3 (constant S_ .f32 0x00000000#32),
    binary main_call7_v8 main_call7_cst_3 main_call7_v12 (cmpf .ogt),
    nullary main_call7_cst_4 (constant S_ .f32 0x7FC00000#32),
    unary main_call7_cst_4 main_call7_call0_v0 id,
    unary main_call7_call0_v0 main_call7_call0_v1 (broadcastInDim S128 ![] bcast_S_S128),
    ternary main_call7_v12 main_call7_v11 main_call7_call0_v1 main_v196 (fun p a b => select (broadcastInDim S128 ![] bcast_S_S128 p) a b),
    unary main_v195 main_v197 (broadcastInDim S1x128 ![1] bcast_S128_S1x128_1),
    unary main_v197 main_v198 (broadcastInDim S50000x128 ![0, 1] bcast_S1x128_S50000x128_0_1),
    binary main_v192 main_v198 main_v199 subf,
    nullary main_cst_33 (constant S_ .f32 0x3727C5AC#32),
    unary main_cst_33 main_v200 (broadcastInDim S128 ![] bcast_S_S128),
    binary main_v196 main_v200 main_v201 addf,
    unary main_v201 main_v202 Host.rsqrt,
    unary main_v202 main_v203 (broadcastInDim S1x128 ![1] bcast_S128_S1x128_1) ]

abbrev pc12_W : List (Ref sig .tc) := [main_cst_30, main_v193, main_cst_31, main_v194, main_v195, main_c_32, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v196, main_v197, main_v198, main_v199, main_cst_33, main_v200, main_v201, main_v202, main_v203]
theorem pc12_line : Line (pc12 (F := F)) pc12_W := .of (by repeat first | exact .nil | refine .cons ⟨rfl, rfl, by simp⟩ ?_)

abbrev pc13 : List (HloOp τ sig (Elt F)) :=
  [ unary main_v203 main_v204 (broadcastInDim S50000x128 ![0, 1] bcast_S1x128_S50000x128_0_1),
    binary main_v199 main_v204 main_v205 mulf,
    unary main_arg7 main_v206 (extractStridedSlice S1x128 ![3, 0] · slices_S4x128_S1x128_3_0),
    reshape main_v206 main_v207 rfl shapeCasts_S1x128_S128,
    unary main_v207 main_v208 (broadcastInDim S1x128 ![1] bcast_S128_S1x128_1),
    unary main_v208 main_v209 (broadcastInDim S50000x128 ![0, 1] bcast_S1x128_S50000x128_0_1),
    binary main_v205 main_v209 main_v210 mulf,
    unary main_arg8 main_v211 (extractStridedSlice S1x128 ![3, 0] · slices_S4x128_S1x128_3_0),
    reshape main_v211 main_v212 rfl shapeCasts_S1x128_S128,
    unary main_v212 main_v213 (broadcastInDim S1x128 ![1] bcast_S128_S1x128_1),
    unary main_v213 main_v214 (broadcastInDim S50000x128 ![0, 1] bcast_S1x128_S50000x128_0_1),
    binary main_v210 main_v214 main_v215 addf,
    nullary main_call8_cst (constant S_ .f32 0x00000000#32),
    unary main_call8_cst main_call8_v0 (broadcastInDim S50000x128 ![] bcast_S_S50000x128),
    binary main_v215 main_call8_v0 main_v216 maximumf,
    binary main_v171 main_v216 main_v217 addf ]

abbrev pc13_W : List (Ref sig .tc) := [main_v204, main_v205, main_v206, main_v207, main_v208, main_v209, main_v210, main_v211, main_v212, main_v213, main_v214, main_v215, main_call8_cst, main_call8_v0, main_v216, main_v217]
theorem pc13_line : Line (pc13 (F := F)) pc13_W := .of (by repeat first | exact .nil | refine .cons ⟨rfl, rfl, by simp⟩ ?_)

abbrev pc14 : List (HloOp τ sig (Elt F)) :=
  [ binary main_v217 main_arg9 main_v218 (fun l r => Host.dotGeneral dot_S50000x128_S128x10_S50000x10_1_0_0_1_n_n none l r),
    unary main_arg10 main_v219 (broadcastInDim S1x10 ![1] bcast_S10_S1x10_1),
    unary main_v219 main_v220 (broadcastInDim S50000x10 ![0, 1] bcast_S1x10_S50000x10_0_1),
    binary main_v218 main_v220 main_v221 addf ]

abbrev pc14_W : List (Ref sig .tc) := [main_v218, main_v219, main_v220, main_v221]
theorem pc14_line : Line (pc14 (F := F)) pc14_W := .of (by repeat first | exact .nil | refine .cons ⟨rfl, rfl, by simp⟩ ?_)

end Cert.ReferenceIdeal.RefRun

end
-- ==== Proof.Ref.Main.lean ====
import proofs.«137587_j59279138619792_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def opsP0 : List (HloOp τ sig (Elt F)) := pc0 ++ (pc1 ++ pc2)

theorem main_part0_eq (c : Dev nD) : main_part0 (F := F) c = seq opsP0 := by
  simp only [opsP0, main_part0, fn_where.body, pc0, pc1, pc2, List.cons_append, List.nil_append, seq, bind_assoc, pure_bind]
  rfl

def opsP1 : List (HloOp τ sig (Elt F)) := pc3 ++ (pc4 ++ (pc5 ++ pc6))

theorem main_part1_eq (c : Dev nD) : main_part1 (F := F) c = seq opsP1 := by
  simp only [opsP1, main_part1, fn_var.body, fn_where_0.body, fn_relu.body, pc3, pc4, pc5, pc6, List.cons_append, List.nil_append, seq, bind_assoc, pure_bind]
  rfl

def opsP2 : List (HloOp τ sig (Elt F)) := pc7 ++ (pc8 ++ pc9)

theorem main_part2_eq (c : Dev nD) : main_part2 (F := F) c = seq opsP2 := by
  simp only [opsP2, main_part2, fn_var.body, fn_where_0.body, fn_relu.body, pc7, pc8, pc9, List.cons_append, List.nil_append, seq, bind_assoc, pure_bind]
  rfl

def opsP3 : List (HloOp τ sig (Elt F)) := pc10 ++ (pc11 ++ pc12)

theorem main_part3_eq (c : Dev nD) : main_part3 (F := F) c = seq opsP3 := by
  simp only [opsP3, main_part3, fn_var.body, fn_where_0.body, fn_relu.body, pc10, pc11, pc12, List.cons_append, List.nil_append, seq, bind_assoc, pure_bind]
  rfl

def opsP4 : List (HloOp τ sig (Elt F)) := pc13 ++ pc14

theorem main_part4_eq (c : Dev nD) : main_part4 (F := F) c = seq opsP4 := by
  simp only [opsP4, main_part4, fn_relu.body, pc13, pc14, List.cons_append, List.nil_append, seq, bind_assoc, pure_bind]
  rfl

def ops : List (HloOp τ sig (Elt F)) := opsP0 ++ (opsP1 ++ (opsP2 ++ (opsP3 ++ opsP4)))

theorem main_eq (c : Dev nD) : main (F := F) c = seq ops := by
  simp only [ops, seq_append, ← main_part0_eq c, ← main_part1_eq c, ← main_part2_eq c, ← main_part3_eq c, ← main_part4_eq c]
  rfl

abbrev ops_W : List (Ref sig .tc) :=
  (pc0_W ++ (pc1_W ++ pc2_W)) ++ ((pc3_W ++ (pc4_W ++ (pc5_W ++ pc6_W))) ++ ((pc7_W ++ (pc8_W ++ pc9_W)) ++ ((pc10_W ++ (pc11_W ++ pc12_W)) ++ (pc13_W ++ pc14_W))))

theorem ops_line : Line (ops (F := F)) ops_W :=
  (pc0_line.append (pc1_line.append pc2_line)).append <| (pc3_line.append (pc4_line.append (pc5_line.append pc6_line))).append <|
    (pc7_line.append (pc8_line.append pc9_line)).append <| (pc10_line.append (pc11_line.append pc12_line)).append (pc13_line.append pc14_line)

theorem scopedRefs_eq : (Finset.univ.filter fun b : Ref sig .tc => b.isScoped) = ∅ := by decide
theorem scopedSems_eq : (Finset.univ.filter fun sm : SemLoc sig => sm.isScoped .tc) = ∅ := by decide

theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_line.sub) m ρ (fun _ => ops_line.fresh)

end Cert.ReferenceIdeal.RefRun

end
-- ==== Proof.Ref.Term.lean ====
import proofs.«137587_j59279138619792_1_alg».proof.ReferenceIdeal

noncomputable section

namespace Cert.ReferenceIdeal.RefVal

open Idealize.ShloMosaic Idealize.SL.Sem Cert.ReferenceIdeal
open Cert.ReferenceIdeal.Facts₀ Cert.ReferenceIdeal.Facts

variable {F : FTy → Type} [FloatOps F] [Facts]

abbrev T (F : FTy → Type) (S : Shape) : Type := (⟨S, .f32⟩ : BufTy).Contents (Elt F)

def srcT (e : IVec S2x800000 32) : IVec S850000 32 :=
  concatenate S850000 0
    [⟨S800000, shapeCast S800000 (extractStridedSlice S1x800000 ![0, 0] e slices_S2x800000_S1x800000_0_0) shapeCasts_S1x800000_S800000⟩,
     ⟨S50000, iotaInDim S50000 32 0⟩] concatenates_S800000_S50000_S850000_d0

def dstT (e : IVec S2x800000 32) : IVec S850000 32 :=
  concatenate S850000 0
    [⟨S800000, shapeCast S800000 (extractStridedSlice S1x800000 ![1, 0] e slices_S2x800000_S1x800000_1_0) shapeCasts_S1x800000_S800000⟩,
     ⟨S50000, iotaInDim S50000 32 0⟩] concatenates_S800000_S50000_S850000_d0

def wrapT (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

def degT (v6 : IVec S850000 32) : T F S50000 :=
  Host.scatterAdd scatter_S50000_S850000x1_S850000_n_0_0_1
    (broadcastInDim S50000 ![] bcast_S_S50000 (constant S_ .f32 0x00000000#32))
    (broadcastInDim S850000x1 ![0] bcast_S850000_S850000x1_0 v6)
    (broadcastInDim S850000 ![] bcast_S_S850000 (constant S_ .f32 0x3F800000#32))

def dinvT (v6 : IVec S850000 32) : T F S50000 :=
  select (cmpf .ogt (degT (F := F) v6) (broadcastInDim S50000 ![] bcast_S_S50000 (constant S_ .f32 0x00000000#32)))
    (Host.rsqrt (degT (F := F) v6))
    (broadcastInDim S50000 ![] bcast_S_S50000 (id (constant S_ .f32 0x00000000#32)))

def normT (v3 v6 : IVec S850000 32) : T F S850000 :=
  mulf (Host.gather gather_S50000_S850000x1_S850000_n_0_n_n_0_1_1 (dinvT (F := F) v6) (wrapT v3))
    (Host.gather gather_S50000_S850000x1_S850000_n_0_n_n_0_1_1 (dinvT (F := F) v6) (wrapT v6))

def aggT (v3 v6 : IVec S850000 32) (v29 : T F S850000) (x : T F S50000x128) : T F S50000x128 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 v6)
    (mulf (Host.gather gather_S50000x128_S850000x1_S850000x128_1_0_n_n_0_1_1128 x (wrapT v3))
      (broadcastInDim S850000x128 ![0, 1] bcast_S850000x1_S850000x128_0_1
        (broadcastInDim S850000x1 ![0] bcast_S850000_S850000x1_0 v29)))

def rowT (v : T F S128) : T F S50000x128 :=
  broadcastInDim S50000x128 ![0, 1] bcast_S1x128_S50000x128_0_1 (broadcastInDim S1x128 ![1] bcast_S128_S1x128_1 v)

def embedT (a0 : T F S50000x128) (a3 : T F S128x128) (a4 : T F S128) : T F S50000x128 :=
  addf (Host.dotGeneral dot_S50000x128_S128x128_S50000x128_1_0_0_1_n_n none a0 a3) (rowT a4)

theorem slab_slices (k : Fin 4) : S4x128x128.Slices ![(k : ℕ), 0, 0] S1x128x128 := by revert k; decide

-- Round k's matrix out of the stacked array.
def wT (k : Fin 4) (a5 : T F S4x128x128) : T F S128x128 :=
  shapeCast S128x128 (extractStridedSlice S1x128x128 ![(k : ℕ), 0, 0] a5 (slab_slices k)) shapeCasts_S1x128x128_S128x128

theorem row_slices (k : Fin 4) : S4x128.Slices ![(k : ℕ), 0] S1x128 := by revert k; decide

-- Round k's vector (bias, scale or shift) out of a stacked array.
def rT (k : Fin 4) (a : T F S4x128) : T F S128 :=
  shapeCast S128 (extractStridedSlice S1x128 ![(k : ℕ), 0] a (row_slices k)) shapeCasts_S1x128_S128

def preT (v3 v6 : IVec S850000 32) (v29 : T F S850000) (w : T F S128x128) (b : T F S128) (h : T F S50000x128) : T F S50000x128 :=
  addf (aggT v3 v6 v29 (Host.dotGeneral dot_S50000x128_S128x128_S50000x128_1_0_0_1_n_n none h w)) (rowT b)

def meanT (y : T F S50000x128) : T F S128 :=
  Host.divf (Host.reduceAdd y (constant S_ .f32 0x00000000#32) reducesTo_S50000x128_S128_d0 h_S_)
    (broadcastInDim S128 ![] bcast_S_S128 (constant S_ .f32 0x47435000#32))

def devT (y : T F S50000x128) : T F S50000x128 :=
  subf y (broadcastInDim S50000x128 ![0, 1] bcast_S1x128_S50000x128_0_1
    (Host.divf (broadcastInDim S1x128 ![1] bcast_S128_S1x128_1
        (Host.reduceAdd y (constant S_ .f32 0x00000000#32) reducesTo_S50000x128_S128_d0 h_S_))
      (broadcastInDim S1x128 ![] bcast_S_S1x128 (constant S_ .f32 0x47435000#32))))

def cntT : T F S_ :=
  subf (constant S_ .f32 0x47435000#32) (sitofp .f32 (constantI S_ 32 0#32))

def varT (y : T F S50000x128) : T F S128 :=
  select (broadcastInDim S128 ![] bcast_S_S128 (cmpf .ogt (cntT (F := F)) (constant S_ .f32 0x00000000#32)))
    (Host.divf (Host.reduceAdd (mulf (devT y) (devT y)) (constant S_ .f32 0x00000000#32) reducesTo_S50000x128_S128_d0 h_S_)
      (broadcastInDim S128 ![] bcast_S_S128 (cntT (F := F))))
    (broadcastInDim S128 ![] bcast_S_S128 (id (constant S_ .f32 0x7FC00000#32)))

def reluT (z : T F S50000x128) : T F S50000x128 :=
  maximumf z (broadcastInDim S50000x128 ![] bcast_S_S50000x128 (constant S_ .f32 0x00000000#32))

def bnT (y : T F S50000x128) (γ β : T F S128) (h : T F S50000x128) : T F S50000x128 :=
  addf h (reluT (addf (mulf (mulf (subf y (rowT (meanT y)))
      (rowT (Host.rsqrt (addf (varT y) (broadcastInDim S128 ![] bcast_S_S128 (constant S_ .f32 0x3727C5AC#32))))))
    (rowT γ)) (rowT β)))

def layerT (v3 v6 : IVec S850000 32) (v29 : T F S850000) (w : T F S128x128) (b γ β : T F S128) (h : T F S50000x128) : T F S50000x128 :=
  bnT (preT v3 v6 v29 w b h) γ β h

def headT (h : T F S50000x128) (a9 : T F S128x10) (a10 : T F S10) : T F S50000x10 :=
  addf (Host.dotGeneral dot_S50000x128_S128x10_S50000x10_1_0_0_1_n_n none h a9)
    (broadcastInDim S50000x10 ![0, 1] bcast_S1x10_S50000x10_0_1 (broadcastInDim S1x10 ![1] bcast_S10_S1x10_1 a10))

def netT (a0 : T F S50000x128) (e : IVec S2x800000 32) (a3 : T F S128x128) (a4 : T F S128) (a5 : T F S4x128x128)
    (a6 a7 a8 : T F S4x128) (a9 : T F S128x10) (a10 : T F S10) : T F S50000x10 :=
  headT
    (layerT (srcT e) (dstT e) (normT (srcT e) (dstT e)) (wT 3 a5) (rT 3 a6) (rT 3 a7) (rT 3 a8)
      (layerT (srcT e) (dstT e) (normT (srcT e) (dstT e)) (wT 2 a5) (rT 2 a6) (rT 2 a7) (rT 2 a8)
        (layerT (srcT e) (dstT e) (normT (srcT e) (dstT e)) (wT 1 a5) (rT 1 a6) (rT 1 a7) (rT 1 a8)
          (layerT (srcT e) (dstT e) (normT (srcT e) (dstT e)) (wT 0 a5) (rT 0 a6) (rT 0 a7) (rT 0 a8)
            (embedT a0 a3 a4)))))
    a9 a10

def term (m' : (ℓ : Loc nD τ sig) → Buf (Elt F) ℓ) (c : Dev nD) : T F S50000x10 :=
  netT (m' ((c.tc : Thread nD τ).loc main_arg0)) (m' ((c.tc : Thread nD τ).loc main_arg1))
    (m' ((c.tc : Thread nD τ).loc main_arg3)) (m' ((c.tc : Thread nD τ).loc main_arg4))
    (m' ((c.tc : Thread nD τ).loc main_arg5)) (m' ((c.tc : Thread nD τ).loc main_arg6))
    (m' ((c.tc : Thread nD τ).loc main_arg7)) (m' ((c.tc : Thread nD τ).loc main_arg8))
    (m' ((c.tc : Thread nD τ).loc main_arg9)) (m' ((c.tc : Thread nD τ).loc main_arg10))

end Cert.ReferenceIdeal.RefVal

end
-- ==== Proof.Ref.WinE.lean ====
import proofs.«137587_j59279138619792_1_alg».proof.Proof.Ref.Ops
import proofs.«137587_j59279138619792_1_alg».proof.Proof.Ref.Term

noncomputable section

namespace Cert.ReferenceIdeal.RefRun

open Cert.ReferenceIdeal Cert.ReferenceIdeal.Gen Cert.ReferenceIdeal.RefVal Idealize.ShloMosaic Idealize.ShloMosaic.TcCoe Idealize.SL.Sem Idealize.ShloMosaic.StableHlo

variable {F : FTy → Type} [FloatOps F]

def sgE : List (HloOp τ sig (Elt F)) := pc0
theorem keep_sgE (V : Valuation τ sig (Elt F)) (r : Ref sig .tc) (h : r ∉ pc0_W) :
    after sgE V (no_index (Proc.devRef .tc r)) = V (Proc.devRef .tc r) := pc0_line.keep V h

def sgM : List (HloOp τ sig (Elt F)) := pc1
theorem keep_sgM (V : Valuation τ sig (Elt F)) (r : Ref sig .tc) (h : r ∉ pc1_W) :
    after sgM V (no_index (Proc.devRef .tc r)) = V (Proc.devRef .tc r) := pc1_line.keep V h

def sgH : List (HloOp τ sig (Elt F)) := pc14
theorem keep_sgH (V : Valuation τ sig (Elt F)) (r : Ref sig .tc) (h : r ∉ pc14_W) :
    after sgH V (no_index (Proc.devRef .tc r)) = V (Proc.devRef .tc r) := pc14_line.keep V h

theorem E_v3 (V : Valuation τ sig (Elt F)) :
    after sgE V (no_index (Proc.devRef .tc main_v3)) = srcT (V (Proc.devRef .tc main_arg1)) := by
  simp only [sgE, pc0]
  after_results_simp
  rfl

theorem E_v6 (V : Valuation τ sig (Elt F)) :
    after sgE V (no_index (Proc.devRef .tc main_v6)) = dstT (V (Proc.devRef .tc main_arg1)) := by
  simp only [sgE, pc0]
  after_results_simp
  rfl

theorem E_v29 (V : Valuation τ sig (Elt F)) :
    after sgE V (no_index (Proc.devRef .tc main_v29)) = normT (srcT (V (Proc.devRef .tc main_arg1))) (dstT (V (Proc.devRef .tc main_arg1))) := by
  simp only [sgE, pc0]
  after_results_simp
  rfl

theorem M_v33 (V : Valuation τ sig (Elt F)) :
    after sgM V (no_index (Proc.devRef .tc main_v33)) = embedT (V (Proc.devRef .tc main_arg0)) (V (Proc.devRef .tc main_arg3)) (V (Proc.devRef .tc main_arg4)) := by
  simp only [sgM, pc1]
  after_results_simp
  rfl

theorem H_v221 (V : Valuation τ sig (Elt F)) :
    after sgH V (no_index (Proc.devRef .tc main_v221)) = headT (V (Proc.devRef .tc main_v217)) (V (Proc.devRef .tc main_arg9)) (V (Proc.devRef .tc main_arg10)) := by
  simp only [sgH, pc14]
  after_results_simp
  rfl

end Cert.ReferenceIdeal.RefRun

end
-- ==== Proof.Ref.WinP.lean ====
import proofs.«137587_j59279138619792_1_alg».proof.Proof.Ref.Ops
import proofs.«137587_j59279138619792_1_alg».proof.Proof.Ref.Term

noncomputable section

namespace Cert.ReferenceIdeal.RefRun

open Cert.ReferenceIdeal Cert.ReferenceIdeal.Gen Cert.ReferenceIdeal.RefVal Idealize.ShloMosaic Idealize.ShloMosaic.TcCoe Idealize.SL.Sem Idealize.ShloMosaic.StableHlo

variable {F : FTy → Type} [FloatOps F]

def sgP0 : List (HloOp τ sig (Elt F)) := pc2 ++ pc3
theorem keep_sgP0 (V : Valuation τ sig (Elt F)) (r : Ref sig .tc) (h : r ∉ pc2_W ++ pc3_W) :
    after sgP0 V (no_index (Proc.devRef .tc r)) = V (Proc.devRef .tc r) := (pc2_line.append pc3_line).keep V h

theorem P0_v54 (V : Valuation τ sig (Elt F)) :
    after sgP0 V (no_index (Proc.devRef .tc main_v54)) = preT (V (Proc.devRef .tc main_v3)) (V (Proc.devRef .tc main_v6)) (V (Proc.devRef .tc main_v29))
      (wT 0 (V (Proc.devRef .tc main_arg5))) (rT 0 (V (Proc.devRef .tc main_arg6))) (V (Proc.devRef .tc main_v33)) := by
  simp only [sgP0, pc2, pc3, List.cons_append, List.nil_append]
  after_results_simp
  rfl

def sgP1 : List (HloOp τ sig (Elt F)) := pc5
theorem keep_sgP1 (V : Valuation τ sig (Elt F)) (r : Ref sig .tc) (h : r ∉ pc5_W) :
    after sgP1 V (no_index (Proc.devRef .tc r)) = V (Proc.devRef .tc r) := pc5_line.keep V h

theorem P1_v100 (V : Valuation τ sig (Elt F)) :
    after sgP1 V (no_index (Proc.devRef .tc main_v100)) = preT (V (Proc.devRef .tc main_v3)) (V (Proc.devRef .tc main_v6)) (V (Proc.devRef .tc main_v29))
      (wT 1 (V (Proc.devRef .tc main_arg5))) (rT 1 (V (Proc.devRef .tc main_arg6))) (V (Proc.devRef .tc main_v79)) := by
  simp only [sgP1, pc5, List.cons_append, List.nil_append]
  after_results_simp
  rfl

def sgP2 : List (HloOp τ sig (Elt F)) := pc8
theorem keep_sgP2 (V : Valuation τ sig (Elt F)) (r : Ref sig .tc) (h : r ∉ pc8_W) :
    after sgP2 V (no_index (Proc.devRef .tc r)) = V (Proc.devRef .tc r) := pc8_line.keep V h

theorem P2_v146 (V : Valuation τ sig (Elt F)) :
    after sgP2 V (no_index (Proc.devRef .tc main_v146)) = preT (V (Proc.devRef .tc main_v3)) (V (Proc.devRef .tc main_v6)) (V (Proc.devRef .tc main_v29))
      (wT 2 (V (Proc.devRef .tc main_arg5))) (rT 2 (V (Proc.devRef .tc main_arg6))) (V (Proc.devRef .tc main_v125)) := by
  simp only [sgP2, pc8, List.cons_append, List.nil_append]
  after_results_simp
  rfl

def sgP3 : List (HloOp τ sig (Elt F)) := pc11
theorem keep_sgP3 (V : Valuation τ sig (Elt F)) (r : Ref sig .tc) (h : r ∉ pc11_W) :
    after sgP3 V (no_index (Proc.devRef .tc r)) = V (Proc.devRef .tc r) := pc11_line.keep V h

theorem P3_v192 (V : Valuation τ sig (Elt F)) :
    after sgP3 V (no_index (Proc.devRef .tc main_v192)) = preT (V (Proc.devRef .tc main_v3)) (V (Proc.devRef .tc main_v6)) (V (Proc.devRef .tc main_v29))
      (wT 3 (V (Proc.devRef .tc main_arg5))) (rT 3 (V (Proc.devRef .tc main_arg6))) (V (Proc.devRef .tc main_v171)) := by
  simp only [sgP3, pc11, List.cons_append, List.nil_append]
  after_results_simp
  rfl

end Cert.ReferenceIdeal.RefRun

end
-- ==== Proof.Ref.WinB.lean ====
import proofs.«137587_j59279138619792_1_alg».proof.Proof.Ref.Ops
import proofs.«137587_j59279138619792_1_alg».proof.Proof.Ref.Term

noncomputable section

namespace Cert.ReferenceIdeal.RefRun

open Cert.ReferenceIdeal Cert.ReferenceIdeal.Gen Cert.ReferenceIdeal.RefVal Idealize.ShloMosaic Idealize.ShloMosaic.TcCoe Idealize.SL.Sem Idealize.ShloMosaic.StableHlo

variable {F : FTy → Type} [FloatOps F]

def sgB0 : List (HloOp τ sig (Elt F)) := pc4
theorem keep_sgB0 (V : Valuation τ sig (Elt F)) (r : Ref sig .tc) (h : r ∉ pc4_W) :
    after sgB0 V (no_index (Proc.devRef .tc r)) = V (Proc.devRef .tc r) := pc4_line.keep V h

theorem B0_v79 (V : Valuation τ sig (Elt F)) :
    after sgB0 V (no_index (Proc.devRef .tc main_v79)) = bnT (V (Proc.devRef .tc main_v54)) (rT 0 (V (Proc.devRef .tc main_arg7))) (rT 0 (V (Proc.devRef .tc main_arg8))) (V (Proc.devRef .tc main_v33)) := by
  simp only [sgB0, pc4, List.cons_append, List.nil_append]
  after_results_simp
  rfl

def sgB1 : List (HloOp τ sig (Elt F)) := pc6 ++ pc7
theorem keep_sgB1 (V : Valuation τ sig (Elt F)) (r : Ref sig .tc) (h : r ∉ pc6_W ++ pc7_W) :
    after sgB1 V (no_index (Proc.devRef .tc r)) = V (Proc.devRef .tc r) := (pc6_line.append pc7_line).keep V h

theorem B1_v125 (V : Valuation τ sig (Elt F)) :
    after sgB1 V (no_index (Proc.devRef .tc main_v125)) = bnT (V (Proc.devRef .tc main_v100)) (rT 1 (V (Proc.devRef .tc main_arg7))) (rT 1 (V (Proc.devRef .tc main_arg8))) (V (Proc.devRef .tc main_v79)) := by
  simp only [sgB1, pc6, pc7, List.cons_append, List.nil_append]
  after_results_simp
  rfl

def sgB2 : List (HloOp τ sig (Elt F)) := pc9 ++ pc10
theorem keep_sgB2 (V : Valuation τ sig (Elt F)) (r : Ref sig .tc) (h : r ∉ pc9_W ++ pc10_W) :
    after sgB2 V (no_index (Proc.devRef .tc r)) = V (Proc.devRef .tc r) := (pc9_line.append pc10_line).keep V h

theorem B2_v171 (V : Valuation τ sig (Elt F)) :
    after sgB2 V (no_index (Proc.devRef .tc main_v171)) = bnT (V (Proc.devRef .tc main_v146)) (rT 2 (V (Proc.devRef .tc main_arg7))) (rT 2 (V (Proc.devRef .tc main_arg8))) (V (Proc.devRef .tc main_v125)) := by
  simp only [sgB2, pc9, pc10, List.cons_append, List.nil_append]
  after_results_simp
  rfl

def sgB3 : List (HloOp τ sig (Elt F)) := pc12 ++ pc13
theorem keep_sgB3 (V : Valuation τ sig (Elt F)) (r : Ref sig .tc) (h : r ∉ pc12_W ++ pc13_W) :
    after sgB3 V (no_index (Proc.devRef .tc r)) = V (Proc.devRef .tc r) := (pc12_line.append pc13_line).keep V h

theorem B3_v217 (V : Valuation τ sig (Elt F)) :
    after sgB3 V (no_index (Proc.devRef .tc main_v217)) = bnT (V (Proc.devRef .tc main_v192)) (rT 3 (V (Proc.devRef .tc main_arg7))) (rT 3 (V (Proc.devRef .tc main_arg8))) (V (Proc.devRef .tc main_v171)) := by
  simp only [sgB3, pc12, pc13, List.cons_append, List.nil_append]
  after_results_simp
  rfl

end Cert.ReferenceIdeal.RefRun

end
-- ==== Proof.Ref.Run.lean ====
import proofs.«137587_j59279138619792_1_alg».proof.Proof.Ref.Main
import proofs.«137587_j59279138619792_1_alg».proof.Proof.Ref.WinE
import proofs.«137587_j59279138619792_1_alg».proof.Proof.Ref.WinP
import proofs.«137587_j59279138619792_1_alg».proof.Proof.Ref.WinB
import Idealize.ShloMosaic.PureOps.Ideal

noncomputable section

namespace Cert.ReferenceIdeal.RefRun

open Cert.ReferenceIdeal Cert.ReferenceIdeal.Gen Cert.ReferenceIdeal.RefVal Idealize.ShloMosaic Idealize.ShloMosaic.TcCoe Idealize.SL.Sem Idealize.ShloMosaic.StableHlo

variable {F : FTy → Type} [FloatOps F]

theorem after_ops (V0 : Valuation τ sig (Elt F)) :
    after ops V0 = after sgH (after sgB3 (after sgP3 (after sgB2 (after sgP2 (after sgB1 (after sgP1 (after sgB0 (after sgP0 (after sgM (after sgE V0)))))))))) := by
  simp only [ops, opsP0, opsP1, opsP2, opsP3, opsP4, sgE, sgM, sgP0, sgB0, sgP1, sgB1, sgP2, sgB2, sgP3, sgB3, sgH, after_append]

theorem after_ops_result (V0 : Valuation τ sig (Elt F)) :
    after ops V0 (Proc.devRef .tc main_v221) = netT (V0 (Proc.devRef .tc main_arg0)) (V0 (Proc.devRef .tc main_arg1)) (V0 (Proc.devRef .tc main_arg3)) (V0 (Proc.devRef .tc main_arg4))
      (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [after_ops]
  simp (disch := decide) only [H_v221, B3_v217, P3_v192, B2_v171, P2_v146, B1_v125, P1_v100, B0_v79, P0_v54, M_v33, E_v3, E_v6, E_v29, keep_sgE, keep_sgM, keep_sgP0, keep_sgB0, keep_sgP1, keep_sgB1, keep_sgP2, keep_sgB2, keep_sgP3, keep_sgB3, keep_sgH]
  rfl

-- The result buffer ends at the network of the argument arrays, and no operation writes an argument.
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v221) = RefVal.term m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v221).trans ((after_ops_result _).trans rfl),
      (h c main_arg0).trans (ops_line.keep _ (by decide)),
      (h c main_arg1).trans (ops_line.keep _ (by decide)),
      (h c main_arg2).trans (ops_line.keep _ (by decide)),
      (h c main_arg3).trans (ops_line.keep _ (by decide)),
      (h c main_arg4).trans (ops_line.keep _ (by decide)),
      (h c main_arg5).trans (ops_line.keep _ (by decide)),
      (h c main_arg6).trans (ops_line.keep _ (by decide)),
      (h c main_arg7).trans (ops_line.keep _ (by decide)),
      (h c main_arg8).trans (ops_line.keep _ (by decide)),
      (h c main_arg9).trans (ops_line.keep _ (by decide)),
      (h c main_arg10).trans (ops_line.keep _ (by decide))⟩)
    (run_fold m ρ)

end Cert.ReferenceIdeal.RefRun

end
-- ==== Proof.Ref.Val.lean ====
import proofs.«137587_j59279138619792_1_alg».proof.Proof.Gen.ReferenceIdeal
import proofs.«137587_j59279138619792_1_alg».proof.Proof.Ref.Term
import proofs.«137587_j59279138619792_1_alg».proof.Proof.Spec.Agg
import proofs.«137587_j59279138619792_1_alg».proof.Proof.LibLayoutIx
import Idealize.ShloMosaic.PureOps.Ideal.Laws
import Idealize.ShloMosaic.Lib.StackMember

noncomputable section

namespace Cert.ReferenceIdeal.RefVal

open Idealize.ShloMosaic Idealize.SL.Sem Cert.ReferenceIdeal Idealize.ShloMosaic.ValueIdx
open Cert.ReferenceIdeal.Facts₀ Cert.ReferenceIdeal.Facts
open Cert.ReferenceIdeal.Gen (facts₀ facts)
open Cert.LibLayoutIx (broadcastInDim_scalar broadcastInDim_row broadcastInDim_rows extractStridedSlice_row slab_eq host_divf_apply)

theorem c50000 : Ideal.ofBits .f32 0x47435000#32 = ((50000 : ℝ) : EReal) := by
  simp [Ideal.ofBits, Ideal.ieee]
  rw [← EReal.coe_mul]
  norm_num

theorem cnt_eq : cntT (F := Ideal) ix0 = ((50000 : ℝ) : EReal) := by
  show Ideal.ofBits .f32 0x47435000#32 - (((0#32 : BitVec 32).toInt : ℝ) : EReal) = _
  rw [c50000]
  simp

theorem cnt_pos : cmpf (F := Ideal) (φ := .f32) .ogt (cntT (F := Ideal)) (constant S_ .f32 0x00000000#32) ix0 = 1#1 := by
  show Ideal.cmp .ogt (cntT (F := Ideal) ix0) (Ideal.ofBits .f32 0x00000000#32) = 1#1
  rw [cnt_eq, Ideal.ofBits_zero_f32]
  have h : (0 : EReal) < ((50000 : ℝ) : EReal) := EReal.coe_pos.mpr (by norm_num)
  simp [Ideal.cmp, h]

theorem host_rsqrt_apply {s : Shape} {φ : FTy} (a : FVec Ideal s φ) (i : s.Idx) : Host.rsqrt a i = Ideal.rsqrt (a i) := rfl

theorem dot128_apply (x : T Ideal S50000x128) (w : T Ideal S128x128) (r : Fin 50000) (c : Fin 128) :
    Host.dotGeneral (F := Ideal) (φ₁ := .f32) (φ₂ := .f32) dot_S50000x128_S128x128_S50000x128_1_0_0_1_n_n none x w (ix2 r c)
      = ∑ k : Fin 128, x (ix2 r k) * w (ix2 k c) :=
  StackMember.dotGeneral_plain_apply none x w r c

theorem dot10_apply (x : T Ideal S50000x128) (w : T Ideal S128x10) (r : Fin 50000) (c : Fin 10) :
    Host.dotGeneral (F := Ideal) (φ₁ := .f32) (φ₂ := .f32) dot_S50000x128_S128x10_S50000x10_1_0_0_1_n_n none x w (ix2 r c)
      = ∑ k : Fin 128, x (ix2 r k) * w (ix2 k c) :=
  StackMember.dotGeneral_plain_apply none x w r c

theorem rowT_apply (v : T Ideal S128) (r : Fin 50000) (c : Fin 128) : rowT v (ix2 r c) = v (ix1 c) := by
  unfold rowT
  rw [broadcastInDim_rows, broadcastInDim_row]

theorem wT_eq (k : Fin 4) (a5 : T Ideal S4x128x128) : wT k a5 = fun i => a5 (ix3 k (i 0) (i 1)) := slab_eq _ _ _ k.isLt

theorem rT_apply (k : Fin 4) (a : T Ideal S4x128) (j : Fin 128) : rT k a (ix1 j) = a (ix2 k j) :=
  (shapeCast_1a_a_apply _ _ j).trans (extractStridedSlice_row _ _ 0 j)

theorem colsum_apply (y : T Ideal S50000x128) (j : Fin 128) :
    Host.reduceAdd (F := Ideal) (φ := .f32) y (constant S_ .f32 0x00000000#32) reducesTo_S50000x128_S128_d0 h_S_ (ix1 j)
      = ∑ r : Fin 50000, y (ix2 r j) := by
  unfold Host.reduceAdd
  rw [Ideal.hostReduceAdd_def,
    Ideal.hostReduceAdd_single _ (by decide : S50000x128.Reduces [(0 : Fin S50000x128.rank)] S128), constant_apply,
    Ideal.ofBits_zero_f32, zero_add]
  refine Finset.sum_congr rfl fun r _ => congrArg y (funext fun a => Fin.ext ?_)
  match a with
  | ⟨0, _⟩ => rfl
  | ⟨1, _⟩ => rfl

theorem meanT_apply (y : T Ideal S50000x128) (j : Fin 128) : meanT y (ix1 j) = Spec.meanR y j := by
  unfold meanT
  rw [host_divf_apply, broadcastInDim_scalar, colsum_apply, constant_apply, c50000]
  rfl

theorem devT_apply (y : T Ideal S50000x128) (r : Fin 50000) (c : Fin 128) :
    devT y (ix2 r c) = y (ix2 r c) - Spec.meanR y c := by
  unfold devT
  rw [subf_apply, broadcastInDim_rows, host_divf_apply, broadcastInDim_row, broadcastInDim_scalar, colsum_apply,
    constant_apply, c50000]
  rfl

theorem varT_apply (y : T Ideal S50000x128) (j : Fin 128) : varT y (ix1 j) = Spec.varR y j := by
  have hs : (∑ r : Fin 50000, mulf (F := Ideal) (φ := .f32) (devT y) (devT y) (ix2 r j))
      = ∑ r : Fin 50000, (y (ix2 r j) - Spec.meanR y j) * (y (ix2 r j) - Spec.meanR y j) :=
    Finset.sum_congr rfl fun r _ => by rw [mulf_apply, devT_apply]
  unfold varT
  rw [select_apply, broadcastInDim_scalar, cnt_pos, select_one, host_divf_apply, broadcastInDim_scalar, cnt_eq,
    colsum_apply, hs]
  rfl

theorem embedT_eq (a0 : T Ideal S50000x128) (a3 : T Ideal S128x128) (a4 : T Ideal S128) :
    embedT a0 a3 a4 = Spec.lin a0 a3 (fun j => a4 (ix1 j)) := by
  funext i
  obtain ⟨r, c, rfl⟩ : ∃ (r : Fin 50000) (c : Fin 128), i = ix2 r c := ⟨i 0, i 1, eq_ix2 i⟩
  unfold embedT Spec.lin
  rw [addf_apply, dot128_apply, rowT_apply]

theorem headT_eq (h : T Ideal S50000x128) (a9 : T Ideal S128x10) (a10 : T Ideal S10) :
    headT h a9 a10 = Spec.head h a9 (fun j => a10 (ix1 j)) := by
  funext i
  obtain ⟨r, c, rfl⟩ : ∃ (r : Fin 50000) (c : Fin 10), i = ix2 r c := ⟨i 0, i 1, eq_ix2 i⟩
  unfold headT Spec.head
  rw [addf_apply, dot10_apply, broadcastInDim_rows, broadcastInDim_row]

theorem bnT_eq (y : T Ideal S50000x128) (γ β : T Ideal S128) (h : T Ideal S50000x128) :
    bnT y γ β h = Spec.bn y h (Spec.meanR y) (Spec.varR y) (fun j => γ (ix1 j)) (fun j => β (ix1 j)) := by
  funext i
  obtain ⟨r, c, rfl⟩ : ∃ (r : Fin 50000) (c : Fin 128), i = ix2 r c := ⟨i 0, i 1, eq_ix2 i⟩
  show h (ix2 r c) + max ((((y (ix2 r c) - rowT (meanT y) (ix2 r c))
      * rowT (Host.rsqrt (addf (varT y) (broadcastInDim S128 ![] bcast_S_S128 (constant S_ .f32 0x3727C5AC#32)))) (ix2 r c))
      * rowT γ (ix2 r c)) + rowT β (ix2 r c))
      (broadcastInDim S50000x128 ![] bcast_S_S50000x128 (constant (F := Ideal) S_ .f32 0x00000000#32) (ix2 r c)) = _
  rw [rowT_apply, rowT_apply, rowT_apply, rowT_apply, meanT_apply, broadcastInDim_scalar, constant_apply,
    Ideal.ofBits_zero_f32, host_rsqrt_apply, addf_apply, varT_apply, broadcastInDim_scalar, constant_apply]
  rfl

theorem aggT_eq (e : IVec S2x800000 32) :
    aggT (F := Ideal) (srcT e) (dstT e) (normT (srcT e) (dstT e)) = Spec.agg e := rfl

theorem preT_eq (e : IVec S2x800000 32) (w : T Ideal S128x128) (b : T Ideal S128) (h : T Ideal S50000x128) :
    preT (srcT e) (dstT e) (normT (srcT e) (dstT e)) w b h = fun i => Spec.agg e (Spec.lin0 h w) i + b (ix1 (i 1)) := by
  funext i
  obtain ⟨r, c, rfl⟩ : ∃ (r : Fin 50000) (c : Fin 128), i = ix2 r c := ⟨i 0, i 1, eq_ix2 i⟩
  unfold preT
  rw [addf_apply, rowT_apply, aggT_eq,
    show Host.dotGeneral (F := Ideal) (φ₁ := .f32) (φ₂ := .f32) dot_S50000x128_S128x128_S50000x128_1_0_0_1_n_n none h w
      = Spec.lin0 h w from funext fun i => (congrArg _ (eq_ix2 i)).trans (dot128_apply h w (i 0) (i 1))]

theorem layerT_eq (e : IVec S2x800000 32) (w : T Ideal S128x128) (b γ β : T Ideal S128) (h : T Ideal S50000x128) :
    layerT (srcT e) (dstT e) (normT (srcT e) (dstT e)) w b γ β h
      = Spec.layerR (Spec.agg e) w (fun j => b (ix1 j)) (fun j => γ (ix1 j)) (fun j => β (ix1 j)) h := by
  unfold layerT Spec.layerR
  rw [preT_eq, bnT_eq]

theorem netT_eq (a0 : T Ideal S50000x128) (e : IVec S2x800000 32) (a3 : T Ideal S128x128) (a4 : T Ideal S128)
    (a5 : T Ideal S4x128x128) (a6 a7 a8 : T Ideal S4x128) (a9 : T Ideal S128x10) (a10 : T Ideal S10) :
    netT a0 e a3 a4 a5 a6 a7 a8 a9 a10 = Spec.netR (Spec.agg e) (Spec.mkParams a0 a3 a4 a5 a6 a7 a8 a9 a10) := by
  unfold netT Spec.netR
  rw [layerT_eq, layerT_eq, layerT_eq, layerT_eq, embedT_eq, headT_eq]
  simp only [wT_eq, rT_apply]
  rfl

theorem term_eq (m' : (ℓ : Loc nD τ sig) → Buf (Elt Ideal) ℓ) (c : Dev nD) :
    (term m' c : S50000x10.Idx → EReal)
      = Spec.netR (Spec.agg (m' ((c.tc : Thread nD τ).loc main_arg1)))
          (Spec.mkParams (m' ((c.tc : Thread nD τ).loc main_arg0)) (m' ((c.tc : Thread nD τ).loc main_arg3))
            (m' ((c.tc : Thread nD τ).loc main_arg4)) (m' ((c.tc : Thread nD τ).loc main_arg5))
            (m' ((c.tc : Thread nD τ).loc main_arg6)) (m' ((c.tc : Thread nD τ).loc main_arg7))
            (m' ((c.tc : Thread nD τ).loc main_arg8)) (m' ((c.tc : Thread nD τ).loc main_arg9))
            (m' ((c.tc : Thread nD τ).loc main_arg10))) :=
  netT_eq _ _ _ _ _ _ _ _ _ _

end Cert.ReferenceIdeal.RefVal

end
-- ==== Proof.Spec.Real.lean ====
import proofs.«137587_j59279138619792_1_alg».proof.Proof.Spec.Net
import Mathlib.Data.EReal.Operations
import Mathlib.Algebra.BigOperators.Group.Finset.Basic
import Mathlib.Tactic.Ring
import Mathlib.Tactic.NormNum

noncomputable section

namespace Cert.Spec

open Idealize.ShloMosaic Idealize.ShloMosaic.ValueIdx

theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem ix2_snd {n0 n1 : ℕ} (a : Fin n0) (b : Fin n1) : (ix2 a b) 1 = b := rfl

theorem AllReal.witness {S : Shape} {v : S.Idx → EReal} (h : AllReal v) :
    ∃ f : S.Idx → ℝ, v = fun i => (f i : EReal) := by
  choose f hf using h
  exact ⟨f, funext hf⟩

theorem AllRealV.witness {n : ℕ} {v : Fin n → EReal} (h : AllRealV v) :
    ∃ f : Fin n → ℝ, v = fun j => (f j : EReal) := by
  choose f hf using h
  exact ⟨f, funext hf⟩

theorem lin0_real {x : Mat 50000 128} {w : Mat 128 128} (hx : AllReal x) (hw : AllReal w) : AllReal (lin0 x w) := by
  obtain ⟨f, rfl⟩ := hx.witness
  obtain ⟨g, rfl⟩ := hw.witness
  intro i
  exact ⟨∑ k : Fin 128, f (ix2 (i 0) k) * g (ix2 k (i 1)), by simp only [lin0, coe_sum, EReal.coe_mul]⟩

theorem lin_real {x : Mat 50000 128} {w : Mat 128 128} {b : Fin 128 → EReal} (hx : AllReal x) (hw : AllReal w)
    (hb : AllRealV b) : AllReal (lin x w b) := by
  obtain ⟨f, rfl⟩ := hx.witness
  obtain ⟨g, rfl⟩ := hw.witness
  obtain ⟨c, rfl⟩ := hb.witness
  intro i
  exact ⟨(∑ k : Fin 128, f (ix2 (i 0) k) * g (ix2 k (i 1))) + c (i 1),
    by simp only [lin, coe_sum, EReal.coe_mul, EReal.coe_add]⟩

theorem lin_zero (x : Mat 50000 128) (w : Mat 128 128) : lin x w (fun _ => 0) = lin0 x w := by
  funext i
  simp only [lin, lin0, add_zero]

theorem addRow_real {x : Mat 50000 128} {b : Fin 128 → EReal} (hx : AllReal x) (hb : AllRealV b) :
    AllReal (fun i => x i + b (i 1)) := by
  obtain ⟨f, rfl⟩ := hx.witness
  obtain ⟨c, rfl⟩ := hb.witness
  intro i
  exact ⟨f i + c (i 1), by simp only [EReal.coe_add]⟩

theorem coe_max_zero (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

end Cert.Spec

end
-- ==== Proof.Spec.Var.lean ====
import proofs.«137587_j59279138619792_1_alg».proof.Proof.Spec.Net
import proofs.«137587_j59279138619792_1_alg».proof.Proof.Spec.Real
import Mathlib.Data.EReal.Operations
import Mathlib.Algebra.BigOperators.Ring.Finset
import Mathlib.Algebra.Order.BigOperators.Group.Finset
import Mathlib.Tactic.Ring
import Mathlib.Tactic.NormNum

noncomputable section

namespace Cert.Spec

open Idealize.ShloMosaic Idealize.ShloMosaic.ValueIdx

abbrev RMat : Type := (⟨2, ![50000, 128]⟩ : Shape).Idx → ℝ

theorem colSum_coe (f : RMat) (j : Fin 128) :
    colSum (fun i => (f i : EReal)) j = ((∑ r : Fin 50000, f (ix2 r j) : ℝ) : EReal) := by
  simp only [colSum, coe_sum]

theorem meanK_eq_meanR (h : Mat 50000 128) : meanK h = meanR h := by
  funext j
  simp only [meanK, meanR]
  rw [Ideal.div_coe (by norm_num)]

def rmean (f : RMat) (j : Fin 128) : ℝ := (∑ r : Fin 50000, f (ix2 r j)) * (1 / 50000)

theorem meanK_coe (f : RMat) (j : Fin 128) : meanK (fun i => (f i : EReal)) j = ((rmean f j : ℝ) : EReal) := by
  simp only [meanK, rmean, colSum, coe_sum, EReal.coe_mul]

theorem varK_coe (f : RMat) (j : Fin 128) : varK (fun i => (f i : EReal)) j
    = (((∑ r : Fin 50000, f (ix2 r j) * f (ix2 r j)) * (1 / 50000) - rmean f j * rmean f j : ℝ) : EReal) := by
  simp only [varK, meanK, rmean, colSum, coe_sum, EReal.coe_mul, EReal.coe_sub]

theorem varR_coe (f : RMat) (j : Fin 128) : varR (fun i => (f i : EReal)) j
    = (((∑ r : Fin 50000, (f (ix2 r j) - rmean f j) * (f (ix2 r j) - rmean f j)) * (1 / 50000) : ℝ) : EReal) := by
  simp only [varR, ← meanK_eq_meanR, colSum, ix2_snd]
  rw [Ideal.div_coe (by norm_num)]
  simp only [meanK_coe, coe_sum, EReal.coe_mul, EReal.coe_sub]

theorem var_identity (g : Fin 50000 → ℝ) :
    (∑ r, g r * g r) * (1 / 50000) - ((∑ r, g r) * (1 / 50000)) * ((∑ r, g r) * (1 / 50000))
      = (∑ r, (g r - (∑ r, g r) * (1 / 50000)) * (g r - (∑ r, g r) * (1 / 50000))) * (1 / 50000) := by
  have hS : ∑ r, g r = 50000 * ((∑ r, g r) * (1 / 50000)) := by ring
  generalize (∑ r, g r) * (1 / 50000) = μ at hS ⊢
  have h1 : ∀ r, (g r - μ) * (g r - μ) = g r * g r - 2 * μ * g r + μ * μ := fun r => by ring
  simp only [h1]
  rw [Finset.sum_add_distrib, Finset.sum_sub_distrib, ← Finset.mul_sum, hS, Finset.sum_const, Finset.card_univ,
    Fintype.card_fin, nsmul_eq_mul]
  push_cast
  ring

theorem eps_eq : eps = ((10995116 / 2 ^ 40 : ℝ) : EReal) := by
  simp [eps, Ideal.ofBits, Ideal.ieee, -EReal.coe_mul]
  norm_num

theorem varK_eq_varR {h : Mat 50000 128} (hh : AllReal h) : varK h = varR h := by
  obtain ⟨f, rfl⟩ := hh.witness
  funext j
  rw [varK_coe, varR_coe]
  exact congrArg _ (var_identity fun r => f (ix2 r j))

theorem meanR_real {h : Mat 50000 128} (hh : AllReal h) : AllRealV (meanR h) := by
  obtain ⟨f, rfl⟩ := hh.witness
  intro j
  exact ⟨rmean f j, by rw [← meanK_eq_meanR, meanK_coe]⟩

theorem varR_real_nonneg {h : Mat 50000 128} (hh : AllReal h) (j : Fin 128) :
    ∃ v : ℝ, 0 ≤ v ∧ varR h j = (v : EReal) := by
  obtain ⟨f, rfl⟩ := hh.witness
  exact ⟨_, mul_nonneg (Finset.sum_nonneg fun r _ => mul_self_nonneg _) (by norm_num), varR_coe f j⟩

end Cert.Spec

end
-- ==== Proof.Spec.Alg.lean ====
import proofs.«137587_j59279138619792_1_alg».proof.Proof.Spec.Net
import proofs.«137587_j59279138619792_1_alg».proof.Proof.Spec.Real
import proofs.«137587_j59279138619792_1_alg».proof.Proof.Spec.Var
import Mathlib.Data.EReal.Operations
import Mathlib.Tactic.Positivity

noncomputable section

namespace Cert.Spec

open Idealize.ShloMosaic Idealize.ShloMosaic.ValueIdx

theorem bn_real {h hin : Mat 50000 128} {mean var γ β : Fin 128 → EReal} (hh : AllReal h) (hhin : AllReal hin)
    (hm : AllRealV mean) (hv : ∀ j, ∃ v : ℝ, 0 ≤ v ∧ var j = (v : EReal)) (hγ : AllRealV γ) (hβ : AllRealV β) :
    AllReal (bn h hin mean var γ β) := by
  intro i
  obtain ⟨a, ha⟩ := hh i
  obtain ⟨b, hb⟩ := hhin i
  obtain ⟨m, hm⟩ := hm (i 1)
  obtain ⟨v, hv0, hv⟩ := hv (i 1)
  obtain ⟨g, hg⟩ := hγ (i 1)
  obtain ⟨c, hc⟩ := hβ (i 1)
  have hpos : 0 < v + 10995116 / 2 ^ 40 := by positivity
  refine ⟨b + max (((a - m) * (Real.sqrt (v + 10995116 / 2 ^ 40))⁻¹) * g + c) 0, ?_⟩
  simp only [bn, ha, hb, hm, hv, hg, hc, eps_eq]
  rw [← EReal.coe_add v, Ideal.rsqrt_coe, if_neg (not_lt.mpr hpos.le), if_neg hpos.ne']
  rw [← EReal.coe_sub, ← EReal.coe_mul, ← EReal.coe_mul, ← EReal.coe_add, coe_max_zero, ← EReal.coe_add]

theorem pre_real {agg : Mat 50000 128 → Mat 50000 128} (hagg : ∀ x, AllReal x → AllReal (agg x)) {w : Mat 128 128}
    {bl : Fin 128 → EReal} {h : Mat 50000 128} (hw : AllReal w) (hbl : AllRealV bl) (hh : AllReal h) :
    AllReal (fun i => agg (lin0 h w) i + bl (i 1)) :=
  addRow_real (hagg _ (lin0_real hh hw)) hbl

theorem layerK_eq_layerR {agg : Mat 50000 128 → Mat 50000 128} (hagg : ∀ x, AllReal x → AllReal (agg x)) {w : Mat 128 128}
    {bl : Fin 128 → EReal} (γ β : Fin 128 → EReal) {h : Mat 50000 128} (hw : AllReal w) (hbl : AllRealV bl)
    (hh : AllReal h) : layerK agg w bl γ β h = layerR agg w bl γ β h := by
  simp only [layerK, layerR, lin_zero, meanK_eq_meanR, varK_eq_varR (pre_real hagg hw hbl hh)]

theorem layerR_real {agg : Mat 50000 128 → Mat 50000 128} (hagg : ∀ x, AllReal x → AllReal (agg x)) {w : Mat 128 128}
    {bl γ β : Fin 128 → EReal} {h : Mat 50000 128} (hw : AllReal w) (hbl : AllRealV bl) (hγ : AllRealV γ)
    (hβ : AllRealV β) (hh : AllReal h) : AllReal (layerR agg w bl γ β h) :=
  bn_real (pre_real hagg hw hbl hh) hh (meanR_real (pre_real hagg hw hbl hh))
    (varR_real_nonneg (pre_real hagg hw hbl hh)) hγ hβ

theorem netK_eq_netR (agg : Mat 50000 128 → Mat 50000 128) (hagg : ∀ x, AllReal x → AllReal (agg x)) (P : Params)
    (hP : P.AllReal) : netK agg P = netR agg P := by
  have h0 : AllReal (lin P.h0 P.Wemb P.bemb) := lin_real hP.h0 hP.Wemb hP.bemb
  have h1 := layerR_real hagg (hP.W 0) (hP.b 0) (hP.γ 0) (hP.β 0) h0
  have h2 := layerR_real hagg (hP.W 1) (hP.b 1) (hP.γ 1) (hP.β 1) h1
  have h3 := layerR_real hagg (hP.W 2) (hP.b 2) (hP.γ 2) (hP.β 2) h2
  unfold netK netR
  rw [layerK_eq_layerR hagg (P.γ 0) (P.β 0) (hP.W 0) (hP.b 0) h0,
    layerK_eq_layerR hagg (P.γ 1) (P.β 1) (hP.W 1) (hP.b 1) h1,
    layerK_eq_layerR hagg (P.γ 2) (P.β 2) (hP.W 2) (hP.b 2) h2,
    layerK_eq_layerR hagg (P.γ 3) (P.β 3) (hP.W 3) (hP.b 3) h3]

end Cert.Spec

end
-- ==== Proof.PreReal.lean ====
import proofs.«137587_j59279138619792_1_alg».proof.Defs
import proofs.«137587_j59279138619792_1_alg».proof.Proof.Gen.Pre_finite_inputs
import proofs.«137587_j59279138619792_1_alg».proof.Proof.Spec.Net
import Idealize.ShloMosaic.Lib.ReduceAll
import Idealize.ShloMosaic.Lib.ValueIdx
import Idealize.ShloMosaic.PureOps.Ideal

noncomputable section

namespace Cert.Proof.PreReal

open Idealize.ShloMosaic Idealize.ShloMosaic.ValueIdx Idealize.SL.Sem Cert.Spec Cert.Pre_finite_inputs

local instance : Subsingleton S_.Idx := ⟨fun a b => funext fun d => d.elim0⟩

theorem inf_eq_top : Ideal.ofBits .f32 0x7F800000#32 = (⊤ : EReal) := by simp [Ideal.ofBits, Ideal.ieee]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change BitVec.ofBool (decide (max x (-x) < Ideal.ofBits .f32 0x7F800000#32)) = 1#1 at h
  rw [inf_eq_top] at h
  induction x using EReal.rec with
  | bot => simp at h
  | top => simp at h
  | coe r => exact ⟨r, rfl⟩

theorem allReal_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi (cmpf .olt (Host.absf x) (broadcastInDim S ![] hb (constant S_ .f32 0x7F800000#32)))
      (constantI S_ 1 1#1) hr hu ix0 = 1#1) : AllReal x :=
  fun i => real_of_abs_lt_inf (x i) (Host.reduce_andi_all _ _ hr hu ix0 e i)

theorem and_ix0 (a b : IVec S_ 1) (h : andi a b ix0 = 1#1) : a ix0 = 1#1 ∧ b ix0 = 1#1 := IntOp.andi_eq_one.1 h

theorem params_real (m : (ℓ : Loc Cert.KernelIdeal.nD Cert.KernelIdeal.τ Cert.KernelIdeal.sig) → Buf (Elt Ideal) ℓ)
    [hPre_finite_inputs : Cert.Pre_finite_inputs.Facts] (h : Cert.Pre_KernelIdeal m) (c : Dev Cert.KernelIdeal.nD) :
    (Cert.Spec.mkParams (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).AllReal := by
  have h0 := congrFun (h c) ix0
  dsimp only [Cert.Pre_finite_inputs.fn, Cert.Pre_finite_inputs.fn_part1, Cert.Pre_finite_inputs.fn_part2] at h0
  obtain ⟨h0, e10⟩ := and_ix0 _ _ h0
  obtain ⟨h0, e9⟩ := and_ix0 _ _ h0
  obtain ⟨h0, e8⟩ := and_ix0 _ _ h0
  obtain ⟨h0, e7⟩ := and_ix0 _ _ h0
  obtain ⟨h0, e6⟩ := and_ix0 _ _ h0
  obtain ⟨h0, e5⟩ := and_ix0 _ _ h0
  obtain ⟨h0, e4⟩ := and_ix0 _ _ h0
  obtain ⟨h0, e3⟩ := and_ix0 _ _ h0
  obtain ⟨e0, _⟩ := and_ix0 _ _ h0
  exact
    { h0 := allReal_of_all _ _ _ _ e0
      Wemb := allReal_of_all _ _ _ _ e3
      bemb := fun j => allReal_of_all _ _ _ _ e4 (ix1 j)
      W := fun l i => allReal_of_all _ _ _ _ e5 (ix3 l (i 0) (i 1))
      b := fun l j => allReal_of_all _ _ _ _ e6 (ix2 l j)
      γ := fun l j => allReal_of_all _ _ _ _ e7 (ix2 l j)
      β := fun l j => allReal_of_all _ _ _ _ e8 (ix2 l j)
      Wmlp := allReal_of_all _ _ _ _ e9
      bmlp := fun j => allReal_of_all _ _ _ _ e10 (ix1 j) }

end Cert.Proof.PreReal

end
-- ==== Proof.lean ====
import proofs.«137587_j59279138619792_1_alg».proof.Defs
import proofs.«137587_j59279138619792_1_alg».proof.Proof.Gen.Kernel
import proofs.«137587_j59279138619792_1_alg».proof.Proof.Gen.KernelIdeal
import proofs.«137587_j59279138619792_1_alg».proof.Proof.Gen.ReferenceIdeal
import proofs.«137587_j59279138619792_1_alg».proof.Proof.Gen.Pre_finite_inputs
import proofs.«137587_j59279138619792_1_alg».proof.Proof.K.Run
import proofs.«137587_j59279138619792_1_alg».proof.Proof.KI.Run
import proofs.«137587_j59279138619792_1_alg».proof.Proof.KI.Val
import proofs.«137587_j59279138619792_1_alg».proof.Proof.Ref.Run
import proofs.«137587_j59279138619792_1_alg».proof.Proof.Ref.Val
import proofs.«137587_j59279138619792_1_alg».proof.Proof.Spec.Alg
import proofs.«137587_j59279138619792_1_alg».proof.Proof.Spec.Agg
import proofs.«137587_j59279138619792_1_alg».proof.Proof.PreReal
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => (θ_run (Cert.KernelIdeal.defs (F := Ideal)) _ _).mono (fun _ h c => (h c).2) (Cert.KernelIdeal.Gen.run_value (F := Ideal) m ρ)

theorem frame_ri : @Cert.frame_ReferenceIdeal Cert.ReferenceIdeal.Gen.facts Cert.Pre_finite_inputs.Gen.facts :=
  fun m ρ _ => (θ_run (Cert.ReferenceIdeal.defs (F := Ideal)) _ _).mono (fun _ h c => (h c).2) (Cert.ReferenceIdeal.RefRun.run m ρ)

theorem named_inv : IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

theorem preserves : Cert.preserves_Kernel_KernelIdeal :=
  ⟨named_inv, named_inv, named_inv, named_inv, named_inv, named_inv, named_inv, named_inv⟩

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.o_main_v154 (F := Ideal) m c, Cert.KernelIdeal.Gen.run_value (F := Ideal) m ρ, ?_⟩
  refine (θ_run (Cert.ReferenceIdeal.defs (F := Ideal)) _ _).mono (fun _ h c => ⟨(h c).1.trans ?_, (h c).2⟩)
    (Cert.ReferenceIdeal.RefRun.run m' ρ')
  have hk := Cert.KernelIdeal.Gen.final_eq m c
  have hr := Cert.ReferenceIdeal.RefVal.term_eq m' c
  have hP := Cert.Proof.PreReal.params_real m hpre c
  obtain ⟨h0, h1, h2, h3, h4, h5, h6, h7, h8, h9, h10⟩ := hagree c
  rw [h0, h1, h3, h4, h5, h6, h7, h8, h9, h10] at hr
  exact hr.trans ((Cert.Spec.netK_eq_netR _ (Cert.Spec.agg_real _) _ hP).symm.trans hk.symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
